-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x512 : Shape := ⟨2, ![64, 512]⟩
abbrev S512x1024 : Shape := ⟨2, ![512, 1024]⟩
abbrev S1024x512 : Shape := ⟨2, ![1024, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_arg5 : FVec F S512x1024 .f32) (main_arg6 : FVec F S1024x512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  main_v33

def fn {F : FTy → Type} [FloatOps F] (main_arg0 : FVec F S64x512 .f32) (main_arg1 : FVec F S512x1024 .f32) (main_arg2 : FVec F S1024x512 .f32) (main_arg3 : FVec F S512x1024 .f32) (main_arg4 : FVec F S1024x512 .f32) (main_arg5 : FVec F S512x1024 .f32) (main_arg6 : FVec F S1024x512 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Pre_finite_inputs_ReferenceIdeal.lean ====
abbrev S512x512 : Shape := ⟨2, ![512, 512]⟩
abbrev S512x8192 : Shape := ⟨2, ![512, 8192]⟩
abbrev S8192x512 : Shape := ⟨2, ![8192, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S8192x512 .f32) (main_arg5 : FVec F S512x8192 .f32) (main_arg6 : FVec F S8192x512 .f32) (main_v13 : IVec S_ 1) (main_v16 : IVec S512x8192 1) : IVec S_ 1 :=
  let main_c_5 : IVec S_ 1 := constantI S_ 1 1#1
  let main_v17 : IVec S_ 1 := (fun x v => Host.reduce IntOp.andi x v reducesTo_S512x8192_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S512x8192 .f32 := Host.absf main_arg5
  let main_cst_8 : FVec F S_ .f32 := constant S_ .f32 0x7F800000#32
  let main_v25 : FVec F S512x8192 .f32 := broadcastInDim S512x8192 ![] bcast_S_S512x8192 main_cst_8
  let main_v26 : IVec S512x8192 1 := cmpf .olt main_v24 main_v25
  let main_c_9 : IVec S_ 1 := constantI S_ 1 1#1
  let main_v27 : IVec S_ 1 := (fun x v => Host.reduce IntOp.andi x v reducesTo_S512x8192_S_d0_1 h_S_) main_v26 main_c_9
  let main_v28 : IVec S_ 1 := andi main_v23 main_v27
  let main_v29 : FVec F S8192x512 .f32 := Host.absf main_arg6
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  main_v33

def fn {F : FTy → Type} [FloatOps F] (main_arg0 : FVec F S512x512 .f32) (main_arg1 : FVec F S512x8192 .f32) (main_arg2 : FVec F S8192x512 .f32) (main_arg3 : FVec F S512x8192 .f32) (main_arg4 : FVec F S8192x512 .f32) (main_arg5 : FVec F S512x8192 .f32) (main_arg6 : FVec F S8192x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S512x8192 .f32 := Host.absf main_arg3
  let main_cst_4 : FVec F S_ .f32 := constant S_ .f32 0x7F800000#32
  let main_v15 : FVec F S512x8192 .f32 := broadcastInDim S512x8192 ![] bcast_S_S512x8192 main_cst_4
  let main_v16 : IVec S512x8192 1 := cmpf .olt main_v14 main_v15
  fn_part1 (F := F) main_arg4 main_arg5 main_arg6 main_v13 main_v16
-- ==== Kernel.lean ====
abbrev S64x512 : Shape := ⟨2, ![64, 512]⟩
abbrev S512x1024 : Shape := ⟨2, ![512, 1024]⟩
abbrev S1024x512 : Shape := ⟨2, ![1024, 512]⟩
abbrev S512x512 : Shape := ⟨2, ![512, 512]⟩
abbrev S8x64x512 : Shape := ⟨3, ![8, 64, 512]⟩
abbrev S8 : Shape := ⟨1, ![8]⟩
abbrev S_ : Shape := ⟨0, ![]⟩
abbrev S1x64x512 : Shape := ⟨3, ![1, 64, 512]⟩
abbrev S1 : Shape := ⟨1, ![1]⟩
abbrev S128x512 : Shape := ⟨2, ![128, 512]⟩
abbrev S128x1024 : Shape := ⟨2, ![128, 1024]⟩

abbrev nBuf : Space → Nat
  | .hbm => 8
  | .vmem => 14
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S64x512, .f32⟩
  | .local _ .vmem, ⟨8, _⟩ => ⟨S512x512, .bf16⟩
  | .local _ .vmem, ⟨9, _⟩ => ⟨S8x64x512, .bf16⟩
  | .local _ .vmem, ⟨10, _⟩ => ⟨S64x512, .f32⟩
  | .local _ .vmem, ⟨11, _⟩ => ⟨S512x512, .bf16⟩
  | .local _ .vmem, ⟨12, _⟩ => ⟨S512x1024, .bf16⟩
  | .local _ .vmem, ⟨13, _⟩ => ⟨S1024x512, .bf16⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v46 : BitVec 32 := Scalar.addi v2 c1_i32_39
  let c8_i32_40 : BitVec 32 := 8#32
  let v47 : BitVec 32 := Scalar.remsi v46 c8_i32_40
  let c1_i32_43 : BitVec 32 := 1#32
  let v48 : BitVec 32 := Scalar.muli v47 c1_i32_43
  let v49 : BitVec 32 := Scalar.addi c0_i32_44 v48
  v49.toNat
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_48 : BitVec 32 := 2#32
  let v56 : BitVec 32 := Scalar.addi v2 c2_i32_48
  let c8_i32_49 : BitVec 32 := 8#32
  let v57 : BitVec 32 := Scalar.remsi v56 c8_i32_49
  let c1_i32_52 : BitVec 32 := 1#32
  let v58 : BitVec 32 := Scalar.muli v57 c1_i32_52
  let v59 : BitVec 32 := Scalar.addi c0_i32_53 v58
  v59.toNat
def k0_dev10 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_57 : BitVec 32 := 3#32
  let v66 : BitVec 32 := Scalar.addi v2 c3_i32_57
  let c8_i32_58 : BitVec 32 := 8#32
  let v67 : BitVec 32 := Scalar.remsi v66 c8_i32_58
  let c1_i32_61 : BitVec 32 := 1#32
  let v68 : BitVec 32 := Scalar.muli v67 c1_i32_61
  let v69 : BitVec 32 := Scalar.addi c0_i32_62 v68
  v69.toNat
def k0_dev11 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v76 : BitVec 32 := Scalar.addi v2 c4_i32_66
  let c8_i32_67 : BitVec 32 := 8#32
  let v77 : BitVec 32 := Scalar.remsi v76 c8_i32_67
  let c1_i32_70 : BitVec 32 := 1#32
  let v78 : BitVec 32 := Scalar.muli v77 c1_i32_70
  let v79 : BitVec 32 := Scalar.addi c0_i32_71 v78
  v79.toNat
def k0_dev12 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_75 : BitVec 32 := 5#32
  let v86 : BitVec 32 := Scalar.addi v2 c5_i32_75
  let c8_i32_76 : BitVec 32 := 8#32
  let v87 : BitVec 32 := Scalar.remsi v86 c8_i32_76
  let c1_i32_79 : BitVec 32 := 1#32
  let v88 : BitVec 32 := Scalar.muli v87 c1_i32_79
  let v89 : BitVec 32 := Scalar.addi c0_i32_80 v88
  v89.toNat
def k0_dev13 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_84 : BitVec 32 := 6#32
  let v96 : BitVec 32 := Scalar.addi v2 c6_i32_84
  let c8_i32_85 : BitVec 32 := 8#32
  let v97 : BitVec 32 := Scalar.remsi v96 c8_i32_85
  let c1_i32_88 : BitVec 32 := 1#32
  let v98 : BitVec 32 := Scalar.muli v97 c1_i32_88
  let v99 : BitVec 32 := Scalar.addi c0_i32_89 v98
  v99.toNat
def k0_dev14 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_93 : BitVec 32 := 7#32
  let v106 : BitVec 32 := Scalar.addi v2 c7_i32_93
  let c8_i32_94 : BitVec 32 := 8#32
  let v107 : BitVec 32 := Scalar.remsi v106 c8_i32_94
  let c1_i32_97 : BitVec 32 := 1#32
  let v108 : BitVec 32 := Scalar.muli v107 c1_i32_97
  let v109 : BitVec 32 := Scalar.addi c0_i32_98 v108
  v109.toNat
def k0_dev15 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_129 : BitVec 32 := 7#32
  let v146 : BitVec 32 := Scalar.addi v2 c7_i32_129
  let c8_i32_130 : BitVec 32 := 8#32
  let v147 : BitVec 32 := Scalar.remsi v146 c8_i32_130
  let c1_i32_134 : BitVec 32 := 1#32
  let v148 : BitVec 32 := Scalar.muli v147 c1_i32_134
  let v149 : BitVec 32 := Scalar.addi c0_i32_135 v148
  v149.toNat
def k0_dev16 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_166 : BitVec 32 := 6#32
  let v181 : BitVec 32 := Scalar.addi v2 c6_i32_166
  let c8_i32_167 : BitVec 32 := 8#32
  let v182 : BitVec 32 := Scalar.remsi v181 c8_i32_167
  let c1_i32_171 : BitVec 32 := 1#32
  let v183 : BitVec 32 := Scalar.muli v182 c1_i32_171
  let v184 : BitVec 32 := Scalar.addi c0_i32_172 v183
  v184.toNat
def k0_dev17 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_177 : BitVec 32 := 5#32
  let v192 : BitVec 32 := Scalar.addi v2 c5_i32_177
  let c8_i32_178 : BitVec 32 := 8#32
  let v193 : BitVec 32 := Scalar.remsi v192 c8_i32_178
  let c1_i32_182 : BitVec 32 := 1#32
  let v194 : BitVec 32 := Scalar.muli v193 c1_i32_182
  let v195 : BitVec 32 := Scalar.addi c0_i32_183 v194
  v195.toNat
def k0_dev18 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_214 : BitVec 32 := 4#32
  let v227 : BitVec 32 := Scalar.addi v2 c4_i32_214
  let c8_i32_215 : BitVec 32 := 8#32
  let v228 : BitVec 32 := Scalar.remsi v227 c8_i32_215
  let c1_i32_219 : BitVec 32 := 1#32
  let v229 : BitVec 32 := Scalar.muli v228 c1_i32_219
  let v230 : BitVec 32 := Scalar.addi c0_i32_220 v229
  v230.toNat
def k0_dev19 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_225 : BitVec 32 := 3#32
  let v238 : BitVec 32 := Scalar.addi v2 c3_i32_225
  let c8_i32_226 : BitVec 32 := 8#32
  let v239 : BitVec 32 := Scalar.remsi v238 c8_i32_226
  let c1_i32_230 : BitVec 32 := 1#32
  let v240 : BitVec 32 := Scalar.muli v239 c1_i32_230
  let v241 : BitVec 32 := Scalar.addi c0_i32_231 v240
  v241.toNat
def k0_dev20 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_262 : BitVec 32 := 2#32
  let v273 : BitVec 32 := Scalar.addi v2 c2_i32_262
  let c8_i32_263 : BitVec 32 := 8#32
  let v274 : BitVec 32 := Scalar.remsi v273 c8_i32_263
  let c1_i32_267 : BitVec 32 := 1#32
  let v275 : BitVec 32 := Scalar.muli v274 c1_i32_267
  let v276 : BitVec 32 := Scalar.addi c0_i32_268 v275
  v276.toNat
def k0_dev21 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_273 : BitVec 32 := 1#32
  let v284 : BitVec 32 := Scalar.addi v2 c1_i32_273
  let c8_i32_274 : BitVec 32 := 8#32
  let v285 : BitVec 32 := Scalar.remsi v284 c8_i32_274
  let c1_i32_278 : BitVec 32 := 1#32
  let v286 : BitVec 32 := Scalar.muli v285 c1_i32_278
  let v287 : BitVec 32 := Scalar.addi c0_i32_279 v286
  v287.toNat
def k0_dev22 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v421 : BitVec 32 := Scalar.addi v2 c1_i32_464
  let c8_i32_465 : BitVec 32 := 8#32
  let v422 : BitVec 32 := Scalar.remsi v421 c8_i32_465
  let c1_i32_468 : BitVec 32 := 1#32
  let v423 : BitVec 32 := Scalar.muli v422 c1_i32_468
  let v424 : BitVec 32 := Scalar.addi c0_i32_469 v423
  v424.toNat
def k0_dev23 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_474 : BitVec 32 := 2#32
  let v431 : BitVec 32 := Scalar.addi v2 c2_i32_474
  let c8_i32_475 : BitVec 32 := 8#32
  let v432 : BitVec 32 := Scalar.remsi v431 c8_i32_475
  let c1_i32_478 : BitVec 32 := 1#32
  let v433 : BitVec 32 := Scalar.muli v432 c1_i32_478
  let v434 : BitVec 32 := Scalar.addi c0_i32_479 v433
  v434.toNat
def k0_dev24 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_484 : BitVec 32 := 3#32
  let v441 : BitVec 32 := Scalar.addi v2 c3_i32_484
  let c8_i32_485 : BitVec 32 := 8#32
  let v442 : BitVec 32 := Scalar.remsi v441 c8_i32_485
  let c1_i32_488 : BitVec 32 := 1#32
  let v443 : BitVec 32 := Scalar.muli v442 c1_i32_488
  let v444 : BitVec 32 := Scalar.addi c0_i32_489 v443
  v444.toNat
def k0_dev25 (d0 : Dev nD) : Nat :=
  let c0_i32_499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_494 : BitVec 32 := 4#32
  let v451 : BitVec 32 := Scalar.addi v2 c4_i32_494
  let c8_i32_495 : BitVec 32 := 8#32
  let v452 : BitVec 32 := Scalar.remsi v451 c8_i32_495
  let c1_i32_498 : BitVec 32 := 1#32
  let v453 : BitVec 32 := Scalar.muli v452 c1_i32_498
  let v454 : BitVec 32 := Scalar.addi c0_i32_499 v453
  v454.toNat
def k0_dev26 (d0 : Dev nD) : Nat :=
  let c0_i32_509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_504 : BitVec 32 := 5#32
  let v461 : BitVec 32 := Scalar.addi v2 c5_i32_504
  let c8_i32_505 : BitVec 32 := 8#32
  let v462 : BitVec 32 := Scalar.remsi v461 c8_i32_505
  let c1_i32_508 : BitVec 32 := 1#32
  let v463 : BitVec 32 := Scalar.muli v462 c1_i32_508
  let v464 : BitVec 32 := Scalar.addi c0_i32_509 v463
  v464.toNat
def k0_dev27 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_514 : BitVec 32 := 6#32
  let v471 : BitVec 32 := Scalar.addi v2 c6_i32_514
  let c8_i32_515 : BitVec 32 := 8#32
  let v472 : BitVec 32 := Scalar.remsi v471 c8_i32_515
  let c1_i32_518 : BitVec 32 := 1#32
  let v473 : BitVec 32 := Scalar.muli v472 c1_i32_518
  let v474 : BitVec 32 := Scalar.addi c0_i32_519 v473
  v474.toNat
def k0_dev28 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_524 : BitVec 32 := 7#32
  let v481 : BitVec 32 := Scalar.addi v2 c7_i32_524
  let c8_i32_525 : BitVec 32 := 8#32
  let v482 : BitVec 32 := Scalar.remsi v481 c8_i32_525
  let c1_i32_528 : BitVec 32 := 1#32
  let v483 : BitVec 32 := Scalar.muli v482 c1_i32_528
  let v484 : BitVec 32 := Scalar.addi c0_i32_529 v483
  v484.toNat
def k0_dev29 (d0 : Dev nD) : Nat :=
  let c0_i32_567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_561 : BitVec 32 := 7#32
  let v521 : BitVec 32 := Scalar.addi v2 c7_i32_561
  let c8_i32_562 : BitVec 32 := 8#32
  let v522 : BitVec 32 := Scalar.remsi v521 c8_i32_562
  let c1_i32_566 : BitVec 32 := 1#32
  let v523 : BitVec 32 := Scalar.muli v522 c1_i32_566
  let v524 : BitVec 32 := Scalar.addi c0_i32_567 v523
  v524.toNat
def k0_dev30 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_599 : BitVec 32 := 6#32
  let v556 : BitVec 32 := Scalar.addi v2 c6_i32_599
  let c8_i32_600 : BitVec 32 := 8#32
  let v557 : BitVec 32 := Scalar.remsi v556 c8_i32_600
  let c1_i32_604 : BitVec 32 := 1#32
  let v558 : BitVec 32 := Scalar.muli v557 c1_i32_604
  let v559 : BitVec 32 := Scalar.addi c0_i32_605 v558
  v559.toNat
def k0_dev31 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_610 : BitVec 32 := 5#32
  let v567 : BitVec 32 := Scalar.addi v2 c5_i32_610
  let c8_i32_611 : BitVec 32 := 8#32
  let v568 : BitVec 32 := Scalar.remsi v567 c8_i32_611
  let c1_i32_615 : BitVec 32 := 1#32
  let v569 : BitVec 32 := Scalar.muli v568 c1_i32_615
  let v570 : BitVec 32 := Scalar.addi c0_i32_616 v569
  v570.toNat
def k0_dev32 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_648 : BitVec 32 := 4#32
  let v602 : BitVec 32 := Scalar.addi v2 c4_i32_648
  let c8_i32_649 : BitVec 32 := 8#32
  let v603 : BitVec 32 := Scalar.remsi v602 c8_i32_649
  let c1_i32_653 : BitVec 32 := 1#32
  let v604 : BitVec 32 := Scalar.muli v603 c1_i32_653
  let v605 : BitVec 32 := Scalar.addi c0_i32_654 v604
  v605.toNat
def k0_dev33 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_659 : BitVec 32 := 3#32
  let v613 : BitVec 32 := Scalar.addi v2 c3_i32_659
  let c8_i32_660 : BitVec 32 := 8#32
  let v614 : BitVec 32 := Scalar.remsi v613 c8_i32_660
  let c1_i32_664 : BitVec 32 := 1#32
  let v615 : BitVec 32 := Scalar.muli v614 c1_i32_664
  let v616 : BitVec 32 := Scalar.addi c0_i32_665 v615
  v616.toNat
def k0_dev34 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_697 : BitVec 32 := 2#32
  let v648 : BitVec 32 := Scalar.addi v2 c2_i32_697
  let c8_i32_698 : BitVec 32 := 8#32
  let v649 : BitVec 32 := Scalar.remsi v648 c8_i32_698
  let c1_i32_702 : BitVec 32 := 1#32
  let v650 : BitVec 32 := Scalar.muli v649 c1_i32_702
  let v651 : BitVec 32 := Scalar.addi c0_i32_703 v650
  v651.toNat
def k0_dev35 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_708 : BitVec 32 := 1#32
  let v659 : BitVec 32 := Scalar.addi v2 c1_i32_708
  let c8_i32_709 : BitVec 32 := 8#32
  let v660 : BitVec 32 := Scalar.remsi v659 c8_i32_709
  let c1_i32_713 : BitVec 32 := 1#32
  let v661 : BitVec 32 := Scalar.muli v660 c1_i32_713
  let v662 : BitVec 32 := Scalar.addi c0_i32_714 v661
  v662.toNat
def k0_dev36 (d0 : Dev nD) : Nat :=
  let c0_i32_904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_899 : BitVec 32 := 1#32
  let v796 : BitVec 32 := Scalar.addi v2 c1_i32_899
  let c8_i32_900 : BitVec 32 := 8#32
  let v797 : BitVec 32 := Scalar.remsi v796 c8_i32_900
  let c1_i32_903 : BitVec 32 := 1#32
  let v798 : BitVec 32 := Scalar.muli v797 c1_i32_903
  let v799 : BitVec 32 := Scalar.addi c0_i32_904 v798
  v799.toNat
def k0_dev37 (d0 : Dev nD) : Nat :=
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_909 : BitVec 32 := 2#32
  let v806 : BitVec 32 := Scalar.addi v2 c2_i32_909
  let c8_i32_910 : BitVec 32 := 8#32
  let v807 : BitVec 32 := Scalar.remsi v806 c8_i32_910
  let c1_i32_913 : BitVec 32 := 1#32
  let v808 : BitVec 32 := Scalar.muli v807 c1_i32_913
  let v809 : BitVec 32 := Scalar.addi c0_i32_914 v808
  v809.toNat
def k0_dev38 (d0 : Dev nD) : Nat :=
  let c0_i32_924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_919 : BitVec 32 := 3#32
  let v816 : BitVec 32 := Scalar.addi v2 c3_i32_919
  let c8_i32_920 : BitVec 32 := 8#32
  let v817 : BitVec 32 := Scalar.remsi v816 c8_i32_920
  let c1_i32_923 : BitVec 32 := 1#32
  let v818 : BitVec 32 := Scalar.muli v817 c1_i32_923
  let v819 : BitVec 32 := Scalar.addi c0_i32_924 v818
  v819.toNat
def k0_dev39 (d0 : Dev nD) : Nat :=
  let c0_i32_934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_929 : BitVec 32 := 4#32
  let v826 : BitVec 32 := Scalar.addi v2 c4_i32_929
  let c8_i32_930 : BitVec 32 := 8#32
  let v827 : BitVec 32 := Scalar.remsi v826 c8_i32_930
  let c1_i32_933 : BitVec 32 := 1#32
  let v828 : BitVec 32 := Scalar.muli v827 c1_i32_933
  let v829 : BitVec 32 := Scalar.addi c0_i32_934 v828
  v829.toNat
def k0_dev40 (d0 : Dev nD) : Nat :=
  let c0_i32_944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_939 : BitVec 32 := 5#32
  let v836 : BitVec 32 := Scalar.addi v2 c5_i32_939
  let c8_i32_940 : BitVec 32 := 8#32
  let v837 : BitVec 32 := Scalar.remsi v836 c8_i32_940
  let c1_i32_943 : BitVec 32 := 1#32
  let v838 : BitVec 32 := Scalar.muli v837 c1_i32_943
  let v839 : BitVec 32 := Scalar.addi c0_i32_944 v838
  v839.toNat
def k0_dev41 (d0 : Dev nD) : Nat :=
  let c0_i32_954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v846 : BitVec 32 := Scalar.addi v2 c6_i32_949
  let c8_i32_950 : BitVec 32 := 8#32
  let v847 : BitVec 32 := Scalar.remsi v846 c8_i32_950
  let c1_i32_953 : BitVec 32 := 1#32
  let v848 : BitVec 32 := Scalar.muli v847 c1_i32_953
  let v849 : BitVec 32 := Scalar.addi c0_i32_954 v848
  v849.toNat
def k0_dev42 (d0 : Dev nD) : Nat :=
  let c0_i32_964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_959 : BitVec 32 := 7#32
  let v856 : BitVec 32 := Scalar.addi v2 c7_i32_959
  let c8_i32_960 : BitVec 32 := 8#32
  let v857 : BitVec 32 := Scalar.remsi v856 c8_i32_960
  let c1_i32_963 : BitVec 32 := 1#32
  let v858 : BitVec 32 := Scalar.muli v857 c1_i32_963
  let v859 : BitVec 32 := Scalar.addi c0_i32_964 v858
  v859.toNat
def k0_dev43 (d0 : Dev nD) : Nat :=
  let c0_i32_1002 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_996 : BitVec 32 := 7#32
  let v896 : BitVec 32 := Scalar.addi v2 c7_i32_996
  let c8_i32_997 : BitVec 32 := 8#32
  let v897 : BitVec 32 := Scalar.remsi v896 c8_i32_997
  let c1_i32_1001 : BitVec 32 := 1#32
  let v898 : BitVec 32 := Scalar.muli v897 c1_i32_1001
  let v899 : BitVec 32 := Scalar.addi c0_i32_1002 v898
  v899.toNat
def k0_dev44 (d0 : Dev nD) : Nat :=
  let c0_i32_1040 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1034 : BitVec 32 := 6#32
  let v931 : BitVec 32 := Scalar.addi v2 c6_i32_1034
  let c8_i32_1035 : BitVec 32 := 8#32
  let v932 : BitVec 32 := Scalar.remsi v931 c8_i32_1035
  let c1_i32_1039 : BitVec 32 := 1#32
  let v933 : BitVec 32 := Scalar.muli v932 c1_i32_1039
  let v934 : BitVec 32 := Scalar.addi c0_i32_1040 v933
  v934.toNat
def k0_dev45 (d0 : Dev nD) : Nat :=
  let c0_i32_1051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1045 : BitVec 32 := 5#32
  let v942 : BitVec 32 := Scalar.addi v2 c5_i32_1045
  let c8_i32_1046 : BitVec 32 := 8#32
  let v943 : BitVec 32 := Scalar.remsi v942 c8_i32_1046
  let c1_i32_1050 : BitVec 32 := 1#32
  let v944 : BitVec 32 := Scalar.muli v943 c1_i32_1050
  let v945 : BitVec 32 := Scalar.addi c0_i32_1051 v944
  v945.toNat
def k0_dev46 (d0 : Dev nD) : Nat :=
  let c0_i32_1089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1083 : BitVec 32 := 4#32
  let v977 : BitVec 32 := Scalar.addi v2 c4_i32_1083
  let c8_i32_1084 : BitVec 32 := 8#32
  let v978 : BitVec 32 := Scalar.remsi v977 c8_i32_1084
  let c1_i32_1088 : BitVec 32 := 1#32
  let v979 : BitVec 32 := Scalar.muli v978 c1_i32_1088
  let v980 : BitVec 32 := Scalar.addi c0_i32_1089 v979
  v980.toNat
def k0_dev47 (d0 : Dev nD) : Nat :=
  let c0_i32_1100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1094 : BitVec 32 := 3#32
  let v988 : BitVec 32 := Scalar.addi v2 c3_i32_1094
  let c8_i32_1095 : BitVec 32 := 8#32
  let v989 : BitVec 32 := Scalar.remsi v988 c8_i32_1095
  let c1_i32_1099 : BitVec 32 := 1#32
  let v990 : BitVec 32 := Scalar.muli v989 c1_i32_1099
  let v991 : BitVec 32 := Scalar.addi c0_i32_1100 v990
  v991.toNat
def k0_dev48 (d0 : Dev nD) : Nat :=
  let c0_i32_1138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1132 : BitVec 32 := 2#32
  let v1023 : BitVec 32 := Scalar.addi v2 c2_i32_1132
  let c8_i32_1133 : BitVec 32 := 8#32
  let v1024 : BitVec 32 := Scalar.remsi v1023 c8_i32_1133
  let c1_i32_1137 : BitVec 32 := 1#32
  let v1025 : BitVec 32 := Scalar.muli v1024 c1_i32_1137
  let v1026 : BitVec 32 := Scalar.addi c0_i32_1138 v1025
  v1026.toNat
def k0_dev49 (d0 : Dev nD) : Nat :=
  let c0_i32_1149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1143 : BitVec 32 := 1#32
  let v1034 : BitVec 32 := Scalar.addi v2 c1_i32_1143
  let c8_i32_1144 : BitVec 32 := 8#32
  let v1035 : BitVec 32 := Scalar.remsi v1034 c8_i32_1144
  let c1_i32_1148 : BitVec 32 := 1#32
  let v1036 : BitVec 32 := Scalar.muli v1035 c1_i32_1148
  let v1037 : BitVec 32 := Scalar.addi c0_i32_1149 v1036
  v1037.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S8x64x512_S1x64x512_0_0_0 : ∀ a, (![0, 0, 0] : Fin 3 → Nat) a + S1x64x512.size a ≤ S8x64x512.size a
  h_S1x64x512 : 0 < S1x64x512.numel
  shapeCasts_S1x64x512_S64x512 : S1x64x512.ShapeCasts S64x512
  shapeCasts_S64x512_S1x64x512 : S64x512.ShapeCasts S1x64x512
  packedbf16_S8x64x512_S1x64x512_0_0_0 : (Rect.unit (s := S8x64x512) ![0, 0, 0] S1x64x512.size inb_S8x64x512_S1x64x512_0_0_0).PackedRows (EltTy.packing .bf16)
  bitsLt_bf16_f32 : FTy.bits .bf16 < FTy.bits .f32
  inb_S512x512_S64x512_0_0 : ∀ a, (![0, 0] : Fin 2 → Nat) a + S64x512.size a ≤ S512x512.size a
  packedbf16_S512x512_S64x512_0_0 : (Rect.unit (s := S512x512) ![0, 0] S64x512.size inb_S512x512_S64x512_0_0).PackedRows (EltTy.packing .bf16)
  hamt_7 : (7#32 : BitVec 32).msb = false
  inb_S8_S1_1 : ∀ a, (![1] : Fin 1 → Nat) a + S1.size a ≤ S8.size a
  squeezes_S1_S_ : S1.Squeezes S_
  inb_S512x512_S64x512_64_0 : ∀ a, (![64, 0] : Fin 2 → Nat) a + S64x512.size a ≤ S512x512.size a
  wordsbf16_S512x512_S64x512_0_0 : (Rect.unit (s := S512x512) ![0, 0] S64x512.size inb_S512x512_S64x512_0_0).WholeWords (EltTy.packing .bf16)
  wordsbf16_S512x512_S64x512_64_0 : (Rect.unit (s := S512x512) ![64, 0] S64x512.size inb_S512x512_S64x512_64_0).WholeWords (EltTy.packing .bf16)
  inb_S8_S1_2 : ∀ a, (![2] : Fin 1 → Nat) a + S1.size a ≤ S8.size a
  inb_S512x512_S64x512_128_0 : ∀ a, (![128, 0] : Fin 2 → Nat) a + S64x512.size a ≤ S512x512.size a
  wordsbf16_S512x512_S64x512_128_0 : (Rect.unit (s := S512x512) ![128, 0] S64x512.size inb_S512x512_S64x512_128_0).WholeWords (EltTy.packing .bf16)
  inb_S8_S1_3 : ∀ a, (![3] : Fin 1 → Nat) a + S1.size a ≤ S8.size a
  inb_S512x512_S64x512_192_0 : ∀ a, (![192, 0] : Fin 2 → Nat) a + S64x512.size a ≤ S512x512.size a
  wordsbf16_S512x512_S64x512_192_0 : (Rect.unit (s := S512x512) ![192, 0] S64x512.size inb_S512x512_S64x512_192_0).WholeWords (EltTy.packing .bf16)
  inb_S8_S1_4 : ∀ a, (![4] : Fin 1 → Nat) a + S1.size a ≤ S8.size a
  inb_S512x512_S64x512_256_0 : ∀ a, (![256, 0] : Fin 2 → Nat) a + S64x512.size a ≤ S512x512.size a
  wordsbf16_S512x512_S64x512_256_0 : (Rect.unit (s := S512x512) ![256, 0] S64x512.size inb_S512x512_S64x512_256_0).WholeWords (EltTy.packing .bf16)
  inb_S8_S1_5 : ∀ a, (![5] : Fin 1 → Nat) a + S1.size a ≤ S8.size a
  inb_S512x512_S64x512_320_0 : ∀ a, (![320, 0] : Fin 2 → Nat) a + S64x512.size a ≤ S512x512.size a
  wordsbf16_S512x512_S64x512_320_0 : (Rect.unit (s := S512x512) ![320, 0] S64x512.size inb_S512x512_S64x512_320_0).WholeWords (EltTy.packing .bf16)
  inb_S8_S1_6 : ∀ a, (![6] : Fin 1 → Nat) a + S1.size a ≤ S8.size a
  inb_S512x512_S64x512_384_0 : ∀ a, (![384, 0] : Fin 2 → Nat) a + S64x512.size a ≤ S512x512.size a
  wordsbf16_S512x512_S64x512_384_0 : (Rect.unit (s := S512x512) ![384, 0] S64x512.size inb_S512x512_S64x512_384_0).WholeWords (EltTy.packing .bf16)
  inb_S8_S1_7 : ∀ a, (![7] : Fin 1 → Nat) a + S1.size a ≤ S8.size a
  inb_S512x512_S64x512_448_0 : ∀ a, (![448, 0] : Fin 2 → Nat) a + S64x512.size a ≤ S512x512.size a
  wordsbf16_S512x512_S64x512_448_0 : (Rect.unit (s := S512x512) ![448, 0] S64x512.size inb_S512x512_S64x512_448_0).WholeWords (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S512x512_S128x512_0_0 : ∀ a, (![0, 0] : Fin 2 → Nat) a + S128x512.size a ≤ S512x512.size a
  h_S128x512 : 0 < S128x512.numel
  shapeCasts_S128x512_S128x512 : S128x512.ShapeCasts S128x512
  packedbf16_S512x512_S128x512_0_0 : (Rect.unit (s := S512x512) ![0, 0] S128x512.size inb_S512x512_S128x512_0_0).PackedRows (EltTy.packing .bf16)
  inb_S8x64x512_S1x64x512_1_0_0 : ∀ a, (![1, 0, 0] : Fin 3 → Nat) a + S1x64x512.size a ≤ S8x64x512.size a
  squeezes_S1x64x512_S64x512 : S1x64x512.Squeezes S64x512
  wordsbf16_S8x64x512_S1x64x512_1_0_0 : (Rect.unit (s := S8x64x512) ![1, 0, 0] S1x64x512.size inb_S8x64x512_S1x64x512_1_0_0).WholeWords (EltTy.packing .bf16)
  inb_S512x512_S128x512_128_0 : ∀ a, (![128, 0] : Fin 2 → Nat) a + S128x512.size a ≤ S512x512.size a
  packedbf16_S512x512_S128x512_128_0 : (Rect.unit (s := S512x512) ![128, 0] S128x512.size inb_S512x512_S128x512_128_0).PackedRows (EltTy.packing .bf16)
  inb_S8x64x512_S1x64x512_2_0_0 : ∀ a, (![2, 0, 0] : Fin 3 → Nat) a + S1x64x512.size a ≤ S8x64x512.size a
  wordsbf16_S8x64x512_S1x64x512_2_0_0 : (Rect.unit (s := S8x64x512) ![2, 0, 0] S1x64x512.size inb_S8x64x512_S1x64x512_2_0_0).WholeWords (EltTy.packing .bf16)
  inb_S8x64x512_S1x64x512_3_0_0 : ∀ a, (![3, 0, 0] : Fin 3 → Nat) a + S1x64x512.size a ≤ S8x64x512.size a
  wordsbf16_S8x64x512_S1x64x512_3_0_0 : (Rect.unit (s := S8x64x512) ![3, 0, 0] S1x64x512.size inb_S8x64x512_S1x64x512_3_0_0).WholeWords (EltTy.packing .bf16)
  inb_S512x512_S128x512_256_0 : ∀ a, (![256, 0] : Fin 2 → Nat) a + S128x512.size a ≤ S512x512.size a
  packedbf16_S512x512_S128x512_256_0 : (Rect.unit (s := S512x512) ![256, 0] S128x512.size inb_S512x512_S128x512_256_0).PackedRows (EltTy.packing .bf16)
  inb_S8x64x512_S1x64x512_4_0_0 : ∀ a, (![4, 0, 0] : Fin 3 → Nat) a + S1x64x512.size a ≤ S8x64x512.size a
  wordsbf16_S8x64x512_S1x64x512_4_0_0 : (Rect.unit (s := S8x64x512) ![4, 0, 0] S1x64x512.size inb_S8x64x512_S1x64x512_4_0_0).WholeWords (EltTy.packing .bf16)
  inb_S8x64x512_S1x64x512_5_0_0 : ∀ a, (![5, 0, 0] : Fin 3 → Nat) a + S1x64x512.size a ≤ S8x64x512.size a
  wordsbf16_S8x64x512_S1x64x512_5_0_0 : (Rect.unit (s := S8x64x512) ![5, 0, 0] S1x64x512.size inb_S8x64x512_S1x64x512_5_0_0).WholeWords (EltTy.packing .bf16)
  inb_S512x512_S128x512_384_0 : ∀ a, (![384, 0] : Fin 2 → Nat) a + S128x512.size a ≤ S512x512.size a
  packedbf16_S512x512_S128x512_384_0 : (Rect.unit (s := S512x512) ![384, 0] S128x512.size inb_S512x512_S128x512_384_0).PackedRows (EltTy.packing .bf16)
  inb_S8x64x512_S1x64x512_6_0_0 : ∀ a, (![6, 0, 0] : Fin 3 → Nat) a + S1x64x512.size a ≤ S8x64x512.size a
  wordsbf16_S8x64x512_S1x64x512_6_0_0 : (Rect.unit (s := S8x64x512) ![6, 0, 0] S1x64x512.size inb_S8x64x512_S1x64x512_6_0_0).WholeWords (EltTy.packing .bf16)
  inb_S8x64x512_S1x64x512_7_0_0 : ∀ a, (![7, 0, 0] : Fin 3 → Nat) a + S1x64x512.size a ≤ S8x64x512.size a
  wordsbf16_S8x64x512_S1x64x512_7_0_0 : (Rect.unit (s := S8x64x512) ![7, 0, 0] S1x64x512.size inb_S8x64x512_S1x64x512_7_0_0).WholeWords (EltTy.packing .bf16)
  inb_S8x64x512_S8x64x512_0_0_0 : ∀ a, (![0, 0, 0] : Fin 3 → Nat) a + S8x64x512.size a ≤ S8x64x512.size a
  h_S8x64x512 : 0 < S8x64x512.numel
  reduces_S8x64x512_S64x512 : S8x64x512.Reduces [0] S64x512
  dot_S128x512_S512x1024_S128x1024_1_0_0_1_n_n_wf : DotDims.WF S128x512 S512x1024 S128x1024 [1] [0] [0] [1] [] []
  dot_S128x1024_S1024x512_S128x512_1_0_0_1_n_n_wf : DotDims.WF S128x1024 S1024x512 S128x512 [1] [0] [0] [1] [] []
  hcc0_scratch6 : 8 + S8.numel ≤ 40
  hcc0_scratch7 : 16 + S8.numel ≤ 40
  hcc0_scratch8 : 24 + S8.numel ≤ 40
  hcc0_scratch9 : 32 + S8.numel ≤ 40
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch6 : DmaSems sig S8 := SemArray.consecutive 8 S8 hcc0_scratch6
abbrev cc0_scratch7 : DmaSems sig S8 := SemArray.consecutive 16 S8 hcc0_scratch7
abbrev cc0_scratch8 : DmaSems sig S8 := SemArray.consecutive 24 S8 hcc0_scratch8
abbrev cc0_scratch9 : DmaSems sig S8 := SemArray.consecutive 32 S8 hcc0_scratch9
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x512 : Shape := ⟨2, ![512, 512]⟩
abbrev S512x8192 : Shape := ⟨2, ![512, 8192]⟩
abbrev S8192x512 : Shape := ⟨2, ![8192, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x8192, .f32⟩
  | .hbm, ⟨2, _⟩ => ⟨S8192x512, .f32⟩
  | .hbm, ⟨3, _⟩ => ⟨S512x8192, .f32⟩
  | .hbm, ⟨4, _⟩ => ⟨S8192x512, .f32⟩
  | .hbm, ⟨5, _⟩ => ⟨S512x8192, .f32⟩
  | .hbm, ⟨6, _⟩ => ⟨S8192x512, .f32⟩
  | .hbm, ⟨7, _⟩ => ⟨S512x8192, .f32⟩
  | .hbm, ⟨8, _⟩ => ⟨S_, .f32⟩
  | .hbm, ⟨9, _⟩ => ⟨S512x8192, .f32⟩
  | .hbm, ⟨10, _⟩ => ⟨S512x8192, .f32⟩
  | .hbm, ⟨11, _⟩ => ⟨S512x512, .f32⟩
  | .hbm, ⟨12, _⟩ => ⟨S512x8192, .f32⟩
  | .hbm, ⟨13, _⟩ => ⟨S_, .f32⟩
  | .hbm, ⟨14, _⟩ => ⟨S512x8192, .f32⟩
  | .hbm, ⟨15, _⟩ => ⟨S512x8192, .f32⟩
  | .hbm, ⟨16, _⟩ => ⟨S512x512, .f32⟩
  | .hbm, ⟨17, _⟩ => ⟨S512x8192, .f32⟩
  | .hbm, ⟨18, _⟩ => ⟨S_, .f32⟩
  | .hbm, ⟨19, _⟩ => ⟨S512x8192, .f32⟩
  | .hbm, ⟨20, _⟩ => ⟨S512x8192, .f32⟩
  | .hbm, ⟨21, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S512x8192 : S_.BroadcastsInDim S512x8192 (![] : Fin 0 → Fin S512x8192.rank)
  dot_S512x512_S512x8192_S512x8192_1_0_0_1_n_n_wf : DotDims.WF S512x512 S512x8192 S512x8192 [1] [0] [0] [1] [] []
  dot_S512x8192_S8192x512_S512x512_1_0_0_1_n_n_wf : DotDims.WF S512x8192 S8192x512 S512x512 [1] [0] [0] [1] [] []

variable [Facts₀]

def dot_S512x512_S512x8192_S512x8192_1_0_0_1_n_n : DotDims S512x512 S512x8192 S512x8192 where
  lhsContracting := [1]
  rhsContracting := [0]
  lhsNonContracting := [0]
  rhsNonContracting := [1]
  lhsBatch := []
  rhsBatch := []
  wf := dot_S512x512_S512x8192_S512x8192_1_0_0_1_n_n_wf
def dot_S512x8192_S8192x512_S512x512_1_0_0_1_n_n : DotDims S512x8192 S8192x512 S512x512 where
  lhsContracting := [1]
  rhsContracting := [0]
  lhsNonContracting := [0]
  rhsNonContracting := [1]
  lhsBatch := []
  rhsBatch := []
  wf := dot_S512x8192_S8192x512_S512x512_1_0_0_1_n_n_wf

class Facts : Prop extends Facts₀ where

variable [Facts]
-- ==== Proof.Contents.lean ====
import proofs.«900983_g7700000000000984_dist_mlpseq_tp1d_bs_bs_b64_d512_h1024_v7x_i8_f32_1_alg».proof.Proof.Gen.KernelIdeal.Skeleton
import Idealize.ShloMosaic.Lib.ValueIdx

noncomputable section

namespace Cert.KernelIdeal.Contents

open Gen Idealize.ShloMosaic Idealize.ShloMosaic.TcCoe Idealize.SL.Sem

variable {F : FTy → Type} [FloatOps F]
variable (m : (ℓ : Loc nD τ sig) → Buf (Elt F) ℓ)

-- The devices o places after and o places before c round the ring of eight.
def peer (c : Dev nD) (o : Fin 8) : Dev nD := ⟨(c.val + o.val) % 8, Nat.mod_lt _ (by decide)⟩
def back (c : Dev nD) (o : Fin 8) : Dev nD := ⟨(c.val + 8 - o.val) % 8, Nat.mod_lt _ (by decide)⟩

theorem back_peer (c : Dev nD) (o : Fin 8) : back (peer c o) o = c := by revert c o; decide
theorem peer_back (c : Dev nD) (o : Fin 8) : peer (back c o) o = c := by revert c o; decide

def xin (c : Dev nD) : Vec F S64x512 .f32 := m ((c : Thread nD τ).loc main_arg0)
def win (l : Fin 3) (c : Dev nD) : Vec F S512x1024 .f32 :=
  match l with
  | 0 => m ((c : Thread nD τ).loc main_arg1)
  | 1 => m ((c : Thread nD τ).loc main_arg3)
  | 2 => m ((c : Thread nD τ).loc main_arg5)
def wout (l : Fin 3) (c : Dev nD) : Vec F S1024x512 .f32 :=
  match l with
  | 0 => m ((c : Thread nD τ).loc main_arg2)
  | 1 => m ((c : Thread nD τ).loc main_arg4)
  | 2 => m ((c : Thread nD τ).loc main_arg6)

def wb (l : Fin 3) (c : Dev nD) : Vec F S512x1024 .bf16 :=
  match l with
  | 0 => k0_pay5 (win m 0 c)
  | 1 => k0_pay15 (win m 1 c)
  | 2 => k0_pay26 (k0_pay25 (win m 2 c))
def wob (l : Fin 3) (c : Dev nD) : Vec F S1024x512 .bf16 :=
  match l with
  | 0 => k0_pay6 (wout m 0 c)
  | 1 => k0_pay16 (wout m 1 c)
  | 2 => k0_pay27 (wout m 2 c)
def toSlot (l : Fin 3) (x : Vec F S64x512 .f32) : Vec F S64x512 .bf16 :=
  match l with
  | 0 => k0_pay4 x
  | 1 => k0_pay14 x
  | 2 => k0_pay24 x
def blk (l : Fin 3) (b : Fin 4) (x : Vec F S128x512 .bf16) (w : Vec F S512x1024 .bf16) (wo : Vec F S1024x512 .bf16) : Vec F S128x512 .bf16 :=
  match l, b with
  | 0, 0 => k0_pay7 x w (constant S128x1024 .f32 0x00000000#32) wo
  | 0, 1 => k0_pay8 x w wo
  | 0, 2 => k0_pay11 (k0_pay9 x w) k0_pay10 wo
  | 0, 3 => k0_pay12 x w wo
  | 1, 0 => k0_pay17 x w wo
  | 1, 1 => k0_pay18 x w wo
  | 1, 2 => k0_pay19 x w wo
  | 1, 3 => k0_pay22 (k0_pay20 x w) k0_pay21 wo
  | 2, 0 => k0_pay28 x w wo
  | 2, 1 => k0_pay31 (k0_pay29 x w) k0_pay30 wo
  | 2, 2 => k0_pay32 x w wo
  | 2, 3 => k0_pay33 x w wo
def next (l : Fin 3) (v : Vec F S64x512 .bf16) (acc : Vec F S8x64x512 .bf16) : Vec F S64x512 .f32 :=
  match l with
  | 0 => k0_pay13 v acc
  | 1 => k0_pay23 v acc
  | 2 => k0_pay1 v acc

def i512 (r : Fin 512) (j : Fin 512) : S512x512.Idx := ValueIdx.ix2 r j
def i64 (r : Fin 64) (j : Fin 512) : S64x512.Idx := ValueIdx.ix2 r j
def i128 (r : Fin 128) (j : Fin 512) : S128x512.Idx := ValueIdx.ix2 r j
def i8 (o : Fin 8) (r : Fin 64) (j : Fin 512) : S8x64x512.Idx := ValueIdx.ix3 o r j

def slotOf (r : Fin 512) : Fin 8 := ⟨r.val / 64, by have := r.isLt; omega⟩
def inSlot (r : Fin 512) : Fin 64 := ⟨r.val % 64, Nat.mod_lt _ (by decide)⟩
def blkOf (r : Fin 512) : Fin 4 := ⟨r.val / 128, by have := r.isLt; omega⟩
def inBlk (r : Fin 512) : Fin 128 := ⟨r.val % 128, Nat.mod_lt _ (by decide)⟩
def blkRow (b : Fin 4) (p : Fin 128) : Fin 512 := ⟨128 * b.val + p.val, by have := b.isLt; have := p.isLt; omega⟩
def rowOf (o : Fin 8) (r : Fin 64) : Fin 512 := ⟨64 * o.val + r.val, by have := o.isLt; have := r.isLt; omega⟩

-- Layer l on device c: gather slot o holds the rows of the device o before c; the product buffer, their blocks with c's hidden slice; accumulator slice o, the partial product from the device o after c; the next rows, c's own slot plus the accumulator's sum.
mutual
def xc : ℕ → Dev nD → Vec F S64x512 .f32
  | 0, c => k0_pay2 (xin m c)
  | l + 1, c => if h : l < 3 then next ⟨l, h⟩ (fun i => pbAt l c (rowOf 0 (i 0)) (i 1)) (fun i => accAt l c (i 0) (i 1) (i 2)) else xc l c
def xgAt : ℕ → Dev nD → Fin 512 → Fin 512 → Elt F .bf16
  | l, c, r, j => if h : l < 3 then toSlot ⟨l, h⟩ (xc l (back c (slotOf r))) (i64 (inSlot r) j) else toSlot 2 (xc l c) (i64 (inSlot r) j)
def pbAt : ℕ → Dev nD → Fin 512 → Fin 512 → Elt F .bf16
  | l, c, r, j => if h : l < 3 then
      blk ⟨l, h⟩ (blkOf r) (fun i => xgAt l c (blkRow (blkOf r) (i 0)) (i 1)) (wb m ⟨l, h⟩ c) (wob m ⟨l, h⟩ c) (i128 (inBlk r) j)
    else xgAt l c r j
def accAt : ℕ → Dev nD → Fin 8 → Fin 64 → Fin 512 → Elt F .bf16
  | l, c, o, r, j => if o = 0 then k0_pay3 (F := F) (ValueIdx.ix3 (0 : Fin 1) r j) else pbAt l (peer c o) (rowOf o r) j
end

end Cert.KernelIdeal.Contents

end
-- ==== Proof.Proto.lean ====
import proofs.«900983_g7700000000000984_dist_mlpseq_tp1d_bs_bs_b64_d512_h1024_v7x_i8_f32_1_alg».proof.Defs
import proofs.«900983_g7700000000000984_dist_mlpseq_tp1d_bs_bs_b64_d512_h1024_v7x_i8_f32_1_alg».proof.Proof.Gen.KernelIdeal.Launch
import proofs.«900983_g7700000000000984_dist_mlpseq_tp1d_bs_bs_b64_d512_h1024_v7x_i8_f32_1_alg».proof.Proof.Contents
import Idealize.ShloMosaic.Lib.Tactic

noncomputable section

namespace Cert.KernelIdealProof

open Cert.KernelIdeal Cert.KernelIdeal.Gen
open Idealize.ShloMosaic Idealize.ShloMosaic.TcCoe Idealize.ShloMosaic.Rounds Idealize.SL.RA Idealize.SL.BI Idealize.SL.Sem

variable {F : FTy → Type} [FloatOps F]

abbrev Dy : Type := Fin 8
abbrev IxT : Type := ℕ × Dy

abbrev UB : Type := URounds (GSem nD τ sig) Dy
abbrev UU : Type := UR sig nD τ × UB

local notation "𝕄" => MT nD τ sig IxT (Elt F) ℕ UU ℕ

abbrev EP : Emb (UR sig nD τ) (MT nD τ sig IxT (Elt F) ℕ UU ℕ) := embL
abbrev ER : Emb UB (MT nD τ sig IxT (Elt F) ℕ UU ℕ) := embR

export Cert.KernelIdeal.Contents (peer back back_peer peer_back)

abbrev xgM : Memref sig .tc .vmem S512x512 .bf16 := Memref.whole cc0_scratch0
abbrev accM : Memref sig .tc .vmem S8x64x512 .bf16 := Memref.whole cc0_scratch1
abbrev xcurM : Memref sig .tc .vmem S64x512 .f32 := Memref.whole cc0_scratch2
abbrev pbM : Memref sig .tc .vmem S512x512 .bf16 := Memref.whole cc0_scratch3
abbrev winbM : Memref sig .tc .vmem S512x1024 .bf16 := Memref.whole cc0_scratch4
abbrev woutbM : Memref sig .tc .vmem S1024x512 .bf16 := Memref.whole cc0_scratch5

abbrev barS : Sem sig := (SemArray.scalar (sig.barrier 0 rfl) : Sems sig S_).sem

def dmaS (fam : Fin 4) (o : Fin 8) : DmaSem sig := ⟨8 + 8 * fam.val + o.val, by have := fam.isLt; have := o.isLt; show _ < 40; omega⟩

abbrev barCell (c : Dev nD) : GSem nD τ sig := ((c : Thread nD τ), .reg barS)
abbrev dmaCell (c : Dev nD) (fam : Fin 4) (o : Fin 8) : GSem nD τ sig := ((c : Thread nD τ), .dma (dmaS fam o))

abbrev Nblk : ℕ := (xgM.slice (Rect.unit (s := S512x512) ![64, 0] S64x512.size inb_S512x512_S64x512_64_0) (fun _ => rfl)).view.dmaCredit

open Cert.KernelIdeal.Contents (xc xgAt pbAt accAt)

def qsh : Fin 8 → PosShare TreeShare
  | 0 => fullShare.left.left.left
  | 1 => fullShare.left.left.right
  | 2 => fullShare.left.right.left
  | 3 => fullShare.left.right.right
  | 4 => fullShare.right.left.left
  | 5 => fullShare.right.left.right
  | 6 => fullShare.right.right.left
  | 7 => fullShare.right.right.right

abbrev slotR (o : Fin 8) : Rect S512x512 := Rect.unit (s := S512x512) ![64 * o.val, 0] S64x512.size (by revert o; decide)
abbrev blkR (b : Fin 4) : Rect S512x512 := Rect.unit (s := S512x512) ![128 * b.val, 0] S128x512.size (by revert b; decide)
abbrev accR (o : Fin 8) : Rect S8x64x512 := Rect.unit (s := S8x64x512) ![o.val, 0, 0] S1x64x512.size (by revert o; decide)

abbrev xgSl (o : Fin 8) : Memref sig .tc .vmem S64x512 .bf16 := xgM.slice (slotR o) (fun _ => rfl)
abbrev pbSl (o : Fin 8) : Memref sig .tc .vmem S64x512 .bf16 := pbM.slice (slotR o) (fun _ => rfl)
abbrev accSl (o : Fin 8) : Memref sig .tc .vmem S64x512 .bf16 := (accM.slice (accR o) (fun _ => rfl)).squeeze S64x512 squeezes_S1x64x512_S64x512

variable (m : (ℓ : Loc nD τ sig) → Buf (Elt F) ℓ)

def XGf (l : ℕ) (c : Dev nD) : Buf (Elt F) ((c : Thread nD τ).loc cc0_scratch0) := fun i => xgAt m l c (i 0) (i 1)
def PBf (l : ℕ) (c : Dev nD) : Buf (Elt F) ((c : Thread nD τ).loc cc0_scratch3) := fun i => pbAt m l c (i 0) (i 1)
def ACCf (l : ℕ) (c : Dev nD) : Buf (Elt F) ((c : Thread nD τ).loc cc0_scratch1) := fun i => accAt m l c (i 0) (i 1) (i 2)
def XCf (l : ℕ) (c : Dev nD) : Buf (Elt F) ((c : Thread nD τ).loc cc0_scratch2) := xc m l c

def xgP (c : Dev nD) (o : Fin 8) (q : PosShare TreeShare) (f : Buf (Elt F) ((c : Thread nD τ).loc cc0_scratch0)) : sProp 𝕄 :=
  (xgSl o).view.loc (c : Thread nD τ) ↦[(xgSl o).view.set]{q} f
def pbP (c : Dev nD) (o : Fin 8) (q : PosShare TreeShare) (f : Buf (Elt F) ((c : Thread nD τ).loc cc0_scratch3)) : sProp 𝕄 :=
  (pbSl o).view.loc (c : Thread nD τ) ↦[(pbSl o).view.set]{q} f
def accP (c : Dev nD) (o : Fin 8) (f : Buf (Elt F) ((c : Thread nD τ).loc cc0_scratch1)) : sProp 𝕄 :=
  (accSl o).view.loc (c : Thread nD τ) ↦[(accSl o).view.set]{fullShare} f
end Cert.KernelIdealProof

end
-- ==== Proof.Sched.lean ====
import proofs.«900983_g7700000000000984_dist_mlpseq_tp1d_bs_bs_b64_d512_h1024_v7x_i8_f32_1_alg».proof.Proof.Proto

noncomputable section

namespace Cert.KernelIdealProof

open Cert.KernelIdeal Cert.KernelIdeal.Gen
open Idealize.ShloMosaic Idealize.ShloMosaic.TcCoe
open Idealize.SL.RA Idealize.SL.BI Idealize.SL.BI.BIBase
open Idealize.ShloMosaic.Rounds

variable {F : FTy → Type} [FloatOps F]

local notation "𝕄" => MT nD τ sig IxT (Elt F) ℕ UU ℕ

variable (m : (ℓ : Loc nD τ sig) → Buf (Elt F) ℓ)

def neg (o : Fin 8) : Fin 8 := ⟨(8 - o.val) % 8, Nat.mod_lt _ (by decide)⟩

def barPay (c : Dev nD) (d : Fin 8) : sProp 𝕄 := iprop(∃ f, xgP (F := F) (back c d) (neg d) fullShare f)
def bsendPay (c : Dev nD) (o : Fin 8) (r : ℕ) : sProp 𝕄 := xgP c 0 (qsh o) (XGf m r c)
def brecvPay (c : Dev nD) (o : Fin 8) (r : ℕ) : sProp 𝕄 :=
  iprop(xgP c o fullShare (XGf m r c) ∗ (∃ f, accP (F := F) (back c o) o f) ∗ reached (ER (F := F)) (dmaCell (back c o) 3 o) r)
def rsendPay (c : Dev nD) (o : Fin 8) (r : ℕ) : sProp 𝕄 := pbP c o fullShare (PBf m r c)
def rrecvPay (c : Dev nD) (o : Fin 8) (r : ℕ) : sProp 𝕄 :=
  iprop(accP c o (ACCf m r c) ∗ (if r < 2 then iprop((∃ f, xgP (F := F) (peer c o) o fullShare f) ∗ reached (ER (F := F)) (dmaCell (peer c o) 1 o) (r + 1)) else iprop(emp)))

def famOf (k : DmaSem sig) : ℕ := k.val / 8
def offOf (k : DmaSem sig) : Fin 8 := ⟨k.val % 8, Nat.mod_lt _ (by decide)⟩

def dmaPay (c : Dev nD) (k : DmaSem sig) (r : ℕ) : sProp 𝕄 :=
  match famOf k with
  | 1 => bsendPay m c (offOf k) r
  | 2 => brecvPay m c (offOf k) r
  | 3 => rsendPay m c (offOf k) r
  | 4 => rrecvPay m c (offOf k) r
  | _ => iprop(emp)

def Rd : Rounds.Schedule (GSem nD τ sig) Dy 𝕄 where
  duties g r := match g.2 with
    | .reg _ => if g.1.2 = .tc ∧ r = 0 then Finset.univ.erase 0 else ∅
    | .dma k => if g.1.2 = .tc ∧ 1 ≤ famOf k ∧ offOf k ≠ 0 ∧ r < 3 then {0} else ∅
  unitless _ := False
  amount g _ _ := match g.2 with
    | .reg _ => 1
    | .dma _ => Nblk
  payload g r d := match g.2 with
    | .reg _ => barPay g.1.1 d
    | .dma k => dmaPay m g.1.1 k r
  amount_pos g _ _ _ := by
    cases g.2 with
    | reg _ => exact Nat.one_pos
    | dma _ => exact View.dmaCredit_pos _ (by decide)

instance Rd_payload_storable (g : GSem nD τ sig) (r : ℕ) (d : Dy) :
    Storable (upEmb : UEmb _ 𝕄) ((Rd m).payload g r d) := by
  unfold Rd barPay dmaPay bsendPay brecvPay rsendPay rrecvPay xgP pbP accP
  dsimp only
  (repeat' split) <;> infer_instance

section Tables
variable (c : Dev nD) (fam : Fin 4) (o : Fin 8)

theorem famOf_dmaS : famOf (dmaS fam o) = fam.val + 1 := by
  show (8 + 8 * fam.val + o.val) / 8 = _; omega
theorem offOf_dmaS : offOf (dmaS fam o) = o :=
  Fin.ext (by show (8 + 8 * fam.val + o.val) % 8 = _; omega)

theorem duties_bar : (Rd m).duties (barCell c) 0 = Finset.univ.erase 0 := by
  show (if (c : Thread nD τ).2 = .tc ∧ (0 : ℕ) = 0 then Finset.univ.erase 0 else ∅) = _
  exact if_pos ⟨rfl, rfl⟩
theorem duties_dma (ho : o ≠ 0) {r : ℕ} (hr : r < 3) : (Rd m).duties (dmaCell c fam o) r = {0} := by
  show ite _ _ _ = _
  rw [famOf_dmaS, offOf_dmaS]; exact if_pos ⟨rfl, by omega, ho, hr⟩
theorem duties_dma_later {r : ℕ} (hr : 3 ≤ r) : (Rd m).duties (dmaCell c fam o) r = ∅ :=
  if_neg fun h => by omega
theorem amount_bar (r : ℕ) (d : Dy) : (Rd m).amount (barCell c) r d = 1 := rfl
theorem amount_dma (r : ℕ) (d : Dy) : (Rd m).amount (dmaCell c fam o) r d = Nblk := rfl

theorem expect_bar : (Rd m).expect (barCell c) 0 = 7 := by
  unfold Schedule.expect Schedule.amountOf
  rw [duties_bar, Finset.sum_congr rfl fun d _ => amount_bar m c 0 d]; decide
theorem expect_dma (ho : o ≠ 0) {r : ℕ} (hr : r < 3) : (Rd m).expect (dmaCell c fam o) r = Nblk := by
  unfold Schedule.expect Schedule.amountOf; rw [duties_dma m c fam o ho hr, Finset.sum_singleton, amount_dma]

theorem payload_bar (d : Dy) : (Rd m).payload (barCell c) 0 d = barPay c d := rfl
theorem payload_bsend (r : ℕ) (d : Dy) : (Rd m).payload (dmaCell c 0 o) r d = bsendPay m c o r := by
  show dmaPay m c (dmaS 0 o) r = _
  unfold dmaPay; rw [famOf_dmaS, offOf_dmaS]; rfl
theorem payload_brecv (r : ℕ) (d : Dy) : (Rd m).payload (dmaCell c 1 o) r d = brecvPay m c o r := by
  show dmaPay m c (dmaS 1 o) r = _
  unfold dmaPay; rw [famOf_dmaS, offOf_dmaS]; rfl
theorem payload_rsend (r : ℕ) (d : Dy) : (Rd m).payload (dmaCell c 2 o) r d = rsendPay m c o r := by
  show dmaPay m c (dmaS 2 o) r = _
  unfold dmaPay; rw [famOf_dmaS, offOf_dmaS]; rfl
theorem payload_rrecv (r : ℕ) (d : Dy) : (Rd m).payload (dmaCell c 3 o) r d = rrecvPay m c o r := by
  show dmaPay m c (dmaS 3 o) r = _
  unfold dmaPay; rw [famOf_dmaS, offOf_dmaS]; rfl

end Tables

end Cert.KernelIdealProof

end
-- ==== Proof.Landing.lean ====
import proofs.«900983_g7700000000000984_dist_mlpseq_tp1d_bs_bs_b64_d512_h1024_v7x_i8_f32_1_alg».proof.Proof.Proto
import Idealize.ShloMosaic.Lib.Pipeline.Value

noncomputable section

namespace Cert.KernelIdealProof

open Cert.KernelIdeal Cert.KernelIdeal.Gen
open Cert.KernelIdeal.Contents (xc xgAt pbAt accAt toSlot blk next wb wob i512 i64 i128 i8 slotOf inSlot blkOf inBlk blkRow rowOf)
open Idealize.ShloMosaic Idealize.ShloMosaic.TcCoe Idealize.SL.Sem
open Idealize.ShloMosaic.ValueIdx (ix2 ix3 eq_ix2 eq_ix3)

variable {F : FTy → Type} [FloatOps F]
variable (m : (ℓ : Loc nD τ sig) → Buf (Elt F) ℓ)

theorem accAt_zero (l : ℕ) (c : Dev nD) (r : Fin 64) (j : Fin 512) :
    accAt m l c 0 r j = k0_pay3 (F := F) (ix3 (0 : Fin 1) r j) := by
  rw [accAt, if_pos rfl]

theorem slotOf_rowOf (o : Fin 8) (r : Fin 64) : slotOf (rowOf o r) = o :=
  Fin.ext (by show (64 * o.val + r.val) / 64 = o.val; omega)
theorem inSlot_rowOf (o : Fin 8) (r : Fin 64) : inSlot (rowOf o r) = r :=
  Fin.ext (by show (64 * o.val + r.val) % 64 = r.val; omega)
theorem back_zero (c : Dev nD) : back c 0 = c := by revert c; decide

theorem xgAt_rowOf (l : ℕ) (hl : l < 3) (c : Dev nD) (o : Fin 8) (r : Fin 64) (j : Fin 512) :
    xgAt m l c (rowOf o r) j = toSlot ⟨l, hl⟩ (xc m l (back c o)) (i64 r j) := by
  rw [xgAt, dif_pos hl, slotOf_rowOf, inSlot_rowOf]

theorem slotR_idx (o : Fin 8) (p : Fin 64) (q : Fin 512) : (slotR o).idx (ix2 p q) = i512 (rowOf o p) q :=
  Shape.idx_ext₂ (by show 64 * o.val + 1 * p.val = 64 * o.val + p.val; omega) (by show 0 + 1 * q.val = q.val; omega)
theorem blkR_idx (b : Fin 4) (p : Fin 128) (q : Fin 512) : (blkR b).idx (ix2 p q) = i512 (blkRow b p) q :=
  Shape.idx_ext₂ (by show 128 * b.val + 1 * p.val = 128 * b.val + p.val; omega) (by show 0 + 1 * q.val = q.val; omega)
theorem accR_idx (o : Fin 8) (z : Fin 1) (p : Fin 64) (q : Fin 512) : (accR o).idx (ix3 z p q) = i8 o p q := by
  funext a; apply Fin.ext
  match a with
  | ⟨0, _⟩ => show o.val + 1 * z.val = o.val; omega
  | ⟨1, _⟩ => show 0 + 1 * p.val = p.val; omega
  | ⟨2, _⟩ => show 0 + 1 * q.val = q.val; omega

theorem mem_slot (o : Fin 8) (i : S512x512.Idx) : i ∈ (slotR o).set ↔ (i 0).val / 64 = o.val := by
  rw [Rect.mem_set_unit, Fin.forall_fin_two]
  show (64 * o.val ≤ (i 0).val ∧ (i 0).val < 64 * o.val + 64) ∧ 0 ≤ (i 1).val ∧ (i 1).val < 0 + 512 ↔ _
  have h1 : (i 1).val < 512 := (i 1).isLt
  omega
theorem mem_blk (b : Fin 4) (i : S512x512.Idx) : i ∈ (blkR b).set ↔ (i 0).val / 128 = b.val := by
  rw [Rect.mem_set_unit, Fin.forall_fin_two]
  show (128 * b.val ≤ (i 0).val ∧ (i 0).val < 128 * b.val + 128) ∧ 0 ≤ (i 1).val ∧ (i 1).val < 0 + 512 ↔ _
  have h1 : (i 1).val < 512 := (i 1).isLt
  omega
theorem mem_accSl (o : Fin 8) (i : (accSl o).view.ty.Idx) : i ∈ (accSl o).view.set ↔ (i 0).val = o.val := by
  show i ∈ (((View.whole cc0_scratch1).slice (accR o)).reshape S64x512 _).set ↔ _
  rw [View.set_reshape, View.set_slice_whole, Rect.mem_set_unit]
  show (∀ a : Fin 3, _) ↔ _
  rw [Fin.forall_fin_succ, Fin.forall_fin_two]
  show (o.val ≤ (i 0).val ∧ (i 0).val < o.val + 1) ∧ (0 ≤ (i 1).val ∧ (i 1).val < 0 + 64) ∧ 0 ≤ (i 2).val ∧ (i 2).val < 0 + 512 ↔ _
  have h1 : (i 1).val < 64 := (i 1).isLt
  have h2 : (i 2).val < 512 := (i 2).isLt
  omega

theorem acc_onto (o : Fin 8) (i : S8x64x512.Idx) (h : (i 0).val = o.val) :
    ∃ (p : Fin 64) (q : Fin 512), (accR o).idx (ix3 (0 : Fin 1) p q) = i := by
  refine ⟨i 1, i 2, (accR_idx o 0 _ _).trans (funext fun a => ?_)⟩
  match a with
  | ⟨0, _⟩ => exact Fin.ext h.symm
  | ⟨1, _⟩ | ⟨2, _⟩ => rfl

-- Every element of a view lies under one of its indices, so a write over all indices is read off index by index.
theorem write_eq {κ : Kind} {sp : Space} {S : Shape} {e : EltTy} {v : View sig κ sp S e} {f T : v.ty.Contents (Elt F)} {w : S.Idx → Elt F e}
    (h : ∀ y, cast (congrArg (Elt F) v.elt_eq.symm) (w y) = T (v.emb y)) : ∀ i ∈ v.set, v.write (Elt F) f w Finset.univ i = T i := by
  intro i hi
  obtain ⟨y, rfl⟩ := v.exists_emb_of_mem_set hi
  exact (View.write_emb_of_mem f w (Finset.mem_univ y)).trans (h y)

theorem land_xg (l : ℕ) (hl : l < 3) (s : Dev nD) (o : Fin 8) (fd : Buf (Elt F) ((xgSl o).view.loc (peer s o : Thread nD τ))) :
    ∀ i ∈ (xgSl o).view.set, (xgSl o).view.write (Elt F) fd ((xgSl 0).view.read (Elt F) (XGf m l s)) Finset.univ i = XGf m l (peer s o) i := by
  refine write_eq fun y => ?_
  obtain ⟨p, q, rfl⟩ : ∃ (p : Fin 64) (q : Fin 512), y = ix2 p q := ⟨_, _, eq_ix2 y⟩
  rw [View.read_apply, cast_cast, cast_eq]
  show XGf m l s ((slotR 0).idx (ix2 p q)) = XGf m l (peer s o) ((slotR o).idx (ix2 p q))
  rw [slotR_idx, slotR_idx]
  show xgAt m l s (rowOf 0 p) q = xgAt m l (peer s o) (rowOf o p) q
  rw [xgAt_rowOf m l hl, xgAt_rowOf m l hl, back_peer, back_zero]

theorem land_acc (l : ℕ) (hl : l < 3) (d : Dev nD) (o : Fin 8) (ho : o ≠ 0) (fd : Buf (Elt F) ((accSl o).view.loc (back d o : Thread nD τ))) :
    ∀ i ∈ (accSl o).view.set, (accSl o).view.write (Elt F) fd ((pbSl o).view.read (Elt F) (PBf m l d)) Finset.univ i = ACCf m l (back d o) i := by
  refine write_eq fun y => ?_
  obtain ⟨p, q, rfl⟩ : ∃ (p : Fin 64) (q : Fin 512), y = ix2 p q := ⟨_, _, eq_ix2 y⟩
  have hemb : (accSl o).view.emb (ix2 p q) = (accR o).idx (ix3 (0 : Fin 1) p q) := by
    show (accR o).idx (Shape.reshapeEquiv _ (ix2 p q)) = _
    rw [Shape.reshapeEquiv_cons_one]
    congr 1; funext a
    match a with
    | ⟨0, _⟩ | ⟨1, _⟩ | ⟨2, _⟩ => rfl
  rw [View.read_apply, cast_cast, cast_eq, hemb]
  show PBf m l d ((slotR o).idx (ix2 p q)) = ACCf m l (back d o) ((accR o).idx (ix3 (0 : Fin 1) p q))
  rw [slotR_idx, accR_idx]
  show pbAt m l d (rowOf o p) q = accAt m l (back d o) o p q
  rw [accAt, if_neg ho, peer_back]

theorem store_xg0 (l : ℕ) (hl : l < 3) (c : Dev nD) (f : Buf (Elt F) ((c : Thread nD τ).loc cc0_scratch0)) :
    ∀ i ∈ (xgM.access (slotR 0)).set,
      (xgM.access (slotR 0)).write (Elt F) f (toSlot ⟨l, hl⟩ (xc m l c)) Finset.univ i = XGf m l c i := by
  refine write_eq fun y => ?_
  obtain ⟨p, q, rfl⟩ : ∃ (p : Fin 64) (q : Fin 512), y = ix2 p q := ⟨_, _, eq_ix2 y⟩
  rw [cast_eq]
  show _ = XGf m l c ((slotR 0).idx (ix2 p q))
  rw [slotR_idx]
  show _ = xgAt m l c (rowOf 0 p) q
  rw [xgAt_rowOf m l hl, back_zero]
  rfl

theorem read_blk (l : ℕ) (c : Dev nD) (b : Fin 4) :
    xgM.view.readAt (Elt F) (blkR b).toLoadRect (XGf m l c)
      = fun i => xgAt m l c (blkRow b (i 0)) (i 1) := by
  funext y
  obtain ⟨p, q, rfl⟩ : ∃ (p : Fin 128) (q : Fin 512), y = ix2 p q := ⟨_, _, eq_ix2 y⟩
  rw [View.readAt_apply, View.read_apply, cast_eq]
  show XGf m l c ((blkR b).idx (ix2 p q)) = _
  rw [blkR_idx]
  rfl

theorem store_pb (l : ℕ) (hl : l < 3) (c : Dev nD) (b : Fin 4) (f : Buf (Elt F) ((c : Thread nD τ).loc cc0_scratch3)) :
    ∀ i ∈ (pbM.access (blkR b)).set,
      (pbM.access (blkR b)).write (Elt F) f
        (blk ⟨l, hl⟩ b (xgM.view.readAt (Elt F) (blkR b).toLoadRect (XGf m l c)) (wb m ⟨l, hl⟩ c) (wob m ⟨l, hl⟩ c)) Finset.univ i
        = PBf m l c i := by
  refine write_eq fun y => ?_
  obtain ⟨p, q, rfl⟩ : ∃ (p : Fin 128) (q : Fin 512), y = ix2 p q := ⟨_, _, eq_ix2 y⟩
  rw [cast_eq, read_blk]
  show _ = PBf m l c ((blkR b).idx (ix2 p q))
  rw [blkR_idx]
  show _ = pbAt m l c (blkRow b p) q
  have eb : blkOf (blkRow b p) = b := Fin.ext (by show (128 * b.val + p.val) / 128 = b.val; omega)
  have ei : inBlk (blkRow b p) = p := Fin.ext (by show (128 * b.val + p.val) % 128 = p.val; omega)
  rw [pbAt, dif_pos hl, eb, ei]
  rfl

theorem store_acc0 (l : ℕ) (c : Dev nD) (f : Buf (Elt F) ((c : Thread nD τ).loc cc0_scratch1)) :
    ∀ i ∈ (accM.access (accR 0)).set,
      (accM.access (accR 0)).write (Elt F) f (k0_pay3 (F := F)) Finset.univ i = ACCf m l c i := by
  refine write_eq fun y => ?_
  obtain ⟨z, p, q, rfl⟩ : ∃ (z : Fin 1) (p : Fin 64) (q : Fin 512), y = ix3 z p q := ⟨_, _, _, eq_ix3 y⟩
  rw [cast_eq, Fin.fin_one_eq_zero z]
  show _ = ACCf m l c ((accR 0).idx (ix3 (0 : Fin 1) p q))
  rw [accR_idx]
  show _ = accAt m l c 0 p q
  rw [accAt_zero]

theorem next_rows (l : ℕ) (hl : l < 3) (c : Dev nD) :
    next ⟨l, hl⟩ (pbM.view.readAt (Elt F) (slotR 0).toLoadRect (PBf m l c))
        (accM.view.readAt (Elt F) (Rect.unit (s := S8x64x512) ![0, 0, 0] S8x64x512.size inb_S8x64x512_S8x64x512_0_0_0).toLoadRect (ACCf m l c))
      = xc m (l + 1) c := by
  rw [xc, dif_pos hl]
  congr 1
  · funext y
    obtain ⟨p, q, rfl⟩ : ∃ (p : Fin 64) (q : Fin 512), y = ix2 p q := ⟨_, _, eq_ix2 y⟩
    rw [View.readAt_apply, View.read_apply, cast_eq]
    show PBf m l c ((slotR 0).idx (ix2 p q)) = _
    rw [slotR_idx]
    rfl
  · exact Memref.readAt_unit_zero (Elt F) cc0_scratch1 (by decide) _ _

end Cert.KernelIdealProof

end
-- ==== Proof.Events.lean ====
import proofs.«900983_g7700000000000984_dist_mlpseq_tp1d_bs_bs_b64_d512_h1024_v7x_i8_f32_1_alg».proof.Proof.Sched
import proofs.«900983_g7700000000000984_dist_mlpseq_tp1d_bs_bs_b64_d512_h1024_v7x_i8_f32_1_alg».proof.Proof.Landing

noncomputable section

namespace Cert.KernelIdealProof

open Cert.KernelIdeal Cert.KernelIdeal.Gen
open Idealize.ShloMosaic Idealize.ShloMosaic.TcCoe Idealize.ShloMosaic.Rounds
open Idealize.SL.RA Idealize.SL.BI Idealize.SL.BI.BIBase Idealize.SL.BI.Laws Idealize.SL.Sem

variable {F : FTy → Type} [FloatOps F]

local notation "𝕄" => MT nD τ sig IxT (Elt F) ℕ UU ℕ

variable (m : (ℓ : Loc nD τ sig) → Buf (Elt F) ℓ)

abbrev 𝒱₀ : Variants := Variants.none

-- The weakest precondition of a program of device c for postcondition Q.
abbrev wpDev (c : Dev nD) {α : Type} (e : Prog (TpuEff nD τ sig (Elt F) Λ₀ .tc) α) (Q : α → sProp 𝕄) : sProp 𝕄 :=
  wp frame (wpE (defs₀ (F := F)) 𝒱₀ c.tc none) Set.univ e Q

def scatterRider (d : Dev nD) (o : Fin 8) (l : ℕ) : sProp 𝕄 :=
  if l < 2 then iprop((∃ f, xgP (F := F) d o fullShare f) ∗ reached (ER (F := F)) (dmaCell d 1 o) (l + 1)) else iprop(emp)

theorem wp_bcast (κ₁ κ₂ : ℕ) (c n : Dev nD) (l : ℕ) (hl : l < 3) (o : Fin 8) (ho : o ≠ 0) (hn : n = peer c o)
    {hsc : (xgSl o).view.ref.isScScratch = false}
    {hsrc : (xgSl 0).view.WordExact} {hdst : (xgSl o).view.WordExact}
    {hsem : DmaTarget.Typed .vmem (.dma (dmaS 1 o)) (.remote n.tc (xgSl o) (.dma (dmaS 0 o)) hsc)}
    {α : Type} {Q : α → sProp 𝕄} {k : PUnit → Prog (TpuEff nD τ sig (Elt F) Λ₀ .tc) α}
    (fd : Buf (Elt F) ((peer c o).tc.loc cc0_scratch0)) (O : CellTallies nD τ sig IxT) (W : Waits sig IxT) :
    iprop(cellInv ER (Rd m) κ₁ (dmaCell c 0 o) ∗ cellInv ER (Rd m) κ₂ (dmaCell (peer c o) 1 o)
        ∗ xgP c 0 (qsh o) (XGf m l c) ∗ (xgP (peer c o) o fullShare fd ∗ ((∃ f, accP (F := F) c o f) ∗ reached ER (dmaCell c 3 o) l))
        ∗ owes c.tc (O + tallyAt (dmaCell (peer c o) 1 o) ((l, 0) : IxT) Nblk) W
        ∗ dutyTok ER (dmaCell c 0 o) l 0 ∗ reached ER (dmaCell c 0 o) l
        ∗ dutyTok ER (dmaCell (peer c o) 1 o) l 0 ∗ reached ER (dmaCell (peer c o) 1 o) l)
      ⊢ iprop(((cred (tallyAt (dmaCell c 0 o) ((l, 0) : IxT) Nblk) ∗ owes c.tc O W) -∗ wpDev c (k ⟨⟩) Q)
          -∗ wpDev c
              (.op (.enqueueDma (xgSl 0) (.remote n.tc (xgSl o) (.dma (dmaS 0 o)) hsc) (.dma (dmaS 1 o)) hsrc hdst hsem) k) Q) := by
  subst hn
  unfold xgP
  exact Rounds.wp_send_pointsTo_with 𝒱₀ ER (Rd m) c.tc none
    (by rw [duties_dma m c 0 o ho hl]; exact Finset.mem_singleton_self _)
    (by rw [duties_dma m (peer c o) 1 o ho hl]; exact Finset.mem_singleton_self _)
    ((l, 0) : IxT) ((l, 0) : IxT) Nblk rfl (amount_dma m c 0 o l 0) (amount_dma m (peer c o) 1 o l 0) O rfl
    (by rw [payload_bsend]; exact .rfl)
    (by rw [payload_brecv]; unfold brecvPay xgP; rw [back_peer, pointsTo_congr (land_xg m l hl c o fd)])

theorem wp_scatter (κ₁ κ₂ : ℕ) (d n : Dev nD) (l : ℕ) (hl : l < 3) (o : Fin 8) (ho : o ≠ 0) (hn : n = back d o)
    {hsc : (accSl o).view.ref.isScScratch = false}
    {hsrc : (pbSl o).view.WordExact} {hdst : (accSl o).view.WordExact}
    {hsem : DmaTarget.Typed .vmem (.dma (dmaS 3 o)) (.remote n.tc (accSl o) (.dma (dmaS 2 o)) hsc)}
    {α : Type} {Q : α → sProp 𝕄} {k : PUnit → Prog (TpuEff nD τ sig (Elt F) Λ₀ .tc) α}
    (fd : Buf (Elt F) ((back d o).tc.loc cc0_scratch1)) (O : CellTallies nD τ sig IxT) (W : Waits sig IxT) :
    iprop(cellInv ER (Rd m) κ₁ (dmaCell d 2 o) ∗ cellInv ER (Rd m) κ₂ (dmaCell (back d o) 3 o)
        ∗ pbP d o fullShare (PBf m l d) ∗ (accP (back d o) o fd ∗ scatterRider d o l)
        ∗ owes d.tc (O + tallyAt (dmaCell (back d o) 3 o) ((l, 0) : IxT) Nblk) W
        ∗ dutyTok ER (dmaCell d 2 o) l 0 ∗ reached ER (dmaCell d 2 o) l
        ∗ dutyTok ER (dmaCell (back d o) 3 o) l 0 ∗ reached ER (dmaCell (back d o) 3 o) l)
      ⊢ iprop(((cred (tallyAt (dmaCell d 2 o) ((l, 0) : IxT) Nblk) ∗ owes d.tc O W) -∗ wpDev d (k ⟨⟩) Q)
          -∗ wpDev d
              (.op (.enqueueDma (pbSl o) (.remote n.tc (accSl o) (.dma (dmaS 2 o)) hsc) (.dma (dmaS 3 o)) hsrc hdst hsem) k) Q) := by
  subst hn
  unfold pbP accP
  exact Rounds.wp_send_pointsTo_with 𝒱₀ ER (Rd m) d.tc none
    (by rw [duties_dma m d 2 o ho hl]; exact Finset.mem_singleton_self _)
    (by rw [duties_dma m (back d o) 3 o ho hl]; exact Finset.mem_singleton_self _)
    ((l, 0) : IxT) ((l, 0) : IxT) Nblk rfl (amount_dma m d 2 o l 0) (amount_dma m (back d o) 3 o l 0) O rfl
    (by rw [payload_rsend]; exact .rfl)
    (by rw [payload_rrecv]; unfold rrecvPay accP scatterRider; rw [peer_back, pointsTo_congr (land_acc m l hl d o ho fd)])

theorem wp_dmaWait (κ : ℕ) (c : Dev nD) (fam : Fin 4) (o : Fin 8) (ho : o ≠ 0) (l : ℕ) (hl : l < 3)
    {src dst : Memref sig .tc .vmem S64x512 .bf16} {hs : src.view.WordExact} {hd : dst.view.WordExact} (hN : dst.view.dmaCredit = Nblk)
    {α : Type} {Q : α → sProp 𝕄} {k : PUnit → Prog (TpuEff nD τ sig (Elt F) Λ₀ .tc) α}
    (O : CellTallies nD τ sig IxT) (W : Waits sig IxT) :
    iprop(cellInv ER (Rd m) κ (dmaCell c fam o) ∗ cred (tallyAt (dmaCell c fam o) ((l, 0) : IxT) Nblk) ∗ owes c.tc O W
        ∗ MayWait c.tc (.dma (dmaS fam o)) ((l, 0) : IxT) O ∗ atPos ER (dmaCell c fam o) l ∅ 0)
      ⊢ iprop(((owes c.tc O (insert (SemLoc.dma (dmaS fam o), ((l, 0) : IxT)) W)
              ∗ atPos ER (dmaCell c fam o) (l + 1) ∅ 0 ∗ reached ER (dmaCell c fam o) (l + 1)
              ∗ (Rd m).payload (dmaCell c fam o) l 0)
            -∗ wpDev c (k ⟨⟩) Q)
          -∗ wpDev c (.op (.waitDma2 (dmaS fam o) src dst hs hd) k) Q) := by
  have e : bigSep ((Rd m).duties (dmaCell c fam o) l \ ∅) (fun d => (Rd m).payload (dmaCell c fam o) l d) = (Rd m).payload (dmaCell c fam o) l 0 := by
    rw [Finset.sdiff_empty, duties_dma m c fam o ho hl, bigSep_singleton]
  rw [← e, ← hN]
  exact Rounds.wp_wait_rest_token 𝒱₀ ER (Rd m) c.tc none
      (wpE_waitDma2_eq 𝒱₀ c.tc none Set.univ) (Set.mem_univ _) ((l, 0) : IxT)
      (by rw [Nat.zero_add, expect_dma m c fam o ho hl]; exact hN)

theorem wp_barSignal (κ : ℕ) (c n : Dev nD) (o : Fin 8) (ho : o ≠ 0) (hn : n = peer c o)
    {α : Type} {Q : α → sProp 𝕄} {k : PUnit → Prog (TpuEff nD τ sig (Elt F) Λ₀ .tc) α}
    (O : CellTallies nD τ sig IxT) (W : Waits sig IxT) :
    iprop(cellInv ER (Rd m) κ (barCell (peer c o)) ∗ owes c.tc (O + tallyAt (barCell (peer c o)) ((0, 0) : IxT) 1) W
        ∗ dutyTok ER (barCell (peer c o)) 0 o ∗ (∃ f, xgP (F := F) c (neg o) fullShare f) ∗ reached ER (barCell (peer c o)) 0)
      ⊢ iprop((owes c.tc O W -∗ wpDev c (k ⟨⟩) Q)
          -∗ wpDev c (.op (.semSignal n.tc barS 1) k) Q) := by
  subst hn
  exact (sep_mono_right (sep_mono_right (sep_mono_right (sep_mono_left
      (by rw [payload_bar]; unfold barPay; rw [back_peer]))))).trans
    (Rounds.wp_signal 𝒱₀ ER (Rd m) c.tc none (d := o)
      (by rw [duties_bar]; exact Finset.mem_erase.mpr ⟨ho, Finset.mem_univ _⟩) (amount_bar m (peer c o) 0 o) ((0, 0) : IxT) O rfl)

end Cert.KernelIdealProof

end
-- ==== Proof.Owed.lean ====
import proofs.«900983_g7700000000000984_dist_mlpseq_tp1d_bs_bs_b64_d512_h1024_v7x_i8_f32_1_alg».proof.Proof.Sched

noncomputable section

namespace Cert.KernelIdealProof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig IxT (Elt F) ℕ UU ℕ

def offs (s : ℕ) : Fin 8 := ⟨s % 7 + 1, by omega⟩

def payDev (c : Dev nD) (p : ℕ) : Dev nD :=
  if p < 7 then peer c (offs p) else if (p - 7) % 14 < 7 then peer c (offs (p - 7)) else back c (offs (p - 7))
def paySem (p : ℕ) : SemLoc sig :=
  if p < 7 then .reg barS else if (p - 7) % 14 < 7 then .dma (dmaS 1 (offs (p - 7))) else .dma (dmaS 3 (offs (p - 7)))
def payIx (p : ℕ) : IxT := if p < 7 then (0, 0) else ((p - 7) / 14, 0)
def payAmt (p : ℕ) : ℕ := if p < 7 then 1 else Nblk

def payCell (c : Dev nD) (p : ℕ) : GSem nD τ sig × IxT × ℕ :=
  ((((payDev c p : Dev nD) : Thread nD τ), paySem p), payIx p, payAmt p)

def payTally (c : Dev nD) (p : ℕ) : CellTallies nD τ sig IxT :=
  tallyAt (payCell c p).1 (payCell c p).2.1 (payCell c p).2.2

def owedFrom (c : Dev nD) (p : ℕ) : CellTallies nD τ sig IxT := ∑ q ∈ Finset.Ico p 49, payTally c q

theorem owedFrom_step (c : Dev nD) (p : ℕ) (hp : p < 49) :
    owedFrom c p = owedFrom c (p + 1) + tallyAt (payCell c p).1 (payCell c p).2.1 (payCell c p).2.2 := by
  unfold owedFrom
  rw [Finset.sum_eq_sum_Ico_succ_bot hp, add_comm]
  rfl

theorem owedFrom_end (c : Dev nD) : owedFrom c 49 = 0 := by
  unfold owedFrom
  rw [Finset.Ico_self, Finset.sum_empty]

theorem offs_of (o : Fin 8) (ho : o ≠ 0) (n : ℕ) : offs (7 * n + (o.val - 1)) = o := by
  have h1 : o.val ≠ 0 := fun h => ho (Fin.ext h)
  apply Fin.ext
  show (7 * n + (o.val - 1)) % 7 + 1 = o.val
  omega

theorem pay_signal (c : Dev nD) (o : Fin 8) (ho : o ≠ 0) :
    payCell c (o.val - 1) = (barCell (peer c o), (0, 0), 1) := by
  have h1 : o.val ≠ 0 := fun h => ho (Fin.ext h)
  have hlt : o.val - 1 < 7 := by omega
  have ho' : offs (o.val - 1) = o := by simpa using offs_of o ho 0
  simp only [payCell, payDev, paySem, payIx, payAmt, if_pos hlt, ho']

theorem pay_gather (c : Dev nD) (l : ℕ) (hl : l < 3) (o : Fin 8) (ho : o ≠ 0) :
    payCell c (7 + 14 * l + (o.val - 1)) = (dmaCell (peer c o) 1 o, (l, 0), Nblk) := by
  have h1 : o.val ≠ 0 := fun h => ho (Fin.ext h)
  have hge : ¬ 7 + 14 * l + (o.val - 1) < 7 := by omega
  have hm : (7 + 14 * l + (o.val - 1) - 7) % 14 < 7 := by omega
  have hd : (7 + 14 * l + (o.val - 1) - 7) / 14 = l := by omega
  have ho' : offs (7 + 14 * l + (o.val - 1) - 7) = o := by
    rw [show 7 + 14 * l + (o.val - 1) - 7 = 7 * (2 * l) + (o.val - 1) by omega]; exact offs_of o ho _
  simp only [payCell, payDev, paySem, payIx, payAmt, if_neg hge, if_pos hm, hd, ho']

theorem pay_scatter (c : Dev nD) (l : ℕ) (hl : l < 3) (o : Fin 8) (ho : o ≠ 0) :
    payCell c (14 + 14 * l + (o.val - 1)) = (dmaCell (back c o) 3 o, (l, 0), Nblk) := by
  have h1 : o.val ≠ 0 := fun h => ho (Fin.ext h)
  have hge : ¬ 14 + 14 * l + (o.val - 1) < 7 := by omega
  have hm : ¬ (14 + 14 * l + (o.val - 1) - 7) % 14 < 7 := by omega
  have hd : (14 + 14 * l + (o.val - 1) - 7) / 14 = l := by omega
  have ho' : offs (14 + 14 * l + (o.val - 1) - 7) = o := by
    rw [show 14 + 14 * l + (o.val - 1) - 7 = 7 * (2 * l + 1) + (o.val - 1) by omega]; exact offs_of o ho _
  simp only [payCell, payDev, paySem, payIx, payAmt, if_neg hge, if_neg hm, hd, ho']

def L (g : GSem nD τ sig) : Finset IxT := if g.1.2 = .tc then Finset.range 3 ×ˢ Finset.univ else ∅

def lvS (s : SemLoc sig) (ι : IxT) : ℕ :=
  match s with
  | .reg _ => 1
  | .dma k => if famOf k = 2 then 2 + 2 * ι.1 else if famOf k = 4 then 3 + 2 * ι.1 else 0

def lv (g : GSem nD τ sig) (ι : IxT) : ℕ := lvS g.2 ι

theorem L_of_ne (g : GSem nD τ sig) (h : g.1.2 ≠ .tc) : L g = ∅ := if_neg h

theorem mem_L (c : Dev nD) (sm : SemLoc sig) (ι : IxT) (h : ι.1 < 3) : ι ∈ L ((c : Thread nD τ), sm) := by
  unfold L
  rw [if_pos rfl]
  exact Finset.mem_product.mpr ⟨Finset.mem_range.mpr h, Finset.mem_univ _⟩

theorem lvS_dma (f : Fin 4) (o : Fin 8) (ι : IxT) :
    lvS (.dma (dmaS f o)) ι = if f.val + 1 = 2 then 2 + 2 * ι.1 else if f.val + 1 = 4 then 3 + 2 * ι.1 else 0 := by
  show (if famOf (dmaS f o) = 2 then _ else if famOf (dmaS f o) = 4 then _ else _) = _
  rw [famOf_dmaS]

-- In program order the dues' levels never fall: the seven dues from 7 k on lie at level k + 1.
theorem lv_pay (p : ℕ) : lvS (paySem p) (payIx p) = p / 7 + 1 := by
  unfold paySem payIx
  by_cases h7 : p < 7
  · rw [if_pos h7, if_pos h7]; show 1 = _; omega
  · rw [if_neg h7, if_neg h7]
    by_cases hm : (p - 7) % 14 < 7
    · rw [if_pos hm, lvS_dma]; show 2 + 2 * ((p - 7) / 14) = _; omega
    · rw [if_neg hm, lvS_dma]; show 3 + 2 * ((p - 7) / 14) = _; omega

theorem payIx_fst_lt (p : ℕ) (hp : p < 49) : (payIx p).1 < 3 := by
  unfold payIx
  by_cases h7 : p < 7
  · rw [if_pos h7]; exact Nat.zero_lt_succ 2
  · rw [if_neg h7]; show (p - 7) / 14 < 3; omega

-- Waiting is allowed on a cell whose level is below that of every due not yet paid.
theorem mayWait_of_lv (c : Dev nD) (s : SemLoc sig) (ι : IxT) (hι : ι.1 < 3) (p : ℕ)
    (h : ∀ q, p ≤ q → lvS s ι < q / 7 + 1) :
    (levAts L lv : sProp 𝕄) ⊢ MayWait (c : Thread nD τ) s ι (owedFrom c p) :=
  Pipeline.mayWait_of_levAts (mem_L c s ι hι) fun g i hg => by
    unfold owedFrom at hg
    obtain ⟨q, hq, hpos⟩ := Pipeline.sum_pos_exists hg
    obtain ⟨rfl, rfl⟩ := Pipeline.tallyAt_pos hpos
    have hq := Finset.mem_Ico.mp hq
    refine ⟨mem_L (payDev c q) (paySem q) (payIx q) (payIx_fst_lt q hq.2), ?_⟩
    show lvS s ι < lvS (paySem q) (payIx q)
    rw [lv_pay]
    exact h q hq.1

theorem mayWait_bar (c : Dev nD) :
    (levAts L lv : sProp 𝕄) ⊢ MayWait (c : Thread nD τ) (.reg barS) ((0, 0) : IxT) (owedFrom c 7) :=
  mayWait_of_lv c _ _ (Nat.zero_lt_succ 2) 7 fun q h => by show 1 < _; omega

theorem mayWait_brecv (c : Dev nD) (l : ℕ) (hl : l < 3) (o : Fin 8) (p : ℕ) (hp : 14 + 14 * l ≤ p) :
    (levAts L lv : sProp 𝕄) ⊢ MayWait (c : Thread nD τ) (.dma (dmaS 1 o)) ((l, 0) : IxT) (owedFrom c p) :=
  mayWait_of_lv c _ _ hl p fun q h => by rw [lvS_dma]; show 2 + 2 * l < _; omega

theorem mayWait_rrecv (c : Dev nD) (l : ℕ) (hl : l < 3) (o : Fin 8) (p : ℕ) (hp : 21 + 14 * l ≤ p) :
    (levAts L lv : sProp 𝕄) ⊢ MayWait (c : Thread nD τ) (.dma (dmaS 3 o)) ((l, 0) : IxT) (owedFrom c p) :=
  mayWait_of_lv c _ _ hl p fun q h => by rw [lvS_dma]; show 3 + 2 * l < _; omega

theorem mayWait_low (c : Dev nD) (q : DmaSem sig) (hq : famOf q ≠ 2 ∧ famOf q ≠ 4) (ι : IxT) (hι : ι.1 < 3) (p : ℕ) :
    (levAts L lv : sProp 𝕄) ⊢ MayWait (c : Thread nD τ) (.dma q) ι (owedFrom c p) :=
  mayWait_of_lv c _ _ hι p fun q' h => by
    show (if famOf q = 2 then 2 + 2 * ι.1 else if famOf q = 4 then 3 + 2 * ι.1 else 0) < _
    rw [if_neg hq.1, if_neg hq.2]; omega

end Cert.KernelIdealProof

end
-- ==== Proof.Frags.lean ====
import proofs.«900983_g7700000000000984_dist_mlpseq_tp1d_bs_bs_b64_d512_h1024_v7x_i8_f32_1_alg».proof.Proof.Proto

noncomputable section

namespace Cert.KernelIdealProof

open Cert.KernelIdeal Cert.KernelIdeal.Gen
open Cert.KernelIdeal.Contents (toSlot blk next)
open Idealize.ShloMosaic Idealize.SL.Sem

variable {F : FTy → Type} [FloatOps F]

abbrev PUf (F : FTy → Type) : Type 1 := Prog (TpuEff nD τ sig (Elt F) Λ₀ Proc.tc) PUnit

abbrev xinM : Memref sig .tc .vmem S64x512 .f32 := Memref.whole cc0_stg0_0
abbrev outM : Memref sig .tc .vmem S64x512 .f32 := Memref.whole cc0_stg7_0
def winM : Fin 3 → Memref sig .tc .vmem S512x1024 .f32
  | 0 => Memref.whole cc0_stg1_0 | 1 => Memref.whole cc0_stg3_0 | 2 => Memref.whole cc0_stg5_0
def woutM : Fin 3 → Memref sig .tc .vmem S1024x512 .f32
  | 0 => Memref.whole cc0_stg2_0 | 1 => Memref.whole cc0_stg4_0 | 2 => Memref.whole cc0_stg6_0

def wbCast : Fin 3 → Vec F S512x1024 .f32 → Vec F S512x1024 .bf16
  | 0 => fun v => k0_pay5 v | 1 => fun v => k0_pay15 v | 2 => fun v => k0_pay26 (k0_pay25 v)
def wobCast : Fin 3 → Vec F S1024x512 .f32 → Vec F S1024x512 .bf16
  | 0 => fun v => k0_pay6 v | 1 => fun v => k0_pay16 v | 2 => fun v => k0_pay27 v

abbrev r64 : Rect S64x512 := Rect.unit (s := S64x512) ![0, 0] S64x512.size inb_S64x512_S64x512_0_0
abbrev rW : Rect S512x1024 := Rect.unit (s := S512x1024) ![0, 0] S512x1024.size inb_S512x1024_S512x1024_0_0
abbrev rO : Rect S1024x512 := Rect.unit (s := S1024x512) ![0, 0] S1024x512.size inb_S1024x512_S1024x512_0_0
abbrev rA : Rect S8x64x512 := Rect.unit (s := S8x64x512) ![0, 0, 0] S8x64x512.size inb_S8x64x512_S8x64x512_0_0_0

theorem xgW (o : Fin 8) : (xgSl o).view.WordExact := (Memref.isWhole_whole _).wordExact_slice rfl _ (by revert o; decide)
theorem pbW (o : Fin 8) : (pbSl o).view.WordExact := (Memref.isWhole_whole _).wordExact_slice rfl _ (by revert o; decide)
theorem accW (o : Fin 8) : (accSl o).view.WordExact := ((Memref.isWhole_whole _).wordExact_slice rfl _ (by revert o; decide)).reshape _ _

def sigP (n : Dev nD) : PUf F := semSignalWord n barS 1#32 hamt_1

def initP : PUf F := do
  let v32 : Vec F S64x512 .f32 ← Prog.lift (.load xinM r64.toLoadRect (View.loadsAt_vmem h_S64x512))
  let v34 : Vec F S64x512 .f32 ← Prog.lift (.load xcurM r64.toLoadRect (View.loadsAt_vmem h_S64x512))
  Prog.lift (.store xcurM r64 (k0_pay2 v32) Finset.univ (View.stores_vmem_bits_univ h_S64x512 rfl) (.inl rfl))
  let v38 : Vec F S1x64x512 .bf16 ← Prog.lift (.load accM (accR 0).toLoadRect (View.loadsAt_vmem h_S1x64x512))
  Prog.lift (.store accM (accR 0) (k0_pay3 (F := F)) Finset.univ (View.stores_vmem h_S1x64x512 ((Memref.isWhole_whole _).storeExact_slice rfl _ packedbf16_S8x64x512_S1x64x512_0_0_0) (fun _ => rfl)) (.inl rfl))

def slot0P (l : Fin 3) : PUf F := do
  let v : Vec F S64x512 .f32 ← Prog.lift (.load xcurM r64.toLoadRect (View.loadsAt_vmem h_S64x512))
  let v' : Vec F S64x512 .bf16 ← Prog.lift (.load xgM (slotR 0).toLoadRect (View.loadsAt_vmem h_S64x512))
  Prog.lift (.store xgM (slotR 0) (toSlot l v) Finset.univ (View.stores_vmem h_S64x512 ((Memref.isWhole_whole _).storeExact_slice rfl _ packedbf16_S512x512_S64x512_0_0) (fun _ => rfl)) (.inl rfl))

def gatherP (o : Fin 8) (n : Dev nD) : PUf F :=
  Prog.lift (.enqueueDma (xgSl 0) (.remote (Dev.tc n) (xgSl o) (.dma (dmaS 0 o))) (.dma (dmaS 1 o)) (xgW 0) (xgW o) ⟨⟨rfl, Or.inl rfl⟩, trivial⟩)

def scatterP (o : Fin 8) (n : Dev nD) : PUf F :=
  Prog.lift (.enqueueDma (pbSl o) (.remote (Dev.tc n) (accSl o) (.dma (dmaS 2 o))) (.dma (dmaS 3 o)) (pbW o) (accW o) ⟨⟨rfl, Or.inl rfl⟩, trivial⟩)

def castsP (l : Fin 3) : PUf F := do
  let v : Vec F S512x1024 .f32 ← Prog.lift (.load (winM l) rW.toLoadRect (View.loadsAt_vmem h_S512x1024))
  let v' : Vec F S512x1024 .bf16 ← Prog.lift (.load winbM rW.toLoadRect (View.loadsAt_vmem h_S512x1024))
  Prog.lift (.store winbM rW (wbCast l v) Finset.univ (View.stores_vmem h_S512x1024 ((Memref.isWhole_whole _).storeExact_slice rfl _ packedbf16_S512x1024_S512x1024_0_0) (fun _ => rfl)) (.inl rfl))
  let u : Vec F S1024x512 .f32 ← Prog.lift (.load (woutM l) rO.toLoadRect (View.loadsAt_vmem h_S1024x512))
  let u' : Vec F S1024x512 .bf16 ← Prog.lift (.load woutbM rO.toLoadRect (View.loadsAt_vmem h_S1024x512))
  Prog.lift (.store woutbM rO (wobCast l u) Finset.univ (View.stores_vmem h_S1024x512 ((Memref.isWhole_whole _).storeExact_slice rfl _ packedbf16_S1024x512_S1024x512_0_0) (fun _ => rfl)) (.inl rfl))

def blkP (l : Fin 3) (b : Fin 4) : PUf F := do
  let x : Vec F S128x512 .bf16 ← Prog.lift (.load xgM (blkR b).toLoadRect (View.loadsAt_vmem h_S128x512))
  let w : Vec F S512x1024 .bf16 ← Prog.lift (.load winbM rW.toLoadRect (View.loadsAt_vmem h_S512x1024))
  let wo : Vec F S1024x512 .bf16 ← Prog.lift (.load woutbM rO.toLoadRect (View.loadsAt_vmem h_S1024x512))
  let p : Vec F S128x512 .bf16 ← Prog.lift (.load pbM (blkR b).toLoadRect (View.loadsAt_vmem h_S128x512))
  Prog.lift (.store pbM (blkR b) (blk l b x w wo) Finset.univ (View.stores_vmem h_S128x512 ((Memref.isWhole_whole _).storeExact_slice rfl _ (by revert b; decide)) (fun _ => rfl)) (.inl rfl))

def brecvWaitP (o : Fin 8) : PUf F := Prog.lift (.waitDma2 (dmaS 1 o) (xgSl 0) (xgSl o) (xgW 0) (xgW o))
def rrecvWaitP (o : Fin 8) : PUf F := Prog.lift (.waitDma2 (dmaS 3 o) (pbSl o) (accSl o) (pbW o) (accW o))
def bsendWaitP (o : Fin 8) : PUf F := Prog.lift (.waitDma2 (dmaS 0 o) (xgSl o) (xgSl 0) (xgW o) (xgW 0))
def rsendWaitP (o : Fin 8) : PUf F := Prog.lift (.waitDma2 (dmaS 2 o) (accSl o) (pbSl o) (accW o) (pbW o))

def finP (l : Fin 3) : PUf F := do
  let v : Vec F S64x512 .bf16 ← Prog.lift (.load pbM (slotR 0).toLoadRect (View.loadsAt_vmem h_S64x512))
  let a : Vec F S8x64x512 .bf16 ← Prog.lift (.load accM rA.toLoadRect (View.loadsAt_vmem h_S8x64x512))
  let x : Vec F S64x512 .f32 ← Prog.lift (.load xcurM r64.toLoadRect (View.loadsAt_vmem h_S64x512))
  Prog.lift (.store xcurM r64 (next l v a) Finset.univ (View.stores_vmem_bits_univ h_S64x512 rfl) (.inl rfl))

def outP : PUf F := do
  let v : Vec F S64x512 .f32 ← Prog.lift (.load xcurM r64.toLoadRect (View.loadsAt_vmem h_S64x512))
  let v' : Vec F S64x512 .f32 ← Prog.lift (.load outM r64.toLoadRect (View.loadsAt_vmem h_S64x512))
  Prog.lift (.store outM r64 v Finset.univ (View.stores_vmem_bits_univ h_S64x512 rfl) (.inl rfl))

def sigsP (n1 n2 n3 n4 n5 n6 n7 : Dev nD) : PUf F := do
  sigP n1; sigP n2; sigP n3; sigP n4; sigP n5; sigP n6; sigP n7

def gathersP (n1 n2 n3 n4 n5 n6 n7 : Dev nD) : PUf F := do
  gatherP 1 n1; gatherP 2 n2; gatherP 3 n3; gatherP 4 n4; gatherP 5 n5; gatherP 6 n6; gatherP 7 n7

-- Each block waits for the rows it multiplies, computes, and sends its two slots' partial products off.
def blocksP (l : Fin 3) (s1 s2 s3 s4 s5 s6 s7 : Dev nD) : PUf F := do
  brecvWaitP 1; blkP l 0; scatterP 1 s1
  brecvWaitP 2; brecvWaitP 3; blkP l 1; scatterP 2 s2; scatterP 3 s3
  brecvWaitP 4; brecvWaitP 5; blkP l 2; scatterP 4 s4; scatterP 5 s5
  brecvWaitP 6; brecvWaitP 7; blkP l 3; scatterP 6 s6; scatterP 7 s7

def rrecvWaitsP : PUf F := do
  rrecvWaitP 1; rrecvWaitP 2; rrecvWaitP 3; rrecvWaitP 4; rrecvWaitP 5; rrecvWaitP 6; rrecvWaitP 7
def bsendWaitsP : PUf F := do
  bsendWaitP 1; bsendWaitP 2; bsendWaitP 3; bsendWaitP 4; bsendWaitP 5; bsendWaitP 6; bsendWaitP 7
def rsendWaitsP : PUf F := do
  rsendWaitP 1; rsendWaitP 2; rsendWaitP 3; rsendWaitP 4; rsendWaitP 5; rsendWaitP 6; rsendWaitP 7

-- A layer once slot 0 is filled: the gathers go to n₁ … n₇, the scatters to s₁ … s₇.
def layerP (l : Fin 3) (n1 n2 n3 n4 n5 n6 n7 s1 s2 s3 s4 s5 s6 s7 : Dev nD) : PUf F := do
  gathersP n1 n2 n3 n4 n5 n6 n7
  castsP l
  blocksP l s1 s2 s3 s4 s5 s6 s7
  rrecvWaitsP
  bsendWaitsP
  rsendWaitsP
  finP l

def myBody : PUf F := do
  let d0 : Dev nD ← Prog.lift .deviceId
  sigsP ⟨k0_dev1 d0, k0_dev1_lt d0⟩ ⟨k0_dev2 d0, k0_dev2_lt d0⟩ ⟨k0_dev3 d0, k0_dev3_lt d0⟩ ⟨k0_dev4 d0, k0_dev4_lt d0⟩ ⟨k0_dev5 d0, k0_dev5_lt d0⟩ ⟨k0_dev6 d0, k0_dev6_lt d0⟩ ⟨k0_dev7 d0, k0_dev7_lt d0⟩
  initP
  slot0P 0
  semWaitWord barS 7#32 hamt_7
  layerP 0 ⟨k0_dev8 d0, k0_dev8_lt d0⟩ ⟨k0_dev9 d0, k0_dev9_lt d0⟩ ⟨k0_dev10 d0, k0_dev10_lt d0⟩ ⟨k0_dev11 d0, k0_dev11_lt d0⟩ ⟨k0_dev12 d0, k0_dev12_lt d0⟩ ⟨k0_dev13 d0, k0_dev13_lt d0⟩ ⟨k0_dev14 d0, k0_dev14_lt d0⟩ ⟨k0_dev15 d0, k0_dev15_lt d0⟩ ⟨k0_dev16 d0, k0_dev16_lt d0⟩ ⟨k0_dev17 d0, k0_dev17_lt d0⟩ ⟨k0_dev18 d0, k0_dev18_lt d0⟩ ⟨k0_dev19 d0, k0_dev19_lt d0⟩ ⟨k0_dev20 d0, k0_dev20_lt d0⟩ ⟨k0_dev21 d0, k0_dev21_lt d0⟩
  slot0P 1
  layerP 1 ⟨k0_dev22 d0, k0_dev22_lt d0⟩ ⟨k0_dev23 d0, k0_dev23_lt d0⟩ ⟨k0_dev24 d0, k0_dev24_lt d0⟩ ⟨k0_dev25 d0, k0_dev25_lt d0⟩ ⟨k0_dev26 d0, k0_dev26_lt d0⟩ ⟨k0_dev27 d0, k0_dev27_lt d0⟩ ⟨k0_dev28 d0, k0_dev28_lt d0⟩ ⟨k0_dev29 d0, k0_dev29_lt d0⟩ ⟨k0_dev30 d0, k0_dev30_lt d0⟩ ⟨k0_dev31 d0, k0_dev31_lt d0⟩ ⟨k0_dev32 d0, k0_dev32_lt d0⟩ ⟨k0_dev33 d0, k0_dev33_lt d0⟩ ⟨k0_dev34 d0, k0_dev34_lt d0⟩ ⟨k0_dev35 d0, k0_dev35_lt d0⟩
  slot0P 2
  layerP 2 ⟨k0_dev36 d0, k0_dev36_lt d0⟩ ⟨k0_dev37 d0, k0_dev37_lt d0⟩ ⟨k0_dev38 d0, k0_dev38_lt d0⟩ ⟨k0_dev39 d0, k0_dev39_lt d0⟩ ⟨k0_dev40 d0, k0_dev40_lt d0⟩ ⟨k0_dev41 d0, k0_dev41_lt d0⟩ ⟨k0_dev42 d0, k0_dev42_lt d0⟩ ⟨k0_dev43 d0, k0_dev43_lt d0⟩ ⟨k0_dev44 d0, k0_dev44_lt d0⟩ ⟨k0_dev45 d0, k0_dev45_lt d0⟩ ⟨k0_dev46 d0, k0_dev46_lt d0⟩ ⟨k0_dev47 d0, k0_dev47_lt d0⟩ ⟨k0_dev48 d0, k0_dev48_lt d0⟩ ⟨k0_dev49 d0, k0_dev49_lt d0⟩
  outP

-- The printed body is this sequence of phases: sequencing is associative.
theorem body_eq :
    cc0_body (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9
    = myBody (F := F) := by
  unfold myBody layerP sigsP gathersP blocksP rrecvWaitsP bsendWaitsP rsendWaitsP
  simp only [Prog.bind_assoc, bind_assoc]
  rfl

end Cert.KernelIdealProof

end
-- ==== Proof.State.lean ====
import proofs.«900983_g7700000000000984_dist_mlpseq_tp1d_bs_bs_b64_d512_h1024_v7x_i8_f32_1_alg».proof.Proof.Events
import proofs.«900983_g7700000000000984_dist_mlpseq_tp1d_bs_bs_b64_d512_h1024_v7x_i8_f32_1_alg».proof.Proof.Owed
import proofs.«900983_g7700000000000984_dist_mlpseq_tp1d_bs_bs_b64_d512_h1024_v7x_i8_f32_1_alg».proof.Proof.Frags

noncomputable section

namespace Cert.KernelIdealProof

open Cert.KernelIdeal Cert.KernelIdeal.Gen
open Cert.KernelIdeal.Contents (xin win wout)
open Idealize.ShloMosaic Idealize.ShloMosaic.TcCoe Idealize.SL Idealize.SL.RA Idealize.SL.BI Idealize.SL.BI.BIBase Idealize.SL.Sem Idealize.ShloMosaic.Rounds
open scoped Idealize.SL.BI

variable {F : FTy → Type} [FloatOps F]

local notation "𝕄" => MT nD τ sig IxT (Elt F) ℕ UU ℕ

variable (m : (ℓ : Loc nD τ sig) → Buf (Elt F) ℓ)

def io (i : Fin 7) : Fin 8 := ⟨i.val + 1, by have := i.isLt; omega⟩
theorem io_ne (i : Fin 7) : io i ≠ 0 := by revert i; decide

abbrev CI : Type := Option (Fin 4 × Fin 7)
def kcell (ck : Dev nD × CI) : GSem nD τ sig :=
  match ck.2 with
  | none => barCell ck.1
  | some p => dmaCell ck.1 p.1 (io p.2)

def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

def barToks (c : Dev nD) : sProp 𝕄 := bigSep Finset.univ fun i : Fin 7 => dutyTok ER (barCell (peer c (io i))) 0 (io i)
def layerToks (c : Dev nD) (l : ℕ) : sProp 𝕄 := bigSep Finset.univ fun i : Fin 7 =>
  iprop(dutyTok ER (dmaCell c 0 (io i)) l 0 ∗ dutyTok ER (dmaCell (peer c (io i)) 1 (io i)) l 0
    ∗ dutyTok ER (dmaCell c 2 (io i)) l 0 ∗ dutyTok ER (dmaCell (back c (io i)) 3 (io i)) l 0)
def layerCreds (c : Dev nD) (l : ℕ) : sProp 𝕄 := bigSep Finset.univ fun i : Fin 7 =>
  iprop(cred (tallyAt (dmaCell c 1 (io i)) (l, 0) Nblk) ∗ cred (tallyAt (dmaCell c 3 (io i)) (l, 0) Nblk))
def positions (c : Dev nD) (l : ℕ) : sProp 𝕄 := bigSep Finset.univ fun p : Fin 4 × Fin 7 => atPos ER (dmaCell c p.1 (io p.2)) l ∅ 0

def ghost (K : Dev nD × CI → ℕ) (c : Dev nD) : sProp 𝕄 :=
  iprop(records m K ∗ atPos ER (barCell c) 0 ∅ 0 ∗ positions c 0 ∗ barToks c ∗ layerToks c 0 ∗ layerToks c 1 ∗ layerToks c 2)
def credsOf (c : Dev nD) : sProp 𝕄 :=
  iprop(cred (tallyAt (barCell c) (0, 0) 7) ∗ layerCreds c 0 ∗ layerCreds c 1 ∗ layerCreds c 2)

def scratch (c : Dev nD) : sProp 𝕄 :=
  iprop((∃ f, (c.tc.loc cc0_scratch0) ↦{fullShare} f)
    ∗ (∃ f, (c.tc.loc cc0_scratch1) ↦{fullShare} f)
    ∗ (∃ f, (c.tc.loc cc0_scratch2) ↦{fullShare} f)
    ∗ (∃ f, (c.tc.loc cc0_scratch3) ↦{fullShare} f)
    ∗ (∃ f, (c.tc.loc cc0_scratch4) ↦{fullShare} f)
    ∗ (∃ f, (c.tc.loc cc0_scratch5) ↦{fullShare} f))

def stgIn (c : Dev nD) : sProp 𝕄 :=
  iprop(((c.tc.loc cc0_stg0_0) ↦{fullShare} xin m c)
    ∗ ((c.tc.loc cc0_stg1_0) ↦{fullShare} win m 0 c)
    ∗ ((c.tc.loc cc0_stg2_0) ↦{fullShare} wout m 0 c)
    ∗ ((c.tc.loc cc0_stg3_0) ↦{fullShare} win m 1 c)
    ∗ ((c.tc.loc cc0_stg4_0) ↦{fullShare} wout m 1 c)
    ∗ ((c.tc.loc cc0_stg5_0) ↦{fullShare} win m 2 c)
    ∗ ((c.tc.loc cc0_stg6_0) ↦{fullShare} wout m 2 c))

def Φ₀ (c : Dev nD) : sProp 𝕄 := iprop((∃ K, ghost m K c) ∗ credsOf c ∗ levAts L lv ∗ scratch c)
def Φ₁ (c : Dev nD) : sProp 𝕄 :=
  iprop(scratch c ∗ bigSep Finset.univ fun p : Fin 4 × Fin 7 => (semVal (dmaCell c p.1 (io p.2)) 0 : sProp 𝕄))

end Cert.KernelIdealProof

end
-- ==== Proof.RemoteSteps.lean ====
import proofs.«900983_g7700000000000984_dist_mlpseq_tp1d_bs_bs_b64_d512_h1024_v7x_i8_f32_1_alg».proof.Proof.State

namespace Cert.KernelIdealProof

open Cert.KernelIdeal Cert.KernelIdeal.Gen
open Idealize.ShloMosaic Idealize.ShloMosaic.TcCoe Idealize.SL Idealize.SL.RA Idealize.SL.BI Idealize.SL.BI.BIBase Idealize.SL.BI.Laws Idealize.SL.ProofMode Idealize.SL.Sem Idealize.ShloMosaic.Rounds
open scoped Idealize.SL.BI

variable {F : FTy → Type} [FloatOps F]

local notation "𝕄" => MT nD τ sig IxT (Elt F) ℕ UU ℕ

variable (m : (ℓ : Loc nD τ sig) → Buf (Elt F) ℓ) (K : Dev nD × CI → ℕ) (c : Dev nD)
variable {α : Type} {Q : α → sProp (MT nD τ sig IxT (Elt F) ℕ UU ℕ)} {k : PUnit → Prog (TpuEff nD τ sig (Elt F) Λ₀ .tc) α}

-- The records hold every cell's invariant at some name, and that its round 0 is reached.
theorem rec_at (ck : Dev nD × CI) :
    records m K ⊢ iprop((∃ κ, cellInv ER (Rd m) κ (kcell ck)) ∗ reached ER (kcell ck) 0) := by
  unfold records
  exact BIClass.sep_mono (exists_intro_trans (K ck) (bigSep_elim (Finset.mem_univ ck))) (bigSep_elim (Finset.mem_univ ck))

theorem rec_bar : records m K ⊢ iprop((∃ κ, cellInv ER (Rd m) κ (barCell c)) ∗ reached ER (barCell c) 0) :=
  rec_at m K (c, none)

-- Every offset but 0 is one of the seven the records name.
theorem rec_dma (fam : Fin 4) (o : Fin 8) (ho : o ≠ 0) :
    records m K ⊢ iprop((∃ κ, cellInv ER (Rd m) κ (dmaCell c fam o)) ∗ reached ER (dmaCell c fam o) 0) := by
  obtain ⟨i, rfl⟩ : ∃ i, io i = o := by revert o; decide
  exact rec_at m K (c, some (fam, i))

-- What is owed before the payment at position b + (o - 1) is that payment and what is owed after it.
theorem owed_pred (b : ℕ) (o : Fin 8) (ho : o ≠ 0) (hb : b + o.val ≤ 49) {g : GSem nD τ sig} {ι : IxT} {a : ℕ}
    (h : payCell c (b + (o.val - 1)) = (g, ι, a)) : owedFrom c (b + (o.val - 1)) = owedFrom c (b + o.val) + tallyAt g ι a := by
  have h1 : o.val ≠ 0 := fun h => ho (Fin.ext h)
  rw [owedFrom_step c _ (by omega), h, show b + (o.val - 1) + 1 = b + o.val by omega]

-- The barrier signal at offset o is the p-th payment, and hands over slot s = 8 - o.
theorem wp_sigStep (n : Dev nD) (o : Fin 8) (ho : o ≠ 0) (hn : n = peer c o) (W : Waits sig IxT) (p p' : ℕ) (hp : p = 0 + (o.val - 1)) (hp' : p' = 0 + o.val)
    (s : Fin 8) (hs : s = neg o) (f : Buf (Elt F) (c.tc.loc cc0_scratch0)) :
    iprop(records m K ∗ owes c.tc (owedFrom c p) W ∗ dutyTok ER (barCell (peer c o)) 0 o ∗ xgP c s fullShare f)
      ⊢ iprop((owes c.tc (owedFrom c p') W -∗ wpDev c (k ⟨⟩) Q) -∗ wpDev c (sigP n >>= k) Q) := by
  subst hp hp' hs
  rw [owed_pred c 0 o ho (by have := o.isLt; omega) (by rw [Nat.zero_add, pay_signal c o ho])]
  simp only [sigP, semSignalWord, Prog.lift, Prog.bind_op, Prog.bind_ret, Prog.pure_eq_ret]
  iintro ⟨#Hrec, HO, Htok, Hx⟩
  ihave ⟨⟨%κ, #HI⟩, #Hr⟩ := (rec_bar m K (peer c o)) $$ Hrec
  iapply (wp_barSignal m κ c n o ho hn (owedFrom c (0 + o.val)) W)
  iframe # ∗
  iexists f; iexact Hx

-- The barrier's payloads, named by the signaller's offset d, are the slots 8 - d of the devices 8 - d places on.
theorem rest_bar : bigSep ((Rd m).duties (barCell c) 0 \ ∅) (fun d => (Rd m).payload (barCell c) 0 d)
      = bigSep Finset.univ fun i : Fin 7 => iprop(∃ f, xgP (peer c (io i)) (io i) fullShare f) := by
  rw [Finset.sdiff_empty, duties_bar,
    show Finset.univ.erase (0 : Fin 8) = Finset.univ.map ⟨fun i : Fin 7 => neg (io i), by decide⟩ by decide, bigSep_map]
  refine bigSep_congr fun i _ => ?_
  rw [payload_bar]; unfold barPay
  simp only [Function.Embedding.coeFn_mk]
  rw [show back c (neg (io i)) = peer c (io i) by revert c i; decide, show neg (neg (io i)) = io i by revert i; decide]

-- The barrier wait: every other device's slot for this device's rows comes with it.
theorem wp_barWaitStep (W : Waits sig IxT) :
    iprop(records m K ∗ levAts L lv ∗ cred (tallyAt (barCell c) (0, 0) 7) ∗ owes c.tc (owedFrom c 7) W
        ∗ atPos ER (barCell c) 0 ∅ 0)
      ⊢ iprop(((owes c.tc (owedFrom c 7) (insert (SemLoc.reg barS, (0, 0)) W) ∗ atPos ER (barCell c) 1 ∅ 0
            ∗ bigSep Finset.univ fun i : Fin 7 => iprop(∃ f, xgP (peer c (io i)) (io i) fullShare f)) -∗ wpDev c (k ⟨⟩) Q)
          -∗ wpDev c (semWaitWord barS 7#32 hamt_7 >>= k) Q) := by
  simp only [semWaitWord, Prog.lift, Prog.bind_op, Prog.bind_ret, Prog.pure_eq_ret]
  rw [← rest_bar m c]
  iintro ⟨#Hrec, #Hlev, Hc, HO, Hat⟩ Hk
  ihave ⟨⟨%κ, #HI⟩, -⟩ := (rec_bar m K c) $$ Hrec
  iapply (Rounds.wp_wait_rest_token 𝒱₀ ER (Rd m) c.tc none (κ := κ) (k' := 7)
      (wpE_semWait_eq 𝒱₀ c.tc none Set.univ) (Set.mem_univ _) (0, 0) (O := owedFrom c 7) (W := W) (R := 0) (m := 0) (T := ∅)
      (by rw [expect_bar])) $$ [Hc HO Hat]
  · iframe # ∗
    iapply (mayWait_bar c); iexact Hlev
  iintro ⟨HO, Hat, -, Hpay⟩
  iapply Hk
  iframe ∗

-- The gather copy of layer l at offset o.
theorem wp_gatherStep (n : Dev nD) (l : ℕ) (hl : l < 3) (o : Fin 8) (ho : o ≠ 0) (hn : n = peer c o)
    (fd : Buf (Elt F) ((peer c o).tc.loc cc0_scratch0)) (W : Waits sig IxT) :
    iprop(records m K ∗ xgP c 0 (qsh o) (XGf m l c) ∗ xgP (peer c o) o fullShare fd ∗ (∃ f, accP c o f)
        ∗ reached ER (dmaCell c 3 o) l ∗ owes c.tc (owedFrom c (7 + 14 * l + (o.val - 1))) W
        ∗ dutyTok ER (dmaCell c 0 o) l 0 ∗ reached ER (dmaCell c 0 o) l
        ∗ dutyTok ER (dmaCell (peer c o) 1 o) l 0 ∗ reached ER (dmaCell (peer c o) 1 o) l)
      ⊢ iprop(((cred (tallyAt (dmaCell c 0 o) (l, 0) Nblk) ∗ owes c.tc (owedFrom c (7 + 14 * l + o.val)) W) -∗ wpDev c (k ⟨⟩) Q)
          -∗ wpDev c (gatherP o n >>= k) Q) := by
  simp only [gatherP, Prog.lift, Prog.bind_op, Prog.bind_ret, Prog.pure_eq_ret]
  rw [owed_pred c (7 + 14 * l) o ho (by have := o.isLt; omega) (pay_gather c l hl o ho)]
  iintro ⟨#Hrec, Hx, Hd, Hacc, #Hr3, HO, Ht0, #Hr0, Ht1, #Hr1⟩
  ihave ⟨⟨%κ₁, #HI0⟩, -⟩ := (rec_dma m K c 0 o ho) $$ Hrec
  ihave ⟨⟨%κ₂, #HI1⟩, -⟩ := (rec_dma m K (peer c o) 1 o ho) $$ Hrec
  iapply (wp_bcast m κ₁ κ₂ c n l hl o ho hn fd (owedFrom c (7 + 14 * l + o.val)) W)
  iframe # ∗

-- The scatter copy of layer l at offset o.
theorem wp_scatterStep (n : Dev nD) (l : ℕ) (hl : l < 3) (o : Fin 8) (ho : o ≠ 0) (hn : n = back c o)
    (fd : Buf (Elt F) ((back c o).tc.loc cc0_scratch1)) (W : Waits sig IxT) :
    iprop(records m K ∗ pbP c o fullShare (PBf m l c) ∗ accP (back c o) o fd ∗ scatterRider c o l
        ∗ owes c.tc (owedFrom c (14 + 14 * l + (o.val - 1))) W
        ∗ dutyTok ER (dmaCell c 2 o) l 0 ∗ reached ER (dmaCell c 2 o) l
        ∗ dutyTok ER (dmaCell (back c o) 3 o) l 0 ∗ reached ER (dmaCell (back c o) 3 o) l)
      ⊢ iprop(((cred (tallyAt (dmaCell c 2 o) (l, 0) Nblk) ∗ owes c.tc (owedFrom c (14 + 14 * l + o.val)) W) -∗ wpDev c (k ⟨⟩) Q)
          -∗ wpDev c (scatterP o n >>= k) Q) := by
  simp only [scatterP, Prog.lift, Prog.bind_op, Prog.bind_ret, Prog.pure_eq_ret]
  rw [owed_pred c (14 + 14 * l) o ho (by have := o.isLt; omega) (pay_scatter c l hl o ho)]
  iintro ⟨#Hrec, Hpb, Hd, Hrid, HO, Ht2, #Hr2, Ht3, #Hr3⟩
  ihave ⟨⟨%κ₁, #HI2⟩, -⟩ := (rec_dma m K c 2 o ho) $$ Hrec
  ihave ⟨⟨%κ₂, #HI3⟩, -⟩ := (rec_dma m K (back c o) 3 o ho) $$ Hrec
  iapply (wp_scatter m κ₁ κ₂ c n l hl o ho hn fd (owedFrom c (14 + 14 * l + o.val)) W)
  iframe # ∗

-- A wait, the program e, for round l of the device's cell of family fam at offset o: the payload pay comes with it.
abbrev WaitStep (fam : Fin 4) (o : Fin 8) (l p : ℕ) (W : Waits sig IxT) (pay : sProp 𝕄) (e : Prog (TpuEff nD τ sig (Elt F) Λ₀ .tc) PUnit)
    (Q : α → sProp 𝕄) (k : PUnit → Prog (TpuEff nD τ sig (Elt F) Λ₀ .tc) α) : Prop :=
  iprop(records m K ∗ levAts L lv ∗ cred (tallyAt (dmaCell c fam o) (l, 0) Nblk) ∗ owes c.tc (owedFrom c p) W ∗ atPos ER (dmaCell c fam o) l ∅ 0)
    ⊢ iprop(((owes c.tc (owedFrom c p) (insert (SemLoc.dma (dmaS fam o), (l, 0)) W)
          ∗ atPos ER (dmaCell c fam o) (l + 1) ∅ 0 ∗ reached ER (dmaCell c fam o) (l + 1) ∗ pay) -∗ wpDev c (k ⟨⟩) Q) -∗ wpDev c (e >>= k) Q)

-- Such a wait may be made once nothing still owed stands in its way.
theorem wp_waitStep (fam : Fin 4) (l : ℕ) (hl : l < 3) (o : Fin 8) (ho : o ≠ 0) (p : ℕ) (W : Waits sig IxT)
    {src dst : Memref sig .tc .vmem S64x512 .bf16} {hs : src.view.WordExact} {hd : dst.view.WordExact} (hN : dst.view.dmaCredit = Nblk)
    (hw : (levAts L lv : sProp 𝕄) ⊢ MayWait c.tc (.dma (dmaS fam o)) (l, 0) (owedFrom c p)) :
    WaitStep m K c fam o l p W ((Rd m).payload (dmaCell c fam o) l 0) (Prog.lift (.waitDma2 (dmaS fam o) src dst hs hd)) Q k := by
  simp only [WaitStep, Prog.lift, Prog.bind_op, Prog.bind_ret, Prog.pure_eq_ret]
  iintro ⟨#Hrec, #Hlev, Hc, HO, Hat⟩
  ihave ⟨⟨%κ, #HI⟩, -⟩ := (rec_dma m K c fam o ho) $$ Hrec
  iapply (wp_dmaWait m κ c fam o ho l hl hN (owedFrom c p) W)
  iframe # ∗
  iapply hw; iexact Hlev

theorem wp_brecvWaitStep (l : ℕ) (hl : l < 3) (o : Fin 8) (ho : o ≠ 0) (p : ℕ) (hp : 14 + 14 * l ≤ p) (W : Waits sig IxT) :
    WaitStep m K c 1 o l p W (brecvPay m c o l) (brecvWaitP o) Q k := by
  rw [← payload_brecv m c o l 0]
  exact wp_waitStep m K c 1 l hl o ho p W (dst := xgSl o) rfl (mayWait_brecv c l hl o p hp)

theorem wp_rrecvWaitStep (l : ℕ) (hl : l < 3) (o : Fin 8) (ho : o ≠ 0) (p : ℕ) (hp : 21 + 14 * l ≤ p) (W : Waits sig IxT) :
    WaitStep m K c 3 o l p W (rrecvPay m c o l) (rrecvWaitP o) Q k := by
  rw [← payload_rrecv m c o l 0]
  exact wp_waitStep m K c 3 l hl o ho p W (dst := accSl o) rfl (mayWait_rrecv c l hl o p hp)

theorem wp_bsendWaitStep (l : ℕ) (hl : l < 3) (o : Fin 8) (ho : o ≠ 0) (p : ℕ) (W : Waits sig IxT) :
    WaitStep m K c 0 o l p W (bsendPay m c o l) (bsendWaitP o) Q k := by
  rw [← payload_bsend m c o l 0]
  exact wp_waitStep m K c 0 l hl o ho p W (dst := xgSl 0) rfl (mayWait_low c _ (by rw [famOf_dmaS]; decide) _ hl p)

theorem wp_rsendWaitStep (l : ℕ) (hl : l < 3) (o : Fin 8) (ho : o ≠ 0) (p : ℕ) (W : Waits sig IxT) :
    WaitStep m K c 2 o l p W (rsendPay m c o l) (rsendWaitP o) Q k := by
  rw [← payload_rsend m c o l 0]
  exact wp_waitStep m K c 2 l hl o ho p W (dst := pbSl o) rfl (mayWait_low c _ (by rw [famOf_dmaS]; decide) _ hl p)

-- After the third layer every DMA cell of the device closes, at value zero.
theorem close_cells :
    iprop(records m K ∗ positions c 3) ⊢ |={Set.univ}=> (bigSep Finset.univ fun p : Fin 4 × Fin 7 => (semVal (dmaCell c p.1 (io p.2)) 0 : sProp 𝕄)) := by
  unfold positions
  refine (bigSep_with_persistent (R := records m K)
    (Ψ := fun p : Fin 4 × Fin 7 => iprop(|={Set.univ}=> (semVal (dmaCell c p.1 (io p.2)) 0 : sProp 𝕄))) fun p _ => ?_).trans (bigSep_fupd _ _)
  iintro ⟨#Hrec, Hat⟩
  ihave ⟨⟨%κ, #HI⟩, -⟩ := (rec_dma m K c p.1 (io p.2) (io_ne p.2)) $$ Hrec
  iapply (Rounds.cell_close ER (Rd m) (Set.mem_univ κ) (fun h => h) (R := 3) (fun r hr => duties_dma_later m c p.1 (io p.2) hr))
  iframe # ∗

end Cert.KernelIdealProof
-- ==== Proof.Pieces.lean ====
import proofs.«900983_g7700000000000984_dist_mlpseq_tp1d_bs_bs_b64_d512_h1024_v7x_i8_f32_1_alg».proof.Proof.Landing

noncomputable section

namespace Cert.KernelIdealProof

open Cert.KernelIdeal Cert.KernelIdeal.Gen
open Idealize.ShloMosaic Idealize.ShloMosaic.TcCoe
open Idealize.SL.RA Idealize.SL.BI Idealize.SL.BI.BIBase Idealize.SL.BI.Laws

variable {F : FTy → Type} [FloatOps F]

local notation "𝕄" => MT nD τ sig IxT (Elt F) ℕ UU ℕ

section Generic
variable {ℓ : Loc nD τ sig}

-- Eight sets, the o-th the elements whose key is o, partition everything when every key is below eight.
theorem pointsTo_split8 (S : Fin 8 → Finset (Idx ℓ)) (key : Idx ℓ → ℕ)
    (hS : ∀ o i, i ∈ S o ↔ key i = o.val) (hT : ∀ i, key i < 8) (q : PosShare TreeShare) (f : Buf (Elt F) ℓ) :
    (ℓ ↦{q} f : sProp 𝕄) ⊣⊢ iprop((ℓ ↦[S 0]{q} f) ∗ (ℓ ↦[S 1]{q} f) ∗ (ℓ ↦[S 2]{q} f) ∗ (ℓ ↦[S 3]{q} f) ∗ (ℓ ↦[S 4]{q} f)
      ∗ (ℓ ↦[S 5]{q} f) ∗ (ℓ ↦[S 6]{q} f) ∗ (ℓ ↦[S 7]{q} f)) := by
  have e : Finset.univ = S 0 ∪ (S 1 ∪ (S 2 ∪ (S 3 ∪ (S 4 ∪ (S 5 ∪ (S 6 ∪ S 7)))))) := by
    ext i; have := hT i; simp only [Finset.mem_univ, Finset.mem_union, hS, true_iff]; omega
  rw [e]
  iterate 6 refine (pointsTo_union (Finset.disjoint_left.mpr fun i hi hj => by
    simp only [Finset.mem_union, hS] at hi hj; omega)).trans (sep_congr_right ?_)
  exact pointsTo_union (Finset.disjoint_left.mpr fun i hi hj => by simp only [hS] at hi hj; omega)

theorem pointsTo_two {S₁ S₂ T : Finset (Idx ℓ)} (hT : T = S₁ ∪ S₂) (hd : Disjoint S₁ S₂) (q : PosShare TreeShare)
    (f : Buf (Elt F) ℓ) :
    (iprop((ℓ ↦[S₁]{q} f) ∗ (ℓ ↦[S₂]{q} f)) : sProp 𝕄) ⊣⊢ (ℓ ↦[T]{q} f) := by
  rw [hT]; exact (pointsTo_union hd).symm

end Generic

theorem xgSl_set (o : Fin 8) : (xgSl o).view.set = (slotR o).set := View.set_slice_whole cc0_scratch0 _
theorem pbSl_set (o : Fin 8) : (pbSl o).view.set = (slotR o).set := View.set_slice_whole cc0_scratch3 _

theorem slot_lt (i : S512x512.Idx) : (i 0).val / 64 < 8 := Nat.div_lt_of_lt_mul (i 0).isLt

theorem xg_slots (c : Dev nD) (q : PosShare TreeShare) (f : Buf (Elt F) (c.tc.loc cc0_scratch0)) :
    ((c.tc.loc cc0_scratch0) ↦{q} f : sProp 𝕄) ⊣⊢ iprop(xgP c 0 q f ∗ xgP c 1 q f ∗ xgP c 2 q f ∗ xgP c 3 q f
      ∗ xgP c 4 q f ∗ xgP c 5 q f ∗ xgP c 6 q f ∗ xgP c 7 q f) :=
  pointsTo_split8 (ℓ := c.tc.loc cc0_scratch0) (fun o => (xgSl o).view.set) (fun i => (i 0).val / 64) (fun o i => xgSl_set o ▸ mem_slot o i) slot_lt q f

theorem pb_slots (c : Dev nD) (q : PosShare TreeShare) (f : Buf (Elt F) (c.tc.loc cc0_scratch3)) :
    ((c.tc.loc cc0_scratch3) ↦{q} f : sProp 𝕄) ⊣⊢ iprop(pbP c 0 q f ∗ pbP c 1 q f ∗ pbP c 2 q f ∗ pbP c 3 q f
      ∗ pbP c 4 q f ∗ pbP c 5 q f ∗ pbP c 6 q f ∗ pbP c 7 q f) :=
  pointsTo_split8 (ℓ := c.tc.loc cc0_scratch3) (fun o => (pbSl o).view.set) (fun i => (i 0).val / 64) (fun o i => pbSl_set o ▸ mem_slot o i) slot_lt q f

theorem acc_slices (c : Dev nD) (f : Buf (Elt F) (c.tc.loc cc0_scratch1)) :
    ((c.tc.loc cc0_scratch1) ↦{fullShare} f : sProp 𝕄) ⊣⊢ iprop(accP c 0 f ∗ accP c 1 f ∗ accP c 2 f ∗ accP c 3 f
      ∗ accP c 4 f ∗ accP c 5 f ∗ accP c 6 f ∗ accP c 7 f) :=
  pointsTo_split8 (ℓ := c.tc.loc cc0_scratch1) (fun o => (accSl o).view.set) (fun i => (i 0).val) mem_accSl (fun i => (i 0).isLt) fullShare f

-- The full share is its eight leaves three halvings down.
theorem xg_shares (c : Dev nD) (o : Fin 8) (f : Buf (Elt F) (c.tc.loc cc0_scratch0)) :
    (xgP c o fullShare f : sProp 𝕄) ⊣⊢ iprop(xgP c o (qsh 0) f ∗ xgP c o (qsh 1) f ∗ xgP c o (qsh 2) f ∗ xgP c o (qsh 3) f
      ∗ xgP c o (qsh 4) f ∗ xgP c o (qsh 5) f ∗ xgP c o (qsh 6) f ∗ xgP c o (qsh 7) f) := by
  have s (q : PosShare TreeShare) : (xgP c o q f : sProp 𝕄) ⊣⊢ iprop(xgP c o q.left f ∗ xgP c o q.right f) :=
    pointsTo_share (PosShare.mem_left_op_right q)
  have s4 (q : PosShare TreeShare) : (xgP c o q f : sProp 𝕄) ⊣⊢ iprop(xgP c o q.left.left f ∗ xgP c o q.left.right f
      ∗ xgP c o q.right.left f ∗ xgP c o q.right.right f) :=
    (s _).trans ((sep_congr (s _) (s _)).trans sep_assoc)
  exact (s _).trans ((sep_congr (s4 _) (s4 _)).trans (sep_assoc.trans (sep_congr_right (sep_assoc.trans (sep_congr_right sep_assoc)))))

theorem setOn_whole (b : Ref sig .tc) (M : Finset b.ty.shape.Idx) : (View.whole b : View sig .tc _ _ _).setOn M = M :=
  Finset.map_refl

abbrev loS (b : Fin 4) : Fin 8 := ⟨2 * b.val, by omega⟩
abbrev hiS (b : Fin 4) : Fin 8 := ⟨2 * b.val + 1, by omega⟩

-- A block of 128 rows is two slots of 64.
theorem blk_eq_slots (b : Fin 4) : (blkR b).set = (slotR (loS b)).set ∪ (slotR (hiS b)).set := by
  ext i
  rw [Finset.mem_union, mem_blk, mem_slot, mem_slot]
  show _ ↔ (i 0).val / 64 = 2 * b.val ∨ (i 0).val / 64 = 2 * b.val + 1
  omega
theorem slots_disjoint (b : Fin 4) : Disjoint (slotR (loS b)).set (slotR (hiS b)).set :=
  Rect.unit_disjoint (0 : Fin 2) (.inl (by show 64 * (2 * b.val) + 64 ≤ 64 * (2 * b.val + 1); omega))

theorem xg_blk (c : Dev nD) (b : Fin 4) (q : PosShare TreeShare) (f : Buf (Elt F) (c.tc.loc cc0_scratch0)) :
    (iprop(xgP c (loS b) q f ∗ xgP c (hiS b) q f) : sProp 𝕄)
      ⊣⊢ ((c.tc.loc cc0_scratch0) ↦[xgM.view.setOn (blkR b).toLoadRect.set]{q} f) :=
  pointsTo_two (by rw [xgSl_set, xgSl_set, ← blk_eq_slots]; exact setOn_whole cc0_scratch0 _)
    (by rw [xgSl_set, xgSl_set]; exact slots_disjoint b) q f

theorem pb_blk (c : Dev nD) (b : Fin 4) (f : Buf (Elt F) (c.tc.loc cc0_scratch3)) :
    (iprop(pbP c (loS b) fullShare f ∗ pbP c (hiS b) fullShare f) : sProp 𝕄)
      ⊣⊢ ((c.tc.loc cc0_scratch3) ↦[(pbM.access (blkR b)).setOn Finset.univ]{fullShare} f) :=
  pointsTo_two (by rw [pbSl_set, pbSl_set, ← blk_eq_slots]; exact View.set_slice_whole cc0_scratch3 _)
    (by rw [pbSl_set, pbSl_set]; exact slots_disjoint b) fullShare f

theorem acc0_store : (accM.access (accR 0)).setOn Finset.univ = (accSl 0).view.set :=
  (View.set_reshape (((View.whole cc0_scratch1 : View sig .tc _ _ _)).slice (accR 0)) (s' := S64x512) _).symm
theorem pb_slot0_load : pbM.view.setOn (slotR 0).toLoadRect.set = (pbSl 0).view.set :=
  (setOn_whole cc0_scratch3 _).trans (pbSl_set 0).symm

end Cert.KernelIdealProof

end
-- ==== Proof.LocalSteps.lean ====
import proofs.«900983_g7700000000000984_dist_mlpseq_tp1d_bs_bs_b64_d512_h1024_v7x_i8_f32_1_alg».proof.Proof.Pieces
import proofs.«900983_g7700000000000984_dist_mlpseq_tp1d_bs_bs_b64_d512_h1024_v7x_i8_f32_1_alg».proof.Proof.Frags
import proofs.«900983_g7700000000000984_dist_mlpseq_tp1d_bs_bs_b64_d512_h1024_v7x_i8_f32_1_alg».proof.Proof.Events

noncomputable section

namespace Cert.KernelIdealProof

open Cert.KernelIdeal Cert.KernelIdeal.Gen
open Contents (xc accAt wb wob xin win wout)
open Idealize.ShloMosaic Idealize.ShloMosaic.TcCoe
open Idealize.SL Idealize.SL.RA Idealize.SL.BI Idealize.SL.BI.BIBase Idealize.SL.ProofMode Idealize.SL.Sem

variable {F : FTy → Type} [FloatOps F]

local notation "𝕄" => MT nD τ sig IxT (Elt F) ℕ UU ℕ

variable (m : (ℓ : Loc nD τ sig) → Buf (Elt F) ℓ)
variable {α : Type} {Q : α → sProp (MT nD τ sig IxT (Elt F) ℕ UU ℕ)} {k : PUnit → Prog (TpuEff nD τ sig (Elt F) Λ₀ .tc) α}

theorem hz2 : (![0, 0] : Fin 2 → Nat) = fun _ => 0 := funext fun a => by fin_cases a <;> rfl

theorem acc0_any (c : Dev nD) (l l' : ℕ) : (accP c 0 (ACCf m l c) : sProp 𝕄) = accP c 0 (ACCf m l' c) := by
  unfold accP
  refine pointsTo_congr fun i hi => ?_
  obtain ⟨p, q, rfl⟩ := acc_onto 0 i ((mem_accSl 0 i).mp hi)
  rw [accR_idx]
  show accAt m l c 0 p q = accAt m l' c 0 p q
  rw [accAt_zero, accAt_zero]

theorem wp_initP (c : Dev nD) (fx : Buf (Elt F) (c.tc.loc cc0_scratch2)) (fa : Buf (Elt F) (c.tc.loc cc0_scratch1)) :
    iprop((c.tc.loc cc0_stg0_0 ↦{fullShare} xin m c)
        ∗ (c.tc.loc cc0_scratch2 ↦{fullShare} fx) ∗ accP c 0 fa)
      ⊢ iprop((((c.tc.loc cc0_stg0_0 ↦{fullShare} xin m c)
          ∗ (c.tc.loc cc0_scratch2 ↦{fullShare} XCf m 0 c) ∗ accP c 0 (ACCf m 0 c)) -∗ wpDev c (k ⟨⟩) Q)
        -∗ wpDev c (initP >>= k) Q) := by
  simp only [initP, Prog.bind_lift, Prog.bind_op]
  iintro ⟨Hi, Hx, Ha⟩ Hk
  iapply (wp_load 𝒱₀ (c : Thread nD τ) none _ (m := xinM) (Finset.subset_univ _)) $$ Hi; iintro Hi
  erw [Memref.readAt_unit_zero (Elt F) _ hz2]
  iapply (wp_load 𝒱₀ (c : Thread nD τ) none _ (m := xcurM) (Finset.subset_univ _)) $$ Hx; iintro Hx
  iapply (wp_store 𝒱₀ (c : Thread nD τ) none _ (m := xcurM) (r := r64) (Mk := Finset.univ) (Finset.subset_univ _)) $$ Hx; iintro Hx
  erw [Memref.write_access_unit_zero_univ (Elt F) _ hz2]
  unfold accP
  iapply (wp_load 𝒱₀ (c : Thread nD τ) none _ (m := accM) (r := (accR 0).toLoadRect) (S := (accSl 0).view.set)
    (by rw [← acc0_store]; exact (setOn_whole cc0_scratch1 _).le.trans (View.set_slice_whole cc0_scratch1 _).ge)) $$ Ha; iintro Ha
  iapply (wp_store 𝒱₀ (c : Thread nD τ) none _ (m := accM) (r := accR 0) (Mk := Finset.univ) (S := (accSl 0).view.set) acc0_store.le) $$ Ha; iintro Ha
  iapply Hk
  have e := store_acc0 m 0 c fa
  rw [show ((accM : Memref sig .tc .vmem S8x64x512 .bf16).access (accR 0)).set = (accSl 0).view.set from acc0_store] at e
  ihave Ha := (Entails.of_eq (pointsTo_congr (q := fullShare) e)) $$ Ha
  rw [show XCf m 0 c = k0_pay2 (xin m c) by unfold XCf; rw [xc]]
  iframe ∗

theorem wp_slot0P (c : Dev nD) (l : ℕ) (hl : l < 3) (f : Buf (Elt F) (c.tc.loc cc0_scratch0)) :
    iprop((c.tc.loc cc0_scratch2 ↦{fullShare} XCf m l c) ∗ xgP c 0 fullShare f)
      ⊢ iprop((((c.tc.loc cc0_scratch2 ↦{fullShare} XCf m l c) ∗ xgP c 0 fullShare (XGf m l c)) -∗ wpDev c (k ⟨⟩) Q)
        -∗ wpDev c (slot0P ⟨l, hl⟩ >>= k) Q) := by
  simp only [slot0P, Prog.bind_lift, Prog.bind_op]
  iintro ⟨Hx, Hg⟩ Hk
  iapply (wp_load 𝒱₀ (c : Thread nD τ) none _ (m := xcurM) (Finset.subset_univ _)) $$ Hx; iintro Hx
  erw [Memref.readAt_unit_zero (Elt F) _ hz2]
  unfold xgP
  iapply (wp_load 𝒱₀ (c : Thread nD τ) none _ (m := xgM) (S := (xgSl 0).view.set) (by rw [xgSl_set]; exact (setOn_whole cc0_scratch0 _).le)) $$ Hg; iintro Hg
  iapply (wp_store 𝒱₀ (c : Thread nD τ) none _ (m := xgM) (r := slotR 0) (Mk := Finset.univ) (S := (xgSl 0).view.set) (Finset.Subset.refl _)) $$ Hg; iintro Hg
  iapply Hk
  ihave Hg := (Entails.of_eq (pointsTo_congr (q := fullShare) (store_xg0 m l hl c f))) $$ Hg
  iframe ∗

def stgW (c : Dev nD) : Fin 3 → sProp 𝕄
  | 0 => iprop((c.tc.loc cc0_stg1_0 ↦{fullShare} win m 0 c)
      ∗ (c.tc.loc cc0_stg2_0 ↦{fullShare} wout m 0 c))
  | 1 => iprop((c.tc.loc cc0_stg3_0 ↦{fullShare} win m 1 c)
      ∗ (c.tc.loc cc0_stg4_0 ↦{fullShare} wout m 1 c))
  | 2 => iprop((c.tc.loc cc0_stg5_0 ↦{fullShare} win m 2 c)
      ∗ (c.tc.loc cc0_stg6_0 ↦{fullShare} wout m 2 c))

theorem wp_castsP (c : Dev nD) (l : Fin 3) (fw : Buf (Elt F) (c.tc.loc cc0_scratch4)) (fo : Buf (Elt F) (c.tc.loc cc0_scratch5)) :
    iprop(stgW m c l ∗ (c.tc.loc cc0_scratch4 ↦{fullShare} fw) ∗ (c.tc.loc cc0_scratch5 ↦{fullShare} fo))
      ⊢ iprop(((stgW m c l ∗ (c.tc.loc cc0_scratch4 ↦{fullShare} wb m l c)
          ∗ (c.tc.loc cc0_scratch5 ↦{fullShare} wob m l c)) -∗ wpDev c (k ⟨⟩) Q)
        -∗ wpDev c (castsP l >>= k) Q) := by
  have h3 : l = 0 ∨ l = 1 ∨ l = 2 := by revert l; decide
  rcases h3 with rfl | rfl | rfl <;>
  · simp only [castsP, winM, woutM, stgW, Prog.bind_lift, Prog.bind_op]
    iintro ⟨⟨Hw, Ho⟩, Hwb, Hob⟩ Hk
    first
      | iapply (wp_load 𝒱₀ (c : Thread nD τ) none _ (m := (Memref.whole cc0_stg1_0 : Memref sig .tc .vmem S512x1024 .f32)) (Finset.subset_univ _)) $$ Hw
      | iapply (wp_load 𝒱₀ (c : Thread nD τ) none _ (m := (Memref.whole cc0_stg3_0 : Memref sig .tc .vmem S512x1024 .f32)) (Finset.subset_univ _)) $$ Hw
      | iapply (wp_load 𝒱₀ (c : Thread nD τ) none _ (m := (Memref.whole cc0_stg5_0 : Memref sig .tc .vmem S512x1024 .f32)) (Finset.subset_univ _)) $$ Hw
    iintro Hw
    erw [Memref.readAt_unit_zero (Elt F) _ hz2]
    iapply (wp_load 𝒱₀ (c : Thread nD τ) none _ (m := winbM) (Finset.subset_univ _)) $$ Hwb; iintro Hwb
    iapply (wp_store 𝒱₀ (c : Thread nD τ) none _ (m := winbM) (r := rW) (Mk := Finset.univ) (Finset.subset_univ _)) $$ Hwb; iintro Hwb
    erw [Memref.write_access_unit_zero_univ (Elt F) _ hz2]
    first
      | iapply (wp_load 𝒱₀ (c : Thread nD τ) none _ (m := (Memref.whole cc0_stg2_0 : Memref sig .tc .vmem S1024x512 .f32)) (Finset.subset_univ _)) $$ Ho
      | iapply (wp_load 𝒱₀ (c : Thread nD τ) none _ (m := (Memref.whole cc0_stg4_0 : Memref sig .tc .vmem S1024x512 .f32)) (Finset.subset_univ _)) $$ Ho
      | iapply (wp_load 𝒱₀ (c : Thread nD τ) none _ (m := (Memref.whole cc0_stg6_0 : Memref sig .tc .vmem S1024x512 .f32)) (Finset.subset_univ _)) $$ Ho
    iintro Ho
    erw [Memref.readAt_unit_zero (Elt F) _ hz2]
    iapply (wp_load 𝒱₀ (c : Thread nD τ) none _ (m := woutbM) (Finset.subset_univ _)) $$ Hob; iintro Hob
    iapply (wp_store 𝒱₀ (c : Thread nD τ) none _ (m := woutbM) (r := rO) (Mk := Finset.univ) (Finset.subset_univ _)) $$ Hob; iintro Hob
    erw [Memref.write_access_unit_zero_univ (Elt F) _ hz2]
    iapply Hk
    iframe ∗
    isplitl [Hwb]
    · iexact Hwb
    iexact Hob

theorem wp_finP (c : Dev nD) (l : ℕ) (hl : l < 3) (q : PosShare TreeShare) (fx : Buf (Elt F) (c.tc.loc cc0_scratch2)) :
    iprop(pbP c 0 q (PBf m l c) ∗ (c.tc.loc cc0_scratch1 ↦{fullShare} ACCf m l c) ∗ (c.tc.loc cc0_scratch2 ↦{fullShare} fx))
      ⊢ iprop(((pbP c 0 q (PBf m l c) ∗ (c.tc.loc cc0_scratch1 ↦{fullShare} ACCf m l c)
          ∗ (c.tc.loc cc0_scratch2 ↦{fullShare} XCf m (l + 1) c)) -∗ wpDev c (k ⟨⟩) Q)
        -∗ wpDev c (finP ⟨l, hl⟩ >>= k) Q) := by
  simp only [finP, Prog.bind_lift, Prog.bind_op]
  iintro ⟨Hp, Ha, Hx⟩ Hk
  unfold pbP
  iapply (wp_load 𝒱₀ (c : Thread nD τ) none _ (m := pbM) (r := (slotR 0).toLoadRect) (S := (pbSl 0).view.set) pb_slot0_load.le) $$ Hp; iintro Hp
  iapply (wp_load 𝒱₀ (c : Thread nD τ) none _ (m := accM) (Finset.subset_univ _)) $$ Ha; iintro Ha
  iapply (wp_load 𝒱₀ (c : Thread nD τ) none _ (m := xcurM) (Finset.subset_univ _)) $$ Hx; iintro Hx
  iapply (wp_store 𝒱₀ (c : Thread nD τ) none _ (m := xcurM) (r := r64) (Mk := Finset.univ) (Finset.subset_univ _)) $$ Hx; iintro Hx
  erw [Memref.write_access_unit_zero_univ (Elt F) _ hz2]
  rw [next_rows m l hl c]
  iapply Hk
  iframe ∗
  iexact Hx

theorem wp_outP (c : Dev nD) (fx : Buf (Elt F) (c.tc.loc cc0_scratch2)) (g : Buf (Elt F) (c.tc.loc cc0_stg7_0)) :
    iprop((c.tc.loc cc0_scratch2 ↦{fullShare} fx) ∗ (c.tc.loc cc0_stg7_0 ↦{fullShare} g))
      ⊢ iprop((((c.tc.loc cc0_scratch2 ↦{fullShare} fx)
          ∗ (c.tc.loc cc0_stg7_0 ↦{fullShare} fx)) -∗ wpDev c (k ⟨⟩) Q)
        -∗ wpDev c (outP >>= k) Q) := by
  simp only [outP, Prog.bind_lift, Prog.bind_op]
  iintro ⟨Hx, Ho⟩ Hk
  iapply (wp_load 𝒱₀ (c : Thread nD τ) none _ (m := xcurM) (Finset.subset_univ _)) $$ Hx; iintro Hx
  erw [Memref.readAt_unit_zero (Elt F) _ hz2]
  iapply (wp_load 𝒱₀ (c : Thread nD τ) none _ (m := outM) (Finset.subset_univ _)) $$ Ho; iintro Ho
  iapply (wp_store 𝒱₀ (c : Thread nD τ) none _ (m := outM) (r := r64) (Mk := Finset.univ) (Finset.subset_univ _)) $$ Ho; iintro Ho
  erw [Memref.write_access_unit_zero_univ (Elt F) _ hz2]
  iapply Hk
  iframe ∗

end Cert.KernelIdealProof

end
-- ==== Proof.BodyPhases.lean ====
import proofs.«900983_g7700000000000984_dist_mlpseq_tp1d_bs_bs_b64_d512_h1024_v7x_i8_f32_1_alg».proof.Proof.RemoteSteps
import proofs.«900983_g7700000000000984_dist_mlpseq_tp1d_bs_bs_b64_d512_h1024_v7x_i8_f32_1_alg».proof.Proof.LocalSteps

noncomputable section

namespace Cert.KernelIdealProof

open Cert.KernelIdeal Cert.KernelIdeal.Gen
open Contents (wb wob)
open Idealize.ShloMosaic Idealize.ShloMosaic.TcCoe
open Idealize.SL Idealize.SL.RA Idealize.SL.BI Idealize.SL.BI.BIBase Idealize.SL.ProofMode Idealize.SL.Sem Idealize.ShloMosaic.Rounds

variable {F : FTy → Type} [FloatOps F]

local notation "𝕄" => MT nD τ sig IxT (Elt F) ℕ UU ℕ

variable (m : (ℓ : Loc nD τ sig) → Buf (Elt F) ℓ) (c : Dev nD) (K : Dev nD × CI → ℕ)
variable {α : Type} {Q : α → sProp (MT nD τ sig IxT (Elt F) ℕ UU ℕ)} {k : PUnit → Prog (TpuEff nD τ sig (Elt F) Λ₀ .tc) α}

theorem owes_at {p p' : ℕ} (h : p = p') (W : Waits sig IxT) :
    (owes c.tc (owedFrom c p) W : sProp 𝕄) ⊢ owes c.tc (owedFrom c p') W := by
  subst h; exact BI.Entails.refl _

def gIn (l : ℕ) (o : Fin 8) : sProp 𝕄 :=
  iprop(xgP c 0 (qsh o) (XGf m l c) ∗ (∃ fd, xgP (peer c o) o fullShare fd) ∗ (∃ f, accP c o f)
    ∗ reached ER (dmaCell c 3 o) l ∗ dutyTok ER (dmaCell c 0 o) l 0 ∗ reached ER (dmaCell c 0 o) l
    ∗ dutyTok ER (dmaCell (peer c o) 1 o) l 0 ∗ reached ER (dmaCell (peer c o) 1 o) l)

def gOut (l : ℕ) (o : Fin 8) : sProp 𝕄 := cred (tallyAt (dmaCell c 0 o) (l, 0) Nblk)

theorem wp_gathers (l : ℕ) (hl : l < 3) (n1 n2 n3 n4 n5 n6 n7 : Dev nD)
    (h1 : n1 = peer c 1) (h2 : n2 = peer c 2) (h3 : n3 = peer c 3) (h4 : n4 = peer c 4) (h5 : n5 = peer c 5) (h6 : n6 = peer c 6) (h7 : n7 = peer c 7)
    (W : Waits sig IxT) :
    iprop(records m K ∗ owes c.tc (owedFrom c (7 + 14 * l)) W
        ∗ gIn m c l 1 ∗ gIn m c l 2 ∗ gIn m c l 3 ∗ gIn m c l 4 ∗ gIn m c l 5 ∗ gIn m c l 6 ∗ gIn m c l 7)
      ⊢ iprop(((owes c.tc (owedFrom c (14 + 14 * l)) W
            ∗ gOut c l 1 ∗ gOut c l 2 ∗ gOut c l 3 ∗ gOut c l 4 ∗ gOut c l 5 ∗ gOut c l 6 ∗ gOut c l 7) -∗ wpDev c (k ⟨⟩) Q)
          -∗ wpDev c (gathersP n1 n2 n3 n4 n5 n6 n7 >>= k) Q) := by
  unfold gathersP gIn gOut
  simp only [Prog.bind_assoc]
  iintro ⟨#Hrec, HO, G1, G2, G3, G4, G5, G6, G7⟩ Hk
  icases G1 with ⟨Hx, ⟨%fd, Hr⟩, Ha, #R3, T0, #R0, T1, #R1⟩
  iapply (wp_gatherStep m K c n1 l hl 1 (by decide) h1 fd W) $$ [$]
  iintro ⟨C1, HO⟩
  icases G2 with ⟨Hx, ⟨%fd, Hr⟩, Ha, #R3, T0, #R0, T1, #R1⟩
  iapply (wp_gatherStep m K c n2 l hl 2 (by decide) h2 fd W) $$ [$]
  iintro ⟨C2, HO⟩
  icases G3 with ⟨Hx, ⟨%fd, Hr⟩, Ha, #R3, T0, #R0, T1, #R1⟩
  iapply (wp_gatherStep m K c n3 l hl 3 (by decide) h3 fd W) $$ [$]
  iintro ⟨C3, HO⟩
  icases G4 with ⟨Hx, ⟨%fd, Hr⟩, Ha, #R3, T0, #R0, T1, #R1⟩
  iapply (wp_gatherStep m K c n4 l hl 4 (by decide) h4 fd W) $$ [$]
  iintro ⟨C4, HO⟩
  icases G5 with ⟨Hx, ⟨%fd, Hr⟩, Ha, #R3, T0, #R0, T1, #R1⟩
  iapply (wp_gatherStep m K c n5 l hl 5 (by decide) h5 fd W) $$ [$]
  iintro ⟨C5, HO⟩
  icases G6 with ⟨Hx, ⟨%fd, Hr⟩, Ha, #R3, T0, #R0, T1, #R1⟩
  iapply (wp_gatherStep m K c n6 l hl 6 (by decide) h6 fd W) $$ [$]
  iintro ⟨C6, HO⟩
  icases G7 with ⟨Hx, ⟨%fd, Hr⟩, Ha, #R3, T0, #R0, T1, #R1⟩
  iapply (wp_gatherStep m K c n7 l hl 7 (by decide) h7 fd W) $$ [$]
  iintro ⟨C7, HO⟩
  ihave HO := (owes_at c (show 7 + 14 * l + 7 = 14 + 14 * l by omega) W) $$ HO
  iapply Hk
  iframe ∗

def bIn (l : ℕ) (o : Fin 8) : sProp 𝕄 :=
  iprop(cred (tallyAt (dmaCell c 1 o) (l, 0) Nblk) ∗ atPos ER (dmaCell c 1 o) l ∅ 0
    ∗ dutyTok ER (dmaCell c 2 o) l 0 ∗ reached ER (dmaCell c 2 o) l ∗ dutyTok ER (dmaCell (back c o) 3 o) l 0)

def riderLeft (l : ℕ) (o : Fin 8) : sProp 𝕄 := if l < 2 then iprop(emp) else xgP c o fullShare (XGf m l c)

def bOut (l : ℕ) (o : Fin 8) : sProp 𝕄 :=
  iprop(atPos ER (dmaCell c 1 o) (l + 1) ∅ 0 ∗ reached ER (dmaCell c 1 o) (l + 1)
    ∗ cred (tallyAt (dmaCell c 2 o) (l, 0) Nblk) ∗ riderLeft m c l o)

-- A multiplied slot either rides with the scatter copy (before the last layer) or stays.
theorem rider_intro (l : ℕ) (o : Fin 8) :
    iprop(xgP c o fullShare (XGf m l c) ∗ reached ER (dmaCell c 1 o) (l + 1)) ⊢ iprop(scatterRider c o l ∗ riderLeft m c l o) := by
  unfold scatterRider riderLeft
  by_cases h : l < 2
  · rw [if_pos h, if_pos h]
    iintro ⟨Hx, #Hr⟩
    isplitl [Hx]
    · isplitl [Hx]
      · iexists (XGf m l c); iexact Hx
      · iexact Hr
    · iempintro
  · rw [if_neg h, if_neg h]
    iintro ⟨Hx, -⟩
    isplitr
    · iempintro
    · iexact Hx

-- Block b reads slots s = 2b and s' = 2b + 1 of the gathered rows and writes the same slots of the products.
theorem wp_blk (l : ℕ) (hl : l < 3) (b : Fin 4) {s s' : Fin 8} (hs : s = loS b) (hs' : s' = hiS b) (q : PosShare TreeShare) (fp : Buf (Elt F) (c.tc.loc cc0_scratch3)) :
    iprop(xgP c s q (XGf m l c) ∗ xgP c s' q (XGf m l c) ∗ (c.tc.loc cc0_scratch4 ↦{fullShare} wb m ⟨l, hl⟩ c) ∗ (c.tc.loc cc0_scratch5 ↦{fullShare} wob m ⟨l, hl⟩ c) ∗ pbP c s fullShare fp ∗ pbP c s' fullShare fp)
      ⊢ iprop(((xgP c s q (XGf m l c) ∗ xgP c s' q (XGf m l c) ∗ (c.tc.loc cc0_scratch4 ↦{fullShare} wb m ⟨l, hl⟩ c) ∗ (c.tc.loc cc0_scratch5 ↦{fullShare} wob m ⟨l, hl⟩ c)
          ∗ pbP c s fullShare (PBf m l c) ∗ pbP c s' fullShare (PBf m l c)) -∗ wpDev c (k ⟨⟩) Q)
        -∗ wpDev c (blkP ⟨l, hl⟩ b >>= k) Q) := by
  subst hs hs'
  simp only [blkP, Prog.bind_lift, Prog.bind_op]
  iintro ⟨Hg0, Hg1, Hw, Hwo, Hp0, Hp1⟩ Hk
  ihave Hg := (xg_blk c b q (XGf m l c)).1 $$ [$]
  iapply (wp_load 𝒱₀ (c : Thread nD τ) none _ (m := xgM) (r := (blkR b).toLoadRect) (Finset.Subset.refl _)) $$ Hg; iintro Hg
  rw [read_blk]
  iapply (wp_load 𝒱₀ (c : Thread nD τ) none _ (m := winbM) (Finset.subset_univ _)) $$ Hw; iintro Hw
  erw [Memref.readAt_unit_zero (Elt F) _ hz2]
  iapply (wp_load 𝒱₀ (c : Thread nD τ) none _ (m := woutbM) (Finset.subset_univ _)) $$ Hwo; iintro Hwo
  erw [Memref.readAt_unit_zero (Elt F) _ hz2]
  ihave Hp := (pb_blk c b fp).1 $$ [$]
  iapply (wp_load 𝒱₀ (c : Thread nD τ) none _ (m := pbM) (r := (blkR b).toLoadRect)
    (S := ((pbM : Memref sig .tc .vmem S512x512 .bf16).access (blkR b)).setOn Finset.univ)
    (by rw [show ((pbM : Memref sig .tc .vmem S512x512 .bf16).access (blkR b)).setOn Finset.univ = (blkR b).set from View.set_slice_whole cc0_scratch3 _]; exact (setOn_whole cc0_scratch3 _).le)) $$ Hp; iintro Hp
  iapply (wp_store 𝒱₀ (c : Thread nD τ) none _ (m := pbM) (r := blkR b) (Mk := Finset.univ) (Finset.Subset.refl _)) $$ Hp; iintro Hp
  iapply Hk
  ihave Hg := (xg_blk c b q (XGf m l c)).2 $$ Hg
  have e := store_pb m l hl c b fp
  rw [read_blk] at e
  ihave Hp := (Entails.of_eq (pointsTo_congr (q := fullShare) e)) $$ Hp
  ihave Hp := (pb_blk c b (PBf m l c)).2 $$ Hp
  icases Hg with ⟨Hg0, Hg1⟩
  icases Hp with ⟨Hp0, Hp1⟩
  iframe ∗

theorem wp_block0 (l : ℕ) (hl : l < 3) (s1 : Dev nD) (hs1 : s1 = back c 1) (W : Waits sig IxT) (fp : Buf (Elt F) (c.tc.loc cc0_scratch3)) :
    iprop(records m K ∗ levAts L lv ∗ owes c.tc (owedFrom c (14 + 14 * l)) W
        ∗ xgP c 0 (qsh 0) (XGf m l c)
        ∗ (c.tc.loc cc0_scratch4 ↦{fullShare} wb m ⟨l, hl⟩ c)
        ∗ (c.tc.loc cc0_scratch5 ↦{fullShare} wob m ⟨l, hl⟩ c)
        ∗ pbP c 0 fullShare fp ∗ pbP c 1 fullShare fp ∗ bIn c l 1)
      ⊢ iprop(((∃ W', owes c.tc (owedFrom c (15 + 14 * l)) W')
            ∗ xgP c 0 (qsh 0) (XGf m l c)
            ∗ (c.tc.loc cc0_scratch4 ↦{fullShare} wb m ⟨l, hl⟩ c)
            ∗ (c.tc.loc cc0_scratch5 ↦{fullShare} wob m ⟨l, hl⟩ c)
            ∗ pbP c 0 fullShare (PBf m l c) ∗ bOut m c l 1 -∗ wpDev c (k ⟨⟩) Q)
          -∗ wpDev c (brecvWaitP 1 >>= fun _ => blkP ⟨l, hl⟩ 0 >>= fun _ => scatterP 1 s1 >>= k) Q) := by
  unfold bIn bOut
  iintro ⟨#Hrec, #Hlev, HO, Hx0, Hw, Hwo, Hp0, Hp1, Cr, Pos, T2, #R2, T3⟩ Hk
  iapply (wp_brecvWaitStep m K c l hl 1 (by decide) (14 + 14 * l) (le_refl _) W) $$ [$]
  iintro ⟨HO, Pos, #R1, Hpay⟩
  unfold brecvPay
  icases Hpay with ⟨Hx1, ⟨%fa, Hacc⟩, #R3⟩
  ihave Hsh := (xg_shares c 1 (XGf m l c)).1 $$ Hx1
  icases Hsh with ⟨Hq0, Hq1, Hq2, Hq3, Hq4, Hq5, Hq6, Hq7⟩
  iapply (wp_blk m c l hl 0 (s := 0) (s' := 1) rfl rfl (qsh 0) fp) $$ [$]
  iintro ⟨Hx0, Hq0, Hw, Hwo, Hp0, Hp1⟩
  ihave Hx1 := (xg_shares c 1 (XGf m l c)).2 $$ [$]
  ihave Hrid := (rider_intro m c l 1) $$ [$]
  icases Hrid with ⟨Hrid, Hleft⟩
  iapply (wp_scatterStep m K c s1 l hl 1 (by decide) hs1 fa _) $$ [$]
  iintro ⟨C2, HO⟩
  ihave HO := (owes_at c (show 14 + 14 * l + 1 = 15 + 14 * l by omega) _) $$ HO
  iapply Hk
  iframe # ∗
  iexists _; iexact HO

theorem wp_blockB (l : ℕ) (hl : l < 3) (b : Fin 4) (hb : b ≠ 0) (s s' : Dev nD) (hs : s = back c (loS b)) (hs' : s' = back c (hiS b))
    (W : Waits sig IxT) (fp : Buf (Elt F) (c.tc.loc cc0_scratch3)) :
    iprop(records m K ∗ levAts L lv ∗ owes c.tc (owedFrom c (14 + 14 * l + ((loS b).val - 1))) W
        ∗ (c.tc.loc cc0_scratch4 ↦{fullShare} wb m ⟨l, hl⟩ c)
        ∗ (c.tc.loc cc0_scratch5 ↦{fullShare} wob m ⟨l, hl⟩ c)
        ∗ pbP c (loS b) fullShare fp ∗ pbP c (hiS b) fullShare fp ∗ bIn c l (loS b) ∗ bIn c l (hiS b))
      ⊢ iprop(((∃ W', owes c.tc (owedFrom c (14 + 14 * l + (hiS b).val)) W')
            ∗ (c.tc.loc cc0_scratch4 ↦{fullShare} wb m ⟨l, hl⟩ c)
            ∗ (c.tc.loc cc0_scratch5 ↦{fullShare} wob m ⟨l, hl⟩ c)
            ∗ bOut m c l (loS b) ∗ bOut m c l (hiS b) -∗ wpDev c (k ⟨⟩) Q)
          -∗ wpDev c (brecvWaitP (loS b) >>= fun _ => brecvWaitP (hiS b) >>= fun _ => blkP ⟨l, hl⟩ b >>= fun _ => scatterP (loS b) s >>= fun _ => scatterP (hiS b) s' >>= k) Q) := by
  have hlo : loS b ≠ 0 := by clear hs hs'; revert b; decide
  have hhi : hiS b ≠ 0 := by clear hs hs' hlo; revert b; decide
  unfold bIn bOut
  iintro ⟨#Hrec, #Hlev, HO, Hw, Hwo, Hpl, Hph, ⟨Crl, Posl, T2l, #R2l, T3l⟩, ⟨Crh, Posh, T2h, #R2h, T3h⟩⟩ Hk
  iapply (wp_brecvWaitStep m K c l hl (loS b) hlo (14 + 14 * l + ((loS b).val - 1)) (by omega) W) $$ [$]
  iintro ⟨HO, Posl, #R1l, Hpay⟩
  unfold brecvPay
  icases Hpay with ⟨Hxl, ⟨%fal, Haccl⟩, #R3l⟩
  iapply (wp_brecvWaitStep m K c l hl (hiS b) hhi (14 + 14 * l + ((loS b).val - 1)) (by omega) _) $$ [$]
  iintro ⟨HO, Posh, #R1h, Hpay⟩
  unfold brecvPay
  icases Hpay with ⟨Hxh, ⟨%fah, Hacch⟩, #R3h⟩
  iapply (wp_blk m c l hl b rfl rfl fullShare fp) $$ [$]
  iintro ⟨Hxl, Hxh, Hw, Hwo, Hpl, Hph⟩
  ihave Hridl := (rider_intro m c l (loS b)) $$ [$]
  icases Hridl with ⟨Hridl, Hleftl⟩
  ihave Hridh := (rider_intro m c l (hiS b)) $$ [$]
  icases Hridh with ⟨Hridh, Hlefth⟩
  iapply (wp_scatterStep m K c s l hl (loS b) hlo hs fal _) $$ [$]
  iintro ⟨C2l, HO⟩
  ihave HO := (owes_at c (show 14 + 14 * l + (loS b).val = 14 + 14 * l + ((hiS b).val - 1) from rfl) _) $$ HO
  iapply (wp_scatterStep m K c s' l hl (hiS b) hhi hs' fah _) $$ [$]
  iintro ⟨C2h, HO⟩
  iapply Hk
  iframe # ∗
  iexists _; iexact HO

def rIn (l : ℕ) (o : Fin 8) : sProp 𝕄 :=
  iprop(cred (tallyAt (dmaCell c 3 o) (l, 0) Nblk) ∗ atPos ER (dmaCell c 3 o) l ∅ 0)
def rOut (l : ℕ) (o : Fin 8) : sProp 𝕄 :=
  iprop(atPos ER (dmaCell c 3 o) (l + 1) ∅ 0 ∗ reached ER (dmaCell c 3 o) (l + 1) ∗ rrecvPay m c o l)

theorem wp_rrecvWaits (l : ℕ) (hl : l < 3) (W : Waits sig IxT) :
    iprop(records m K ∗ levAts L lv ∗ owes c.tc (owedFrom c (21 + 14 * l)) W
        ∗ rIn c l 1 ∗ rIn c l 2 ∗ rIn c l 3 ∗ rIn c l 4 ∗ rIn c l 5 ∗ rIn c l 6 ∗ rIn c l 7)
      ⊢ iprop(((∃ W', owes c.tc (owedFrom c (21 + 14 * l)) W')
            ∗ rOut m c l 1 ∗ rOut m c l 2 ∗ rOut m c l 3 ∗ rOut m c l 4 ∗ rOut m c l 5 ∗ rOut m c l 6 ∗ rOut m c l 7 -∗ wpDev c (k ⟨⟩) Q)
          -∗ wpDev c (rrecvWaitsP >>= k) Q) := by
  unfold rrecvWaitsP rIn rOut
  simp only [Prog.bind_assoc]
  iintro ⟨#Hrec, #Hlev, HO, ⟨C1, P1⟩, ⟨C2, P2⟩, ⟨C3, P3⟩, ⟨C4, P4⟩, ⟨C5, P5⟩, ⟨C6, P6⟩, ⟨C7, P7⟩⟩ Hk
  iapply (wp_rrecvWaitStep m K c l hl 1 (by decide) (21 + 14 * l) (le_refl _) W) $$ [$]
  iintro ⟨HO, O1⟩
  iapply (wp_rrecvWaitStep m K c l hl 2 (by decide) (21 + 14 * l) (le_refl _) _) $$ [$]
  iintro ⟨HO, O2⟩
  iapply (wp_rrecvWaitStep m K c l hl 3 (by decide) (21 + 14 * l) (le_refl _) _) $$ [$]
  iintro ⟨HO, O3⟩
  iapply (wp_rrecvWaitStep m K c l hl 4 (by decide) (21 + 14 * l) (le_refl _) _) $$ [$]
  iintro ⟨HO, O4⟩
  iapply (wp_rrecvWaitStep m K c l hl 5 (by decide) (21 + 14 * l) (le_refl _) _) $$ [$]
  iintro ⟨HO, O5⟩
  iapply (wp_rrecvWaitStep m K c l hl 6 (by decide) (21 + 14 * l) (le_refl _) _) $$ [$]
  iintro ⟨HO, O6⟩
  iapply (wp_rrecvWaitStep m K c l hl 7 (by decide) (21 + 14 * l) (le_refl _) _) $$ [$]
  iintro ⟨HO, O7⟩
  iapply Hk
  iframe # ∗
  iexists _; iexact HO

def sIn (l : ℕ) (o : Fin 8) : sProp 𝕄 :=
  iprop(cred (tallyAt (dmaCell c 0 o) (l, 0) Nblk) ∗ atPos ER (dmaCell c 0 o) l ∅ 0)
def sOut (l : ℕ) (o : Fin 8) : sProp 𝕄 :=
  iprop(atPos ER (dmaCell c 0 o) (l + 1) ∅ 0 ∗ reached ER (dmaCell c 0 o) (l + 1) ∗ bsendPay m c o l)

theorem wp_bsendWaits (l : ℕ) (hl : l < 3) (p : ℕ) (W : Waits sig IxT) :
    iprop(records m K ∗ levAts L lv ∗ owes c.tc (owedFrom c p) W
        ∗ sIn c l 1 ∗ sIn c l 2 ∗ sIn c l 3 ∗ sIn c l 4 ∗ sIn c l 5 ∗ sIn c l 6 ∗ sIn c l 7)
      ⊢ iprop(((∃ W', owes c.tc (owedFrom c p) W')
            ∗ sOut m c l 1 ∗ sOut m c l 2 ∗ sOut m c l 3 ∗ sOut m c l 4 ∗ sOut m c l 5 ∗ sOut m c l 6 ∗ sOut m c l 7 -∗ wpDev c (k ⟨⟩) Q)
          -∗ wpDev c (bsendWaitsP >>= k) Q) := by
  unfold bsendWaitsP sIn sOut
  simp only [Prog.bind_assoc]
  iintro ⟨#Hrec, #Hlev, HO, ⟨C1, P1⟩, ⟨C2, P2⟩, ⟨C3, P3⟩, ⟨C4, P4⟩, ⟨C5, P5⟩, ⟨C6, P6⟩, ⟨C7, P7⟩⟩ Hk
  iapply (wp_bsendWaitStep m K c l hl 1 (by decide) p W) $$ [$]
  iintro ⟨HO, O1⟩
  iapply (wp_bsendWaitStep m K c l hl 2 (by decide) p _) $$ [$]
  iintro ⟨HO, O2⟩
  iapply (wp_bsendWaitStep m K c l hl 3 (by decide) p _) $$ [$]
  iintro ⟨HO, O3⟩
  iapply (wp_bsendWaitStep m K c l hl 4 (by decide) p _) $$ [$]
  iintro ⟨HO, O4⟩
  iapply (wp_bsendWaitStep m K c l hl 5 (by decide) p _) $$ [$]
  iintro ⟨HO, O5⟩
  iapply (wp_bsendWaitStep m K c l hl 6 (by decide) p _) $$ [$]
  iintro ⟨HO, O6⟩
  iapply (wp_bsendWaitStep m K c l hl 7 (by decide) p _) $$ [$]
  iintro ⟨HO, O7⟩
  iapply Hk
  iframe # ∗
  iexists _; iexact HO

def tIn (l : ℕ) (o : Fin 8) : sProp 𝕄 :=
  iprop(cred (tallyAt (dmaCell c 2 o) (l, 0) Nblk) ∗ atPos ER (dmaCell c 2 o) l ∅ 0)
def tOut (l : ℕ) (o : Fin 8) : sProp 𝕄 :=
  iprop(atPos ER (dmaCell c 2 o) (l + 1) ∅ 0 ∗ reached ER (dmaCell c 2 o) (l + 1) ∗ rsendPay m c o l)

theorem wp_rsendWaits (l : ℕ) (hl : l < 3) (p : ℕ) (W : Waits sig IxT) :
    iprop(records m K ∗ levAts L lv ∗ owes c.tc (owedFrom c p) W
        ∗ tIn c l 1 ∗ tIn c l 2 ∗ tIn c l 3 ∗ tIn c l 4 ∗ tIn c l 5 ∗ tIn c l 6 ∗ tIn c l 7)
      ⊢ iprop(((∃ W', owes c.tc (owedFrom c p) W')
            ∗ tOut m c l 1 ∗ tOut m c l 2 ∗ tOut m c l 3 ∗ tOut m c l 4 ∗ tOut m c l 5 ∗ tOut m c l 6 ∗ tOut m c l 7 -∗ wpDev c (k ⟨⟩) Q)
          -∗ wpDev c (rsendWaitsP >>= k) Q) := by
  unfold rsendWaitsP tIn tOut
  simp only [Prog.bind_assoc]
  iintro ⟨#Hrec, #Hlev, HO, ⟨C1, P1⟩, ⟨C2, P2⟩, ⟨C3, P3⟩, ⟨C4, P4⟩, ⟨C5, P5⟩, ⟨C6, P6⟩, ⟨C7, P7⟩⟩ Hk
  iapply (wp_rsendWaitStep m K c l hl 1 (by decide) p W) $$ [$]
  iintro ⟨HO, O1⟩
  iapply (wp_rsendWaitStep m K c l hl 2 (by decide) p _) $$ [$]
  iintro ⟨HO, O2⟩
  iapply (wp_rsendWaitStep m K c l hl 3 (by decide) p _) $$ [$]
  iintro ⟨HO, O3⟩
  iapply (wp_rsendWaitStep m K c l hl 4 (by decide) p _) $$ [$]
  iintro ⟨HO, O4⟩
  iapply (wp_rsendWaitStep m K c l hl 5 (by decide) p _) $$ [$]
  iintro ⟨HO, O5⟩
  iapply (wp_rsendWaitStep m K c l hl 6 (by decide) p _) $$ [$]
  iintro ⟨HO, O6⟩
  iapply (wp_rsendWaitStep m K c l hl 7 (by decide) p _) $$ [$]
  iintro ⟨HO, O7⟩
  iapply Hk
  iframe # ∗
  iexists _; iexact HO

end Cert.KernelIdealProof

end
-- ==== Proof.LayerDefs.lean ====
import proofs.«900983_g7700000000000984_dist_mlpseq_tp1d_bs_bs_b64_d512_h1024_v7x_i8_f32_1_alg».proof.Proof.State

noncomputable section

namespace Cert.KernelIdealProof

open Cert.KernelIdeal Cert.KernelIdeal.Gen
open Idealize.ShloMosaic Idealize.ShloMosaic.TcCoe Idealize.SL Idealize.SL.RA Idealize.SL.BI Idealize.SL.BI.BIBase Idealize.SL.Sem Idealize.ShloMosaic.Rounds
open scoped Idealize.SL.BI

variable {F : FTy → Type} [FloatOps F]

local notation "𝕄" => MT nD τ sig IxT (Elt F) ℕ UU ℕ

variable (m : (ℓ : Loc nD τ sig) → Buf (Elt F) ℓ) (c : Dev nD)

def layerIn (l : ℕ) (o : Fin 8) : sProp 𝕄 :=
  iprop((∃ fd, xgP (peer c o) o fullShare fd) ∗ (∃ f, accP c o f)
    ∗ reached ER (dmaCell c 3 o) l ∗ reached ER (dmaCell c 0 o) l ∗ reached ER (dmaCell c 2 o) l ∗ reached ER (dmaCell (peer c o) 1 o) l
    ∗ dutyTok ER (dmaCell c 0 o) l 0 ∗ dutyTok ER (dmaCell (peer c o) 1 o) l 0 ∗ dutyTok ER (dmaCell c 2 o) l 0 ∗ dutyTok ER (dmaCell (back c o) 3 o) l 0
    ∗ cred (tallyAt (dmaCell c 1 o) (l, 0) Nblk) ∗ cred (tallyAt (dmaCell c 3 o) (l, 0) Nblk)
    ∗ atPos ER (dmaCell c 0 o) l ∅ 0 ∗ atPos ER (dmaCell c 1 o) l ∅ 0 ∗ atPos ER (dmaCell c 2 o) l ∅ 0 ∗ atPos ER (dmaCell c 3 o) l ∅ 0)

def layerOut (l : ℕ) (o : Fin 8) : sProp 𝕄 :=
  iprop((if l < 2 then iprop((∃ f, xgP (peer c o) o fullShare f) ∗ reached ER (dmaCell (peer c o) 1 o) (l + 1)) else xgP c o fullShare (XGf m l c))
    ∗ accP c o (ACCf m l c)
    ∗ reached ER (dmaCell c 3 o) (l + 1) ∗ reached ER (dmaCell c 0 o) (l + 1) ∗ reached ER (dmaCell c 2 o) (l + 1)
    ∗ atPos ER (dmaCell c 0 o) (l + 1) ∅ 0 ∗ atPos ER (dmaCell c 1 o) (l + 1) ∅ 0 ∗ atPos ER (dmaCell c 2 o) (l + 1) ∅ 0 ∗ atPos ER (dmaCell c 3 o) (l + 1) ∅ 0)

end Cert.KernelIdealProof

end
-- ==== Proof.BodyGlue.lean ====
import proofs.«900983_g7700000000000984_dist_mlpseq_tp1d_bs_bs_b64_d512_h1024_v7x_i8_f32_1_alg».proof.Proof.LayerDefs
import proofs.«900983_g7700000000000984_dist_mlpseq_tp1d_bs_bs_b64_d512_h1024_v7x_i8_f32_1_alg».proof.Proof.RemoteSteps

noncomputable section

namespace Cert.KernelIdealProof

open Cert.KernelIdeal Cert.KernelIdeal.Gen
open Idealize.ShloMosaic Idealize.SL Idealize.SL.RA Idealize.SL.BI Idealize.SL.BI.BIBase Idealize.SL.ProofMode Idealize.SL.Sem Idealize.ShloMosaic.Rounds
open scoped Idealize.SL.BI

variable {F : FTy → Type} [FloatOps F]

local notation "𝕄" => MT nD τ sig IxT (Elt F) ℕ UU ℕ

variable (m : (ℓ : Loc nD τ sig) → Buf (Elt F) ℓ) (c : Dev nD) (K : Dev nD × CI → ℕ)

def tok4 (l : ℕ) (o : Fin 8) : sProp 𝕄 :=
  iprop(dutyTok ER (dmaCell c 0 o) l 0 ∗ dutyTok ER (dmaCell (peer c o) 1 o) l 0 ∗ dutyTok ER (dmaCell c 2 o) l 0 ∗ dutyTok ER (dmaCell (back c o) 3 o) l 0)
def cred2 (l : ℕ) (o : Fin 8) : sProp 𝕄 :=
  iprop(cred (tallyAt (dmaCell c 1 o) (l, 0) Nblk) ∗ cred (tallyAt (dmaCell c 3 o) (l, 0) Nblk))
def pos4 (l : ℕ) (o : Fin 8) : sProp 𝕄 :=
  iprop(atPos ER (dmaCell c 0 o) l ∅ 0 ∗ atPos ER (dmaCell c 1 o) l ∅ 0 ∗ atPos ER (dmaCell c 2 o) l ∅ 0 ∗ atPos ER (dmaCell c 3 o) l ∅ 0)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem layerToks_split (l : ℕ) : layerToks (F := F) c l ⊣⊢ iprop(tok4 c l 1 ∗ tok4 c l 2 ∗ tok4 c l 3 ∗ tok4 c l 4 ∗ tok4 c l 5 ∗ tok4 c l 6 ∗ tok4 c l 7) :=
  .of_eq (bigSep_fin7 _)
theorem layerCreds_split (l : ℕ) : layerCreds (F := F) c l ⊣⊢ iprop(cred2 c l 1 ∗ cred2 c l 2 ∗ cred2 c l 3 ∗ cred2 c l 4 ∗ cred2 c l 5 ∗ cred2 c l 6 ∗ cred2 c l 7) :=
  .of_eq (bigSep_fin7 _)
theorem positions_split (l : ℕ) : positions (F := F) c l ⊣⊢ iprop(pos4 c l 1 ∗ pos4 c l 2 ∗ pos4 c l 3 ∗ pos4 c l 4 ∗ pos4 c l 5 ∗ pos4 c l 6 ∗ pos4 c l 7) :=
  .of_eq (by
    unfold positions
    rw [bigSep_univ_equiv (Equiv.prodComm (Fin 7) (Fin 4)), bigSep_univ_prod, bigSep_fin7]
    simp only [bigSep_univ_eq_bigSepL ([0, 1, 2, 3] : List (Fin 4)) (by decide) (by decide)]
    rfl)
theorem barSlots_split : (bigSep Finset.univ fun i : Fin 7 => iprop(∃ f, xgP (F := F) (peer c (io i)) (io i) fullShare f))
    ⊣⊢ iprop((∃ f, xgP (peer c 1) 1 fullShare f) ∗ (∃ f, xgP (peer c 2) 2 fullShare f) ∗ (∃ f, xgP (peer c 3) 3 fullShare f) ∗ (∃ f, xgP (peer c 4) 4 fullShare f)
      ∗ (∃ f, xgP (peer c 5) 5 fullShare f) ∗ (∃ f, xgP (peer c 6) 6 fullShare f) ∗ (∃ f, xgP (peer c 7) 7 fullShare f)) :=
  .of_eq (bigSep_fin7 _)

-- Layer 0 starts from the records: every cell is at round 0.
theorem layerIn_zero (o : Fin 8) (ho : o ≠ 0) :
    iprop(records m K ∗ (∃ fd, xgP (peer c o) o fullShare fd) ∗ (∃ f, accP c o f) ∗ tok4 c 0 o ∗ cred2 c 0 o ∗ pos4 c 0 o)
      ⊢ layerIn c 0 o := by
  unfold layerIn tok4 cred2 pos4
  iintro ⟨#Hrec, Hx, Ha, ⟨Ht0, Ht1, Ht2, Ht3⟩, ⟨Hc1, Hc3⟩, ⟨Hp0, Hp1, Hp2, Hp3⟩⟩
  ihave ⟨-, #Hr3⟩ := (rec_dma m K c 3 o ho) $$ Hrec
  ihave ⟨-, #Hr0⟩ := (rec_dma m K c 0 o ho) $$ Hrec
  ihave ⟨-, #Hr2⟩ := (rec_dma m K c 2 o ho) $$ Hrec
  ihave ⟨-, #Hr1⟩ := (rec_dma m K (peer c o) 1 o ho) $$ Hrec
  iframe # ∗
-- The next layer starts from what the layer before leaves.
theorem layerIn_next (l : ℕ) (h : l < 2) (o : Fin 8) :
    iprop(layerOut m c l o ∗ tok4 c (l + 1) o ∗ cred2 c (l + 1) o) ⊢ layerIn c (l + 1) o := by
  unfold layerOut layerIn tok4 cred2
  rw [if_pos h]
  iintro ⟨⟨⟨Hx, #Hr1⟩, Ha, #Hr3, #Hr0, #Hr2, Hp0, Hp1, Hp2, Hp3⟩, ⟨Ht0, Ht1, Ht2, Ht3⟩, ⟨Hc1, Hc3⟩⟩
  iframe # ∗
  iexists _; iexact Ha
theorem layerOut_last (o : Fin 8) :
    layerOut m c 2 o ⊢ iprop(xgP c o fullShare (XGf m 2 c) ∗ accP c o (ACCf m 2 c) ∗ pos4 c 3 o) := by
  unfold layerOut pos4
  rw [if_neg (Nat.lt_irrefl 2)]
  iintro ⟨Hx, Ha, -, -, -, Hp0, Hp1, Hp2, Hp3⟩
  iframe ∗

-- The seven barrier signals in turn: the signal at offset o hands over slot 8 - o.
theorem wp_sigs {α : Type} {Q : α → sProp 𝕄} {k : PUnit → Prog (TpuEff nD τ sig (Elt F) Λ₀ .tc) α}
    (n1 n2 n3 n4 n5 n6 n7 : Dev nD)
    (h1 : n1 = peer c 1) (h2 : n2 = peer c 2) (h3 : n3 = peer c 3) (h4 : n4 = peer c 4) (h5 : n5 = peer c 5) (h6 : n6 = peer c 6) (h7 : n7 = peer c 7)
    (W : Waits sig IxT) (f : Buf (Elt F) (c.tc.loc cc0_scratch0)) :
    iprop(records m K ∗ owes c.tc (owedFrom c 0) W ∗ barToks c
        ∗ xgP c 1 fullShare f ∗ xgP c 2 fullShare f ∗ xgP c 3 fullShare f ∗ xgP c 4 fullShare f ∗ xgP c 5 fullShare f ∗ xgP c 6 fullShare f ∗ xgP c 7 fullShare f)
      ⊢ iprop((owes c.tc (owedFrom c 7) W -∗ wpDev c (k ⟨⟩) Q)
          -∗ wpDev c (sigsP n1 n2 n3 n4 n5 n6 n7 >>= k) Q) := by
  unfold sigsP barToks
  simp only [Prog.bind_assoc]
  rw [bigSep_fin7]
  iintro ⟨#Hrec, HO, ⟨T1, T2, T3, T4, T5, T6, T7⟩, X1, X2, X3, X4, X5, X6, X7⟩ Hk
  iapply (wp_sigStep m K c n1 (io 0) (io_ne _) h1 W 0 1 rfl rfl 7 rfl f) $$ [$]
  iintro HO
  iapply (wp_sigStep m K c n2 (io 1) (io_ne _) h2 W 1 2 rfl rfl 6 rfl f) $$ [$]
  iintro HO
  iapply (wp_sigStep m K c n3 (io 2) (io_ne _) h3 W 2 3 rfl rfl 5 rfl f) $$ [$]
  iintro HO
  iapply (wp_sigStep m K c n4 (io 3) (io_ne _) h4 W 3 4 rfl rfl 4 rfl f) $$ [$]
  iintro HO
  iapply (wp_sigStep m K c n5 (io 4) (io_ne _) h5 W 4 5 rfl rfl 3 rfl f) $$ [$]
  iintro HO
  iapply (wp_sigStep m K c n6 (io 5) (io_ne _) h6 W 5 6 rfl rfl 2 rfl f) $$ [$]
  iintro HO
  iapply (wp_sigStep m K c n7 (io 6) (io_ne _) h7 W 6 7 rfl rfl 1 rfl f) $$ [$]
  iexact Hk

end Cert.KernelIdealProof

end
-- ==== Proof.Layer.lean ====
import proofs.«900983_g7700000000000984_dist_mlpseq_tp1d_bs_bs_b64_d512_h1024_v7x_i8_f32_1_alg».proof.Proof.BodyPhases
import proofs.«900983_g7700000000000984_dist_mlpseq_tp1d_bs_bs_b64_d512_h1024_v7x_i8_f32_1_alg».proof.Proof.BodyGlue

noncomputable section

namespace Cert.KernelIdealProof

open Cert.KernelIdeal Cert.KernelIdeal.Gen
open Cert.KernelIdeal.Contents (wb wob)
open Idealize.ShloMosaic Idealize.ShloMosaic.TcCoe Idealize.ShloMosaic.Rounds
open Idealize.SL Idealize.SL.RA Idealize.SL.BI Idealize.SL.BI.BIBase Idealize.SL.ProofMode Idealize.SL.Sem

variable {F : FTy → Type} [FloatOps F]

variable (m : (ℓ : Loc nD τ sig) → Buf (Elt F) ℓ) (c : Dev nD)

-- A piece held in one case and a piece held in the other case join to one held in either case.
theorem ite_join {p : Prop} [Decidable p] {A B : sProp (MT nD τ sig IxT (Elt F) ℕ UU ℕ)} :
    (if p then iprop(emp) else B) ⊢ iprop((if p then A else iprop(emp)) -∗ if p then A else B) := by
  by_cases h : p
  · rw [if_pos h, if_pos h, if_pos h]; iintro - H; iexact H
  · rw [if_neg h, if_neg h, if_neg h]; iintro H -; iexact H

-- A layer on device c from its rows in slot 0: the phases in order, each offset's pieces handed from phase to phase.
set_option maxHeartbeats 400000 in
theorem wp_layer (K : Dev nD × CI → ℕ) {α : Type} {Q : α → sProp (MT nD τ sig IxT (Elt F) ℕ UU ℕ)} {k : PUnit → Prog (TpuEff nD τ sig (Elt F) Λ₀ .tc) α}
    (l : ℕ) (hl : l < 3) (l' : ℕ) {n1 n2 n3 n4 n5 n6 n7 s1 s2 s3 s4 s5 s6 s7 : Dev nD}
    (h1 : n1 = peer c 1) (h2 : n2 = peer c 2) (h3 : n3 = peer c 3) (h4 : n4 = peer c 4) (h5 : n5 = peer c 5) (h6 : n6 = peer c 6) (h7 : n7 = peer c 7)
    (g1 : s1 = back c 1) (g2 : s2 = back c 2) (g3 : s3 = back c 3) (g4 : s4 = back c 4) (g5 : s5 = back c 5) (g6 : s6 = back c 6) (g7 : s7 = back c 7)
    (W : Waits sig IxT) (R : Fin 8 → sProp (MT nD τ sig IxT (Elt F) ℕ UU ℕ))
    (hR : ∀ o, o ≠ 0 → iprop(records m K ∗ R o ∗ tok4 (F := F) c l o ∗ cred2 (F := F) c l o) ⊢ layerIn (F := F) c l o)
    (fp : Buf (Elt F) (c.tc.loc cc0_scratch3)) (fw : Buf (Elt F) (c.tc.loc cc0_scratch4)) (fo : Buf (Elt F) (c.tc.loc cc0_scratch5)) :
    iprop(records m K ∗ levAts L lv ∗ owes c.tc (owedFrom c (7 + 14 * l)) W
        ∗ xgP c 0 fullShare (XGf m l c)
        ∗ ((c.tc.loc cc0_scratch2) ↦{fullShare} XCf m l c)
        ∗ ((c.tc.loc cc0_scratch3) ↦{fullShare} fp)
        ∗ ((c.tc.loc cc0_scratch4) ↦{fullShare} fw)
        ∗ ((c.tc.loc cc0_scratch5) ↦{fullShare} fo)
        ∗ accP c 0 (ACCf m l' c) ∗ stgW m c ⟨l, hl⟩
        ∗ layerToks (F := F) c l ∗ layerCreds (F := F) c l ∗ R 1 ∗ R 2 ∗ R 3 ∗ R 4 ∗ R 5 ∗ R 6 ∗ R 7)
      ⊢ iprop(((∃ W', owes c.tc (owedFrom c (21 + 14 * l)) W')
            ∗ xgP c 0 fullShare (XGf m l c)
            ∗ ((c.tc.loc cc0_scratch2) ↦{fullShare} XCf m (l + 1) c)
            ∗ ((c.tc.loc cc0_scratch3) ↦{fullShare} PBf m l c)
            ∗ ((c.tc.loc cc0_scratch4) ↦{fullShare} (wb m ⟨l, hl⟩ c : Buf (Elt F) (c.tc.loc cc0_scratch4)))
            ∗ ((c.tc.loc cc0_scratch5) ↦{fullShare} (wob m ⟨l, hl⟩ c : Buf (Elt F) (c.tc.loc cc0_scratch5)))
            ∗ accP c 0 (ACCf m l c) ∗ stgW m c ⟨l, hl⟩
            ∗ layerOut m c l 1 ∗ layerOut m c l 2 ∗ layerOut m c l 3 ∗ layerOut m c l 4 ∗ layerOut m c l 5 ∗ layerOut m c l 6 ∗ layerOut m c l 7
            -∗ wpDev c (k ⟨⟩) Q)
          -∗ wpDev c (layerP (F := F) ⟨l, hl⟩ n1 n2 n3 n4 n5 n6 n7 s1 s2 s3 s4 s5 s6 s7 >>= k) Q) := by
  have hg := @wp_gathers F _ m c K
  have h0 := @wp_block0 F _ m c K
  have hr := @wp_rrecvWaits F _ m c K
  have hs := @wp_bsendWaits F _ m c K
  have ht := @wp_rsendWaits F _ m c K
  simp only [gIn, gOut, bIn, bOut, rIn, rOut, rrecvPay, sIn, sOut, bsendPay, tIn, tOut, rsendPay] at hg h0 hr hs ht
  have e : loS 1 = 2 ∧ hiS 1 = 3 ∧ loS 2 = 4 ∧ hiS 2 = 5 ∧ loS 3 = 6 ∧ hiS 3 = 7 := by decide
  unfold layerP blocksP
  unfold layerIn at hR
  rw [acc0_any m c l' l]
  simp only [Prog.bind_assoc]
  iintro ⟨#Hrec, #Hlev, HO, Hx0, Hxc, Hpb, Hw4, Hw5, Ha0, Hstg, LT, LC, I1, I2, I3, I4, I5, I6, I7⟩ Hk
  ihave ⟨T1, T2, T3, T4, T5, T6, T7⟩ := (layerToks_split c l).1 $$ LT
  ihave ⟨C1, C2, C3, C4, C5, C6, C7⟩ := (layerCreds_split c l).1 $$ LC
  ihave ⟨Hr1, Hac1, #R31, #R01, #R21, #R11, T01, T11, T21, T31, C11, C31, P01, P11, P21, P31⟩ := (hR 1 (by decide)) $$ [$]
  ihave ⟨Hr2, Hac2, #R32, #R02, #R22, #R12, T02, T12, T22, T32, C12, C32, P02, P12, P22, P32⟩ := (hR 2 (by decide)) $$ [$]
  ihave ⟨Hr3, Hac3, #R33, #R03, #R23, #R13, T03, T13, T23, T33, C13, C33, P03, P13, P23, P33⟩ := (hR 3 (by decide)) $$ [$]
  ihave ⟨Hr4, Hac4, #R34, #R04, #R24, #R14, T04, T14, T24, T34, C14, C34, P04, P14, P24, P34⟩ := (hR 4 (by decide)) $$ [$]
  ihave ⟨Hr5, Hac5, #R35, #R05, #R25, #R15, T05, T15, T25, T35, C15, C35, P05, P15, P25, P35⟩ := (hR 5 (by decide)) $$ [$]
  ihave ⟨Hr6, Hac6, #R36, #R06, #R26, #R16, T06, T16, T26, T36, C16, C36, P06, P16, P26, P36⟩ := (hR 6 (by decide)) $$ [$]
  ihave ⟨Hr7, Hac7, #R37, #R07, #R27, #R17, T07, T17, T27, T37, C17, C37, P07, P17, P27, P37⟩ := (hR 7 (by decide)) $$ [$]
  ihave ⟨Hq0, Hq1, Hq2, Hq3, Hq4, Hq5, Hq6, Hq7⟩ := (xg_shares c 0 (XGf m l c)).1 $$ Hx0
  iapply (hg l hl n1 n2 n3 n4 n5 n6 n7 h1 h2 h3 h4 h5 h6 h7 W) $$ [$]
  iintro ⟨HO, G1, G2, G3, G4, G5, G6, G7⟩
  iapply (wp_castsP m c ⟨l, hl⟩ fw fo) $$ [$]
  iintro ⟨Hstg, Hw4, Hw5⟩
  ihave ⟨Hp0, Hp1, Hp2, Hp3, Hp4, Hp5, Hp6, Hp7⟩ := (pb_slots c fullShare fp).1 $$ Hpb
  iapply (h0 l hl s1 g1 W fp) $$ [$]
  iintro ⟨⟨%W1, HO⟩, Hq0, Hw4, Hw5, Hp0, P11, -, C21, L1⟩
  ihave HO := (owes_at (F := F) c (show 15 + 14 * l = 14 + 14 * l + 1 by omega) W1) $$ HO
  iapply (wp_blockB m c K l hl 1 (by decide) s2 s3 g2 g3 W1 fp) $$ [HO Hw4 Hw5 Hp2 Hp3 C12 P12 T22 T32 C13 P13 T23 T33] <;> simp only [e, bIn, bOut]
  · iframe # ∗
  iintro ⟨⟨%W2, HO⟩, Hw4, Hw5, ⟨P12, -, C22, L2⟩, P13, -, C23, L3⟩
  iapply (wp_blockB m c K l hl 2 (by decide) s4 s5 g4 g5 W2 fp) $$ [HO Hw4 Hw5 Hp4 Hp5 C14 P14 T24 T34 C15 P15 T25 T35] <;> simp only [e, bIn, bOut]
  · iframe # ∗
  iintro ⟨⟨%W3, HO⟩, Hw4, Hw5, ⟨P14, -, C24, L4⟩, P15, -, C25, L5⟩
  iapply (wp_blockB m c K l hl 3 (by decide) s6 s7 g6 g7 W3 fp) $$ [HO Hw4 Hw5 Hp6 Hp7 C16 P16 T26 T36 C17 P17 T27 T37] <;> simp only [e, bIn, bOut]
  · iframe # ∗
  iintro ⟨⟨%W4, HO⟩, Hw4, Hw5, ⟨P16, -, C26, L6⟩, P17, -, C27, L7⟩
  ihave HO := (owes_at (F := F) c (show 14 + 14 * l + 7 = 21 + 14 * l by omega) W4) $$ HO
  iapply (hr l hl W4) $$ [$]
  iintro ⟨⟨%W5, HO⟩, ⟨P31, #Q31, A1, Hrd1⟩, ⟨P32, #Q32, A2, Hrd2⟩, ⟨P33, #Q33, A3, Hrd3⟩, ⟨P34, #Q34, A4, Hrd4⟩, ⟨P35, #Q35, A5, Hrd5⟩, ⟨P36, #Q36, A6, Hrd6⟩, ⟨P37, #Q37, A7, Hrd7⟩⟩
  iapply (hs l hl (21 + 14 * l) W5) $$ [$]
  iintro ⟨⟨%W6, HO⟩, ⟨P01, #Q01, Hq1⟩, ⟨P02, #Q02, Hq2⟩, ⟨P03, #Q03, Hq3⟩, ⟨P04, #Q04, Hq4⟩, ⟨P05, #Q05, Hq5⟩, ⟨P06, #Q06, Hq6⟩, ⟨P07, #Q07, Hq7⟩⟩
  iapply (ht l hl (21 + 14 * l) W6) $$ [$]
  iintro ⟨⟨%W7, HO⟩, ⟨P21, #Q21, Hp1⟩, ⟨P22, #Q22, Hp2⟩, ⟨P23, #Q23, Hp3⟩, ⟨P24, #Q24, Hp4⟩, ⟨P25, #Q25, Hp5⟩, ⟨P26, #Q26, Hp6⟩, ⟨P27, #Q27, Hp7⟩⟩
  ihave Hacc := (acc_slices c (ACCf m l c)).2 $$ [$]
  iapply (wp_finP m c l hl fullShare (XCf m l c)) $$ [$]
  iintro ⟨Hp0, Hacc, Hxc⟩
  ihave ⟨Ha0, A1, A2, A3, A4, A5, A6, A7⟩ := (acc_slices c (ACCf m l c)).1 $$ Hacc
  ihave Hx0 := (xg_shares c 0 (XGf m l c)).2 $$ [$]
  ihave Hpb := (pb_slots c fullShare (PBf m l c)).2 $$ [$]
  unfold riderLeft
  ihave LO1 := ite_join $$ L1 Hrd1
  ihave LO2 := ite_join $$ L2 Hrd2
  ihave LO3 := ite_join $$ L3 Hrd3
  ihave LO4 := ite_join $$ L4 Hrd4
  ihave LO5 := ite_join $$ L5 Hrd5
  ihave LO6 := ite_join $$ L6 Hrd6
  ihave LO7 := ite_join $$ L7 Hrd7
  iapply Hk
  isplitl [HO]
  · iexists W7; iexact HO
  unfold layerOut
  iframe # ∗

end Cert.KernelIdealProof

end
-- ==== Proof.Devs.lean ====
import proofs.«900983_g7700000000000984_dist_mlpseq_tp1d_bs_bs_b64_d512_h1024_v7x_i8_f32_1_alg».proof.Proof.Proto

namespace Cert.KernelIdealProof

open Cert.KernelIdeal Idealize.ShloMosaic

variable {c : Dev nD} {o : Fin 8} {k : ℕ} {h : k < nD}

-- An index equal to c + o mod 8 names the device o places after c; c + (8 - o) mod 8, the device o places before it.
theorem devP (e : k = (c.val + o.val) % 8) : (⟨k, h⟩ : Dev nD) = peer c o := Fin.ext e
theorem devB (e : k = (c.val + (8 - o.val)) % 8) : (⟨k, h⟩ : Dev nD) = back c o :=
  Fin.ext (e.trans (by show _ = (c.val + 8 - o.val) % 8; omega))

end Cert.KernelIdealProof
-- ==== Proof.BodyRun.lean ====
import proofs.«900983_g7700000000000984_dist_mlpseq_tp1d_bs_bs_b64_d512_h1024_v7x_i8_f32_1_alg».proof.Proof.Layer
import proofs.«900983_g7700000000000984_dist_mlpseq_tp1d_bs_bs_b64_d512_h1024_v7x_i8_f32_1_alg».proof.Proof.BodyGlue
import proofs.«900983_g7700000000000984_dist_mlpseq_tp1d_bs_bs_b64_d512_h1024_v7x_i8_f32_1_alg».proof.Proof.Devs

noncomputable section

namespace Cert.KernelIdealProof

open Cert.KernelIdeal Cert.KernelIdeal.Gen
open Cert.KernelIdeal.Contents (xc xin)
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem

variable {F : FTy → Type} [FloatOps F]

variable (m : (ℓ : Loc nD τ sig) → Buf (Elt F) ℓ)

-- The argument blocks: the input rows, then each layer's two matrices.
theorem stgIn_split (c : Dev nD) : stgIn m c ⊣⊢ iprop(((c.tc.loc cc0_stg0_0) ↦{fullShare} (xin m c : Buf (Elt F) (c.tc.loc cc0_stg0_0)))
    ∗ stgW m c ⟨0, by decide⟩ ∗ stgW m c ⟨1, by decide⟩ ∗ stgW m c ⟨2, by decide⟩) :=
  sep_congr_right (sep_assoc.symm.trans (sep_congr_right sep_assoc.symm))

-- The body on device c: the signals, the first rows, the barrier wait, three layers, the result; at the end every cell of the device is closed.
theorem body_run (K : Dev nD × CI → ℕ) (c : Dev nD) (W : Waits sig IxT) (g7 : Buf (Elt F) (c.tc.loc cc0_stg7_0)) :
    iprop(ghost m K c ∗ credsOf c ∗ levAts L lv ∗ scratch c ∗ owes c.tc (owedFrom c 0) W
        ∗ stgIn m c ∗ ((c.tc.loc cc0_stg7_0) ↦{fullShare} g7))
      ⊢ wpDev c (myBody (F := F))
          (fun _ => iprop(Φ₁ c ∗ (∃ W', owes c.tc 0 W') ∗ stgIn m c
            ∗ ((c.tc.loc cc0_stg7_0) ↦{fullShare} (xc m 3 c : Buf (Elt F) (c.tc.loc cc0_stg7_0))))) := by
  unfold myBody
  rw [← Prog.bind_pure (outP (F := F))]
  simp only [Prog.lift, Prog.bind_op, Prog.bind_ret, wp_deviceId]
  unfold ghost credsOf scratch
  iintro ⟨⟨#Hrec, PosB, Pos, BT, LT0, LT1, LT2⟩, ⟨CB, LC0, LC1, LC2⟩, #Hlev, ⟨⟨%fxg, Hxg⟩, ⟨%facc, Hacc⟩, ⟨%fxc, Hxc⟩, ⟨%fpb, Hpb⟩, ⟨%fwb, Hwb⟩, ⟨%fwo, Hwo⟩⟩, HO, Hstg, H7⟩
  ihave ⟨S0, SW0, SW1, SW2⟩ := (stgIn_split m c).1 $$ Hstg
  ihave ⟨X0, X1, X2, X3, X4, X5, X6, X7⟩ := (xg_slots c fullShare fxg).1 $$ Hxg
  iapply (wp_sigs m c K _ _ _ _ _ _ _ (devP (k0_dev1_eq c)) (devP (k0_dev2_eq c)) (devP (k0_dev3_eq c)) (devP (k0_dev4_eq c)) (devP (k0_dev5_eq c)) (devP (k0_dev6_eq c)) (devP (k0_dev7_eq c)) W fxg) $$ [$]
  iintro HO
  ihave ⟨A0, A1, A2, A3, A4, A5, A6, A7⟩ := (acc_slices c facc).1 $$ Hacc
  iapply (wp_initP m c fxc facc) $$ [$]
  iintro ⟨S0, Hxc, A0⟩
  iapply (wp_slot0P m c 0 (by decide) fxg) $$ [$]
  iintro ⟨Hxc, X0⟩
  iapply (wp_barWaitStep m K c W) $$ [$]
  iintro ⟨HO, PosB, Hslots⟩
  ihave ⟨Y1, Y2, Y3, Y4, Y5, Y6, Y7⟩ := (barSlots_split c).1 $$ Hslots
  ihave ⟨P1, P2, P3, P4, P5, P6, P7⟩ := (positions_split c 0).1 $$ Pos
  iapply (wp_layer m c K 0 _ 0 (devP (k0_dev8_eq c)) (devP (k0_dev9_eq c)) (devP (k0_dev10_eq c)) (devP (k0_dev11_eq c)) (devP (k0_dev12_eq c)) (devP (k0_dev13_eq c)) (devP (k0_dev14_eq c))
      (devB (k0_dev15_eq c)) (devB (k0_dev16_eq c)) (devB (k0_dev17_eq c)) (devB (k0_dev18_eq c)) (devB (k0_dev19_eq c)) (devB (k0_dev20_eq c)) (devB (k0_dev21_eq c)) _
      (fun o => iprop((∃ fd, xgP (F := F) (peer c o) o fullShare fd) ∗ accP c o facc ∗ pos4 (F := F) c 0 o))
      (fun o ho => by iintro ⟨#R, ⟨Y, A, P⟩, T, C⟩; iapply (layerIn_zero m c K o ho); iframe # ∗; iexists _; iexact A) _ _ _) $$ [$]
  iintro ⟨⟨%W1, HO⟩, X0, Hxc, Hpb, Hwb, Hwo, A0, SW0, O1, O2, O3, O4, O5, O6, O7⟩
  iapply (wp_slot0P m c 1 (by decide) _) $$ [$]
  iintro ⟨Hxc, X0⟩
  iapply (wp_layer m c K 1 _ 0 (devP (k0_dev22_eq c)) (devP (k0_dev23_eq c)) (devP (k0_dev24_eq c)) (devP (k0_dev25_eq c)) (devP (k0_dev26_eq c)) (devP (k0_dev27_eq c)) (devP (k0_dev28_eq c))
      (devB (k0_dev29_eq c)) (devB (k0_dev30_eq c)) (devB (k0_dev31_eq c)) (devB (k0_dev32_eq c)) (devB (k0_dev33_eq c)) (devB (k0_dev34_eq c)) (devB (k0_dev35_eq c)) W1
      (layerOut m c 0)
      (fun o _ => by iintro ⟨-, H⟩; iapply (layerIn_next m c 0 (by decide) o) $$ H) _ _ _) $$ [$]
  iintro ⟨⟨%W2, HO⟩, X0, Hxc, Hpb, Hwb, Hwo, A0, SW1, O1, O2, O3, O4, O5, O6, O7⟩
  iapply (wp_slot0P m c 2 (by decide) _) $$ [$]
  iintro ⟨Hxc, X0⟩
  iapply (wp_layer m c K 2 _ 1 (devP (k0_dev36_eq c)) (devP (k0_dev37_eq c)) (devP (k0_dev38_eq c)) (devP (k0_dev39_eq c)) (devP (k0_dev40_eq c)) (devP (k0_dev41_eq c)) (devP (k0_dev42_eq c))
      (devB (k0_dev43_eq c)) (devB (k0_dev44_eq c)) (devB (k0_dev45_eq c)) (devB (k0_dev46_eq c)) (devB (k0_dev47_eq c)) (devB (k0_dev48_eq c)) (devB (k0_dev49_eq c)) W2
      (layerOut m c 1)
      (fun o _ => by iintro ⟨-, H⟩; iapply (layerIn_next m c 1 (by decide) o) $$ H) _ _ _) $$ [$]
  iintro ⟨⟨%W3, HO⟩, X0, Hxc, Hpb, Hwb, Hwo, A0, SW2, O1, O2, O3, O4, O5, O6, O7⟩
  iapply (wp_outP c (XCf m 3 c) g7) $$ [$]
  iintro ⟨Hxc, H7⟩
  simp only [wpDev, Prog.pure_eq_ret, wp_ret]
  rw [show 21 + 14 * 2 = 49 from rfl, owedFrom_end]
  ihave ⟨X1, A1, P1⟩ := (layerOut_last m c 1) $$ O1
  ihave ⟨X2, A2, P2⟩ := (layerOut_last m c 2) $$ O2
  ihave ⟨X3, A3, P3⟩ := (layerOut_last m c 3) $$ O3
  ihave ⟨X4, A4, P4⟩ := (layerOut_last m c 4) $$ O4
  ihave ⟨X5, A5, P5⟩ := (layerOut_last m c 5) $$ O5
  ihave ⟨X6, A6, P6⟩ := (layerOut_last m c 6) $$ O6
  ihave ⟨X7, A7, P7⟩ := (layerOut_last m c 7) $$ O7
  ihave Pos := (positions_split c 3).2 $$ [$]
  imod (close_cells m K c) $$ [$] with Hz
  imodintro
  ihave Hxg := (xg_slots c fullShare (XGf m 2 c)).2 $$ [$]
  ihave Hacc := (acc_slices c (ACCf m 2 c)).2 $$ [$]
  ihave Hstg := (stgIn_split m c).2 $$ [$]
  unfold Φ₁ scratch XCf
  iframe Hz Hstg H7
  isplitr [HO]
  · isplitl [Hxg]; · iexists _; iexact Hxg
    isplitl [Hacc]; · iexists _; iexact Hacc
    isplitl [Hxc]; · iexists _; iexact Hxc
    isplitl [Hpb]; · iexists _; iexact Hpb
    isplitl [Hwb]; · iexists _; iexact Hwb
    iexists _; iexact Hwo
  iexists _; iexact HO

/-- info: 'Cert.KernelIdealProof.body_run' depends on axioms: [propext, Classical.choice, Quot.sound] -/
#guard_msgs in #print axioms body_run

end Cert.KernelIdealProof

end
-- ==== Proof.OwedCred.lean ====
import proofs.«900983_g7700000000000984_dist_mlpseq_tp1d_bs_bs_b64_d512_h1024_v7x_i8_f32_1_alg».proof.Proof.Owed

noncomputable section

namespace Cert.KernelIdealProof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig IxT (Elt F) ℕ UU ℕ

def payDevInv (c : Dev nD) (p : ℕ) : Dev nD :=
  if p < 7 then back c (offs p) else if (p - 7) % 14 < 7 then back c (offs (p - 7)) else peer c (offs (p - 7))

theorem payDev_inv (p : ℕ) (c : Dev nD) : payDev (payDevInv c p) p = c := by
  unfold payDev payDevInv
  split_ifs <;> first | exact peer_back _ _ | exact back_peer _ _

theorem payDevInv_dev (p : ℕ) (d : Dev nD) : payDevInv (payDev d p) p = d := by
  unfold payDev payDevInv
  split_ifs <;> first | exact peer_back _ _ | exact back_peer _ _

-- Each due goes to a device reached from the payer by a bijection of the devices, so every device is dealt one due of each position.
theorem creds_all (c : Dev nD) :
    (Pipeline.launchCred (fun d => owedFrom d 0) c : sProp 𝕄)
      ⊢ bigSep (Finset.Ico 0 49) fun q => cred (tallyAt (c.tc, paySem q) (payIx q) (payAmt q)) := by
  show (Pipeline.launchCred (fun d => ∑ q ∈ Finset.Ico 0 49, payTally d q) c : sProp 𝕄) ⊢ _
  rw [Pipeline.launchCred_sum (Finset.Ico 0 49) (fun q d => payTally d q) c]
  exact bigSep_mono fun q _ => Pipeline.launchCred_tallyAt (paySem q) (fun d => payDev d q) (fun c => payDevInv c q)
    (payDev_inv q) (payDevInv_dev q) (payIx q) (payAmt q) c

end Cert.KernelIdealProof

end
-- ==== Proof.Launch.lean ====
import proofs.«900983_g7700000000000984_dist_mlpseq_tp1d_bs_bs_b64_d512_h1024_v7x_i8_f32_1_alg».proof.Proof.BodyRun
import proofs.«900983_g7700000000000984_dist_mlpseq_tp1d_bs_bs_b64_d512_h1024_v7x_i8_f32_1_alg».proof.Proof.OwedCred
import proofs.«900983_g7700000000000984_dist_mlpseq_tp1d_bs_bs_b64_d512_h1024_v7x_i8_f32_1_alg».proof.Proof.Gen.KernelIdeal.Points
import Idealize.ShloMosaic.Lib.Ring

noncomputable section

namespace Cert.KernelIdealProof

open Cert.KernelIdeal Cert.KernelIdeal.Gen
open Cert.KernelIdeal.Contents (xc xin win wout)
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig IxT (Elt F) ℕ UU ℕ

variable (m : (ℓ : Loc nD τ sig) → Buf (Elt F) ℓ) (ρ : Dev nD → PrngReg)

abbrev ι₀ : IxT := (0, 0)

abbrev osem : Fin 4 × Fin 7 → SemLoc sig := fun p => .dma (dmaS p.1 (io p.2))

def dats (_ : Fin 1) (c : Dev nD) : Dat τ (Elt F) IxT ℕ UU ℕ cfg0 c where
  A w := m ((cfg0.win w).arr.view.loc c.tc)
  after w _ := match w with
    | ⟨0, _⟩ => xin m c
    | ⟨1, _⟩ => win m 0 c
    | ⟨2, _⟩ => wout m 0 c
    | ⟨3, _⟩ => win m 1 c
    | ⟨4, _⟩ => wout m 1 c
    | ⟨5, _⟩ => win m 2 c
    | ⟨6, _⟩ => wout m 2 c
    | ⟨7, _⟩ => xc m 3 c
    | ⟨_ + 8, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => owedFrom c 0
    | ⟨_ + 1, _⟩ => 0

theorem ownSemFacts : Pipeline.OwnSemFacts cfg0.spec osem := by decide

theorem share_eq (c : Dev nD) (w : Fin cfg0.W) : (dats m 0 c).share w = fullShare := by unfold Dat.share; split <;> rfl

theorem dmaS_inj {f f' : Fin 4} {o o' : Fin 8} (h : dmaS f o = dmaS f' o') : f = f' ∧ o = o' := by
  have h5 : 8 + 8 * f.val + o.val = 8 + 8 * f'.val + o'.val := congrArg Fin.val h
  exact ⟨Fin.ext (by omega), Fin.ext (by omega)⟩

theorem io_cancel {i i' : Fin 7} (h : io i = io i') : i = i' := Fin.ext (Nat.succ.inj (congrArg Fin.val h))

theorem kcell_injective : Function.Injective (kcell : Dev nD × CI → GSem nD τ sig) := by
  rintro ⟨c, k⟩ ⟨c', k'⟩ h
  obtain rfl : c = c' := by cases k <;> cases k' <;> exact congrArg (fun g : GSem nD τ sig => g.1.1) h
  have h2 : (kcell (c, k)).2 = (kcell (c, k')).2 := congrArg Prod.snd h
  rcases k with _ | p <;> rcases k' with _ | p'
  · rfl
  · cases h2
  · cases h2
  · have h4 : p.1 = p'.1 ∧ io p.2 = io p'.2 := dmaS_inj (SemLoc.dma.inj h2)
    rw [Prod.ext h4.1 (io_cancel h4.2)]

def ringCells : Finset (GSem nD τ sig) := Finset.univ.map ⟨kcell, kcell_injective⟩

abbrev TI : Type := Fin 7 ⊕ (Fin 3 × Fin 7 × Fin 4)
def tokOf : Dev nD × TI → GSem nD τ sig × ℕ × Dy
  | (c, .inl i) => (kcell (c, none), 0, io i)
  | (c, .inr (l, i, f)) => (kcell (c, some (f, i)), l.val, 0)

theorem tokOf_injective : Function.Injective (tokOf : Dev nD × TI → GSem nD τ sig × ℕ × Dy) := by
  rintro ⟨c, i | ⟨l, i, f⟩⟩ ⟨c', i' | ⟨l', i', f'⟩⟩ h <;> simp only [tokOf, Prod.mk.injEq] at h <;> cases kcell_injective h.1
  · rw [io_cancel h.2.2]
  · rw [Fin.ext h.2.1]

def ringToks : Finset (GSem nD τ sig × ℕ × Dy) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun j : TI => dutyTok (ER (F := F)) (tokOf (c, j)).1 (tokOf (c, j)).2.1 (tokOf (c, j)).2.2

-- Φ at each of the cells of device c.
def over (Φ : GSem nD τ sig → sProp 𝕄) (c : Dev nD) : sProp 𝕄 := bigSep Finset.univ fun k : CI => Φ (kcell (c, k))

theorem over_all (Φ : GSem nD τ sig → sProp 𝕄) :
    (bigSep Finset.univ fun c : Dev nD => over Φ c) = bigSep Finset.univ fun ck : Dev nD × CI => Φ (kcell ck) := by
  unfold over; rw [bigSep_univ_prod]

def G (c : Dev nD) : sProp 𝕄 :=
  iprop(over (roundState ER (Rd m) · 0) c ∗ over (atPos (ER (F := F)) · 0 ∅ 0) c ∗ over (reached (ER (F := F)) · 0) c ∗ toks c)

def H (c : Dev nD) : sProp 𝕄 :=
  iprop(over (fun g => iprop(∃ κ : ℕ, cellInv ER (Rd m) κ g)) c ∗ over (atPos (ER (F := F)) · 0 ∅ 0) c ∗ over (reached (ER (F := F)) · 0) c ∗ toks c)

def G' (c : Dev nD) : sProp 𝕄 := iprop(∃ K, ghost m K c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ (over Φ) := (bigSep_map _).trans (over_all Φ).symm
  have hT : bigSep ringToks (fun x => (dutyTok (ER (F := F)) x.1 x.2.1 x.2.2 : sProp 𝕄)) = bigSep Finset.univ fun c : Dev nD => toks c := by
    unfold ringToks; rw [bigSep_map, bigSep_univ_prod]; rfl
  have h := Rounds.fund (ER (F := F)) (Rd m) ringCells ringToks
  rw [hX, hX, hX, hT] at h
  iintro HX
  imod h $$ HX with ⟨Hst, Hr, Hat, Htok⟩
  imodintro
  unfold G; simp only [bigSep_sep']
  iframe

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_CI (Φ : CI → sProp 𝕄) :
    bigSep Finset.univ Φ = iprop((bigSep Finset.univ fun p : Fin 4 × Fin 7 => Φ (some p)) ∗ Φ none) := by
  rw [bigSep_univ_equiv (Equiv.optionEquivSumPUnit.{0, 0} (Fin 4 × Fin 7)).symm Φ, bigSep_univ_sum,
    bigSep_univ_of_subsingleton PUnit.unit]
  rfl

def peerE (o : Fin 8) : Dev nD ≃ Dev nD := ⟨fun c => peer c o, fun c => back c o, fun c => back_peer c o, fun c => peer_back c o⟩

-- A family indexed by device and by i, re-dealt along a bijection of the devices for each i.
theorem deal {I : Type} [Fintype I] (B : Dev nD → I → sProp 𝕄) (e : I → Dev nD ≃ Dev nD) :
    (bigSep Finset.univ fun c : Dev nD => bigSep Finset.univ fun i : I => B c i)
      = bigSep Finset.univ fun c : Dev nD => bigSep Finset.univ fun i : I => B (e i c) i := by
  rw [bigSep_univ_comm, bigSep_univ_comm (fun (c : Dev nD) (i : I) => B (e i c) i)]
  exact bigSep_congr fun i _ => bigSep_univ_equiv (e i) (fun c => B c i)

-- The device that pays the duty of a token minted for a device's own cell.
def payer : TI → Dev nD ≃ Dev nD
  | .inl i => peerE (io i)
  | .inr (_, i, 1) => peerE (io i)
  | .inr (_, i, 3) => (peerE (io i)).symm
  | .inr _ => Equiv.refl _

def payToks (c : Dev nD) : sProp 𝕄 := iprop(barToks c ∗ layerToks c 0 ∗ layerToks c 1 ∗ layerToks c 2)

theorem toks_around : (bigSep Finset.univ fun c : Dev nD => (toks c : sProp 𝕄)) = bigSep Finset.univ fun c : Dev nD => payToks c := by
  unfold toks
  rw [deal _ payer]
  refine bigSep_congr fun c _ => ?_
  rw [bigSep_univ_sum, bigSep_univ_prod, Ring.bigSep_fin3]
  unfold payToks barToks layerToks
  simp only [bigSep_univ_prod, bigSep_fin4]
  rfl

abbrev own0 (c : Dev nD) : sProp 𝕄 := Pipeline.ownSems0 (Ix := IxT) (Name := ℕ) (U := UU) (Lvl := ℕ) (Val := Elt F) (τ := τ) osem c

theorem own0_eq (c : Dev nD) : (own0 c : sProp 𝕄) = bigSep Finset.univ fun p : Fin 4 × Fin 7 => semVal (dmaCell c p.1 (io p.2)) 0 := rfl

theorem sems0_eq (c : Dev nD) :
    iprop(own0 c ∗ unscopedSems0 c) ⊢ (over (semVal · 0) c : sProp 𝕄) := by
  have h : (unscopedSems0 c : sProp 𝕄) = semVal (barCell c) 0 := by
    unfold unscopedSems0; rw [bigSep_eq_bigSepL_of_eq [SemLoc.reg barS] (by decide) (by decide)]; rfl
  unfold over; rw [h, bigSep_CI]
  exact .rfl

theorem core_alloc (c : Dev nD) :
    iprop(own0 c ∗ unscopedSems0 c ∗ G m c) ⊢ |={Set.univ}=> H m c := by
  unfold G H
  iintro ⟨Hos, Hus, Hst, Hat, Hr, Htok⟩
  ihave Hv := (sems0_eq (F := F) c) $$ [Hos Hus]
  · iframe
  imod (show iprop(over (semVal · 0) c ∗ over (roundState ER (Rd m) · 0) c)
      ⊢ (|={Set.univ}=> over (fun g => iprop(∃ κ : ℕ, cellInv ER (Rd m) κ g)) c : sProp 𝕄) from by
        unfold over; rw [← bigSep_sep']
        exact (bigSep_mono fun k _ => (Rounds.body_intro ER (Rd m) (kcell (c, k))).trans inv_alloc).trans (bigSep_fupd _ _)) $$ [Hv Hst] with Hinv
  · iframe
  imodintro
  iframe

def linear (c : Dev nD) : sProp 𝕄 :=
  iprop(over (atPos (ER (F := F)) · 0 ∅ 0) c ∗ payToks c)

theorem ghost_intro (K : Dev nD × CI → ℕ) (c : Dev nD) : iprop(records m K ∗ linear c) ⊢ G' m c := by
  unfold linear payToks G' ghost positions over
  rw [bigSep_CI]
  iintro ⟨#HR, ⟨HaD, HaB⟩, HtB, Ht0, Ht1, Ht2⟩
  iexists K
  iframe # ∗
  isplitl [HaB]
  · iexact HaB
  · iexact HaD

theorem regroup : (bigSep Finset.univ fun c : Dev nD => H m c : sProp 𝕄) ⊢ bigSep Finset.univ (G' m) := by
  unfold H
  rw [bigSep_sep', bigSep_sep', bigSep_sep', over_all, over_all (reached (ER (F := F)) · 0), toks_around]
  iintro ⟨HI, Hat, #HR, Htok⟩
  ihave HK := (BI.bigSep_exists_pi Finset.univ (fun (ck : Dev nD × CI) (κ : ℕ) => (cellInv ER (Rd m) κ (kcell ck) : sProp 𝕄))) $$ HI
  icases HK with ⟨%K, #HI⟩
  iapply (bigSep_with_persistent (R := records m K) fun c _ => ghost_intro m K c)
  isplitr
  · unfold records; iframe #
  · unfold linear; rw [bigSep_sep']; iframe

theorem glob : (bigSep Finset.univ fun c => iprop(own0 c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def start (c : Dev nD) : sProp 𝕄 := iprop((∃ K, ghost m K c) ∗ credsOf c ∗ levAts L lv)

-- The credit of the due at position q, on the cell, round and amount that due names.
theorem cred_of_pay (c : Dev nD) {q q' : ℕ} {t : Thread nD τ} {s : SemLoc sig} {ι : IxT} {n : ℕ} (hq : q = q') (h : payCell c q' = ((t, s), ι, n)) :
    (cred (tallyAt (c.tc, paySem q) (payIx q) (payAmt q)) : sProp 𝕄) = cred (tallyAt (c.tc, s) ι n) := by
  subst hq
  rw [show paySem q = s from congrArg (fun y : GSem nD τ sig × IxT × ℕ => y.1.2) h,
    show payIx q = ι from congrArg (fun y : GSem nD τ sig × IxT × ℕ => y.2.1) h,
    show payAmt q = n from congrArg (fun y : GSem nD τ sig × IxT × ℕ => y.2.2) h]

-- The 49 positions are seven signals, then for each of three layers seven gathers and seven scatters.
theorem credsOf_intro (c : Dev nD) : (Pipeline.launchCred (fun d => owedFrom d 0) c : sProp 𝕄) ⊢ credsOf c := by
  refine (creds_all c).trans (Entails.of_eq ?_)
  rw [← Finset.range_eq_Ico, ← Ring.bigSep_fin_eq_range 49 (fun q : Fin 49 => cred (tallyAt (c.tc, paySem q.val) (payIx q.val) (payAmt q.val))) _ (fun _ _ => rfl),
    bigSep_univ_equiv (finSumFinEquiv (m := 7) (n := 42)), bigSep_univ_sum,
    bigSep_univ_equiv (finProdFinEquiv (m := 3) (n := 14)) (fun j : Fin 42 => _), bigSep_univ_prod]
  unfold credsOf
  rw [show iprop(layerCreds c 0 ∗ layerCreds c 1 ∗ layerCreds c 2) = bigSep Finset.univ fun l : Fin 3 => layerCreds c l.val from (Ring.bigSep_fin3 fun l : Fin 3 => layerCreds c l.val).symm,
    show (tallyAt (barCell c) ((0, 0) : IxT) 7 : CellTallies nD τ sig IxT) = ∑ _a : Fin 7, tallyAt (barCell c) (0, 0) 1 from by
      simp only [Fin.sum_univ_seven, tallyAt_add], Pipeline.cred_finsetSum]
  refine congrArg₂ BI.sep (bigSep_congr fun a _ => cred_of_pay c (show a.val = a.val + 1 - 1 from rfl) (pay_signal c (io a) (io_ne a)))
    (bigSep_congr fun l _ => ?_)
  unfold layerCreds
  rw [bigSep_univ_equiv (finSumFinEquiv (m := 7) (n := 7)), bigSep_univ_sum, bigSep_sep']
  exact congrArg₂ BI.sep
    (bigSep_congr fun i _ => cred_of_pay c (show 7 + (i.val + 14 * l.val) = _ + (i.val + 1 - 1) by omega) (pay_gather c l.val l.isLt (io i) (io_ne i)))
    (bigSep_congr fun i _ => cred_of_pay c (show 7 + (7 + i.val + 14 * l.val) = _ + (i.val + 1 - 1) by omega) (pay_scatter c l.val l.isLt (io i) (io_ne i)))

theorem start_intro (c : Dev nD) :
    iprop(Pipeline.unscopedRestP Pipeline.Prefetch.none cfg0.spec c (fun b => m (c.tc.loc b)) ∗ levAts L lv
        ∗ Pipeline.launchCred (fun d => owedFrom d 0) c ∗ prngReg c (ρ c) ∗ G' m c)
      ⊢ |={Set.univ}=> iprop(start m c ∗ emp) := by
  iintro ⟨-, Hlev, Hcr, -, HG⟩
  ihave Hc := (credsOf_intro (F := F) c) $$ Hcr
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start scratch
  iintro ⟨⟨HG, Hc, Hlev⟩, -, Hs⟩
  iframe

theorem phi1_exit (c : Dev nD) :
    (dats m 0 c).Φ (Fin.last cfg0.N) ⊢ iprop(emp ∗ own0 c ∗ Pipeline.scopedRest cfg0.spec c) := by
  rw [show (dats m 0 c).Φ (Fin.last cfg0.N) = Φ₁ c from rfl, scopedRest0_eq, own0_eq]
  unfold Φ₁ scratch
  iintro ⟨Hs, Hz⟩
  isplitr; · iempintro
  isplitl [Hz]
  · iexact Hz
  · iexact Hs

theorem waits (c : Dev nD) : (levAts L lv : sProp 𝕄) ⊢ Pipeline.cellsWaits cfgs (dats m) ι₀ 0 c :=
  Pipeline.cellsWaits_intro cfgs (dats m) ι₀ 0 c fun w s t => by
    rcases t with ⟨_ | n, ht⟩
    · exact mayWait_low c _ (by fin_cases w <;> fin_cases s <;> decide) ι₀ (by decide) 0
    · show _ ⊢ MayWait _ _ _ (0 : CellTallies nD τ sig IxT)
      rw [MayWait_zero]; iintro -; iempintro

abbrev stg (c : Dev nD) (b : Ref sig .tc) (X : b.ty.Contents (Elt F)) : sProp 𝕄 := (c.tc.loc b) ↦{fullShare} X

-- Reading a whole array through the single block that covers it returns the array.
theorem read_one_blk (b : Ref sig .tc) (f : b.ty.Contents (Elt F))
    (inb : ∀ a, (fun a => 0 * b.ty.shape.size a) a + b.ty.shape.size a ≤ b.ty.shape.size a) :
    ((Memref.whole b).access (Rect.unit (fun a => 0 * b.ty.shape.size a) b.ty.shape.size inb) : View sig .tc _ _ _).read (Elt F) f = f :=
  Memref.read_access_unit_zero (Elt F) b (funext fun a => Nat.zero_mul _) inb f

theorem before_in0 (c : Dev nD) (d) : (dats m 0 c).before (0 : Fin 8) t0_0 d = xin m c := by
  unfold Dat.before
  rw [if_pos (fetch0_0 t0_0)]
  show ((cfg0.win 0).blk t0_0).view.read (Elt F) (m (c.tc.loc main_arg0)) = _
  exact read_one_blk main_arg0 _ _
theorem before_in1 (c : Dev nD) (d) : (dats m 0 c).before (1 : Fin 8) t0_0 d = win m 0 c := by
  unfold Dat.before
  rw [if_pos (fetch0_1 t0_0)]
  show ((cfg0.win 1).blk t0_0).view.read (Elt F) (m (c.tc.loc main_arg1)) = _
  exact read_one_blk main_arg1 _ _
theorem before_in2 (c : Dev nD) (d) : (dats m 0 c).before (2 : Fin 8) t0_0 d = wout m 0 c := by
  unfold Dat.before
  rw [if_pos (fetch0_2 t0_0)]
  show ((cfg0.win 2).blk t0_0).view.read (Elt F) (m (c.tc.loc main_arg2)) = _
  exact read_one_blk main_arg2 _ _
theorem before_in3 (c : Dev nD) (d) : (dats m 0 c).before (3 : Fin 8) t0_0 d = win m 1 c := by
  unfold Dat.before
  rw [if_pos (fetch0_3 t0_0)]
  show ((cfg0.win 3).blk t0_0).view.read (Elt F) (m (c.tc.loc main_arg3)) = _
  exact read_one_blk main_arg3 _ _
theorem before_in4 (c : Dev nD) (d) : (dats m 0 c).before (4 : Fin 8) t0_0 d = wout m 1 c := by
  unfold Dat.before
  rw [if_pos (fetch0_4 t0_0)]
  show ((cfg0.win 4).blk t0_0).view.read (Elt F) (m (c.tc.loc main_arg4)) = _
  exact read_one_blk main_arg4 _ _
theorem before_in5 (c : Dev nD) (d) : (dats m 0 c).before (5 : Fin 8) t0_0 d = win m 2 c := by
  unfold Dat.before
  rw [if_pos (fetch0_5 t0_0)]
  show ((cfg0.win 5).blk t0_0).view.read (Elt F) (m (c.tc.loc main_arg5)) = _
  exact read_one_blk main_arg5 _ _
theorem before_in6 (c : Dev nD) (d) : (dats m 0 c).before (6 : Fin 8) t0_0 d = wout m 2 c := by
  unfold Dat.before
  rw [if_pos (fetch0_6 t0_0)]
  show ((cfg0.win 6).blk t0_0).view.read (Elt F) (m (c.tc.loc main_arg6)) = _
  exact read_one_blk main_arg6 _ _

theorem before_out7 (c : Dev nD) (d) : (dats m 0 c).before (7 : Fin 8) t0_0 d = d := by
  unfold Dat.before
  rw [if_neg (by decide), if_pos (show (t0_0 : Fin cfg0.N).val = 0 from rfl)]

def bodyPost (c : Dev nD) : sProp 𝕄 :=
  iprop(Φ₁ c ∗ (dats m 0 c).owesAt ι₀ t0_0.succ
    ∗ stg c cc0_stg0_0 (xin m c) ∗ stg c cc0_stg1_0 (win m 0 c) ∗ stg c cc0_stg2_0 (wout m 0 c) ∗ stg c cc0_stg3_0 (win m 1 c)
    ∗ stg c cc0_stg4_0 (wout m 1 c) ∗ stg c cc0_stg5_0 (win m 2 c) ∗ stg c cc0_stg6_0 (wout m 2 c) ∗ stg c cc0_stg7_0 (xc m 3 c))

theorem owesAt_succ_intro (c : Dev nD) (W' : Waits sig IxT) :
    (owes c.tc 0 W' : sProp 𝕄) ⊢ (dats m 0 c).owesAt ι₀ t0_0.succ := by
  show _ ⊢ Pipeline.owesWithin c (0 : CellTallies nD τ sig IxT) _
  unfold Pipeline.owesWithin
  iintro HO
  iexists W'
  iframe
  ipureintro; exact fun _ _ => Or.inl trivial

theorem post_entails (c : Dev nD) :
    iprop(Φ₁ c ∗ (∃ W', owes c.tc 0 W') ∗ stgIn m c
        ∗ stg c cc0_stg7_0 (xc m 3 c)) ⊢ bodyPost m c := by
  unfold bodyPost stgIn
  iintro ⟨HΦ, ⟨%W', HO⟩, ⟨H0, H1, H2, H3, H4, H5, H6⟩, H7⟩
  ihave HO := (owesAt_succ_intro m c W') $$ HO
  iframe

theorem body_obligation (c : Dev nD) : BodyObligation (dats (F := F) m 0 c) (defs₀ (F := F)) 𝒱₀ ι₀ Set.univ := fun t => by
  rw [fin_N0 t, bigSep_W0, bigSep_W0]
  simp only [owns_whole]
  show iprop(Φ₀ m c ∗ Pipeline.owesWithin c (owedFrom c 0) _ ∗ _) ⊢ wp frame _ Set.univ (bodyAt0 t0_0) (fun _ => bodyPost m c)
  rw [show bodyAt0 (F := F) t0_0 = myBody from body_eq]
  unfold Φ₀ Pipeline.owesWithin
  simp only [before_in0, before_in1, before_in2, before_in3, before_in4, before_in5, before_in6, before_out7]
  iintro ⟨⟨⟨%K, Hg⟩, Hc, Hlev, Hscr⟩, ⟨%W, -, Ho⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run m K c W d7).trans (wp_mono _ _ _ fun _ => post_entails m c))
  unfold stgIn
  iframe

theorem run_arrays : θ_run defs (onTc (τ := τ) (main (F := F))) ⟨m, fun _ => 0, ρ⟩ (fun r => ∀ c : Dev nD, ∀ w : Fin cfg0.W,
    r.2.mem ((cfg0.win w).arr.view.loc c.tc) = (dats m 0 c).arrAt w cfg0.N) :=
  Pipeline.θ_run_region_owing_glob_pf (fun p => (cfgs p).toPCfg) (fun p => (cfgs p).toPCfg_adm) (dats m) ι₀ cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owedFrom d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      iframe)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

theorem finalA_out (c : Dev nD) : (dats m 0 c).arrAt (7 : Fin 8) cfg0.N = xc m 3 c := by
  show (dats m 0 c).arrAt 7 (t0_0.val + 1) = _
  rw [(dats (F := F) m 0 c).arrAt_succ (7 : Fin 8) t0_0, if_pos (flush0_7 t0_0)]
  exact Memref.write_access_unit_zero_univ (Elt F) main_v1 (funext fun a => Nat.zero_mul _) _ _ _

theorem run_main : θ_run defs (onTc (τ := τ) (main (F := F))) ⟨m, fun _ => 0, ρ⟩ (fun r => ∀ c : Dev nD,
      r.2.mem (c.tc.loc main_v1) = xc m 3 c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) :=
  have hin (c : Dev nD) (w : Fin cfg0.W) (h : (cfg0.win w).isOut = false) := (dats (F := F) m 0 c).arrAt_in w h cfg0.N
  (θ_run defs _ _).mono (fun _ h c => ⟨(h c 7).trans (finalA_out m c),
      (h c 0).trans (hin c 0 rfl), (h c 1).trans (hin c 1 rfl), (h c 2).trans (hin c 2 rfl),
      (h c 3).trans (hin c 3 rfl), (h c 4).trans (hin c 4 rfl), (h c 5).trans (hin c 5 rfl),
      (h c 6).trans (hin c 6 rfl)⟩) (run_arrays m ρ)

end Cert.KernelIdealProof

end
-- ==== Proof.ContentsK.lean ====
import proofs.«900983_g7700000000000984_dist_mlpseq_tp1d_bs_bs_b64_d512_h1024_v7x_i8_f32_1_alg».proof.Proof.Gen.Kernel.Skeleton
import Idealize.ShloMosaic.Lib.ValueIdx

noncomputable section

namespace Cert.Kernel.Contents

open Gen Idealize.ShloMosaic Idealize.ShloMosaic.TcCoe Idealize.SL.Sem

variable {F : FTy → Type} [FloatOps F]
variable (m : (ℓ : Loc nD τ sig) → Buf (Elt F) ℓ)

-- The devices o places after and o places before c round the ring of eight.
def peer (c : Dev nD) (o : Fin 8) : Dev nD := ⟨(c.val + o.val) % 8, Nat.mod_lt _ (by decide)⟩
def back (c : Dev nD) (o : Fin 8) : Dev nD := ⟨(c.val + 8 - o.val) % 8, Nat.mod_lt _ (by decide)⟩

theorem back_peer (c : Dev nD) (o : Fin 8) : back (peer c o) o = c := by revert c o; decide
theorem peer_back (c : Dev nD) (o : Fin 8) : peer (back c o) o = c := by revert c o; decide

def xin (c : Dev nD) : Vec F S64x512 .f32 := m ((c : Thread nD τ).loc main_arg0)
def win (l : Fin 3) (c : Dev nD) : Vec F S512x1024 .f32 :=
  match l with
  | 0 => m ((c : Thread nD τ).loc main_arg1)
  | 1 => m ((c : Thread nD τ).loc main_arg3)
  | 2 => m ((c : Thread nD τ).loc main_arg5)
def wout (l : Fin 3) (c : Dev nD) : Vec F S1024x512 .f32 :=
  match l with
  | 0 => m ((c : Thread nD τ).loc main_arg2)
  | 1 => m ((c : Thread nD τ).loc main_arg4)
  | 2 => m ((c : Thread nD τ).loc main_arg6)

def wb (l : Fin 3) (c : Dev nD) : Vec F S512x1024 .bf16 :=
  match l with
  | 0 => k0_pay5 (win m 0 c)
  | 1 => k0_pay15 (win m 1 c)
  | 2 => k0_pay26 (k0_pay25 (win m 2 c))
def wob (l : Fin 3) (c : Dev nD) : Vec F S1024x512 .bf16 :=
  match l with
  | 0 => k0_pay6 (wout m 0 c)
  | 1 => k0_pay16 (wout m 1 c)
  | 2 => k0_pay27 (wout m 2 c)
def toSlot (l : Fin 3) (x : Vec F S64x512 .f32) : Vec F S64x512 .bf16 :=
  match l with
  | 0 => k0_pay4 x
  | 1 => k0_pay14 x
  | 2 => k0_pay24 x
def blk (l : Fin 3) (b : Fin 4) (x : Vec F S128x512 .bf16) (w : Vec F S512x1024 .bf16) (wo : Vec F S1024x512 .bf16) : Vec F S128x512 .bf16 :=
  match l, b with
  | 0, 0 => k0_pay7 x w (constant S128x1024 .f32 0x00000000#32) wo
  | 0, 1 => k0_pay8 x w wo
  | 0, 2 => k0_pay11 (k0_pay9 x w) k0_pay10 wo
  | 0, 3 => k0_pay12 x w wo
  | 1, 0 => k0_pay17 x w wo
  | 1, 1 => k0_pay18 x w wo
  | 1, 2 => k0_pay19 x w wo
  | 1, 3 => k0_pay22 (k0_pay20 x w) k0_pay21 wo
  | 2, 0 => k0_pay28 x w wo
  | 2, 1 => k0_pay31 (k0_pay29 x w) k0_pay30 wo
  | 2, 2 => k0_pay32 x w wo
  | 2, 3 => k0_pay33 x w wo
def next (l : Fin 3) (v : Vec F S64x512 .bf16) (acc : Vec F S8x64x512 .bf16) : Vec F S64x512 .f32 :=
  match l with
  | 0 => k0_pay13 v acc
  | 1 => k0_pay23 v acc
  | 2 => k0_pay1 v acc

def i512 (r : Fin 512) (j : Fin 512) : S512x512.Idx := ValueIdx.ix2 r j
def i64 (r : Fin 64) (j : Fin 512) : S64x512.Idx := ValueIdx.ix2 r j
def i128 (r : Fin 128) (j : Fin 512) : S128x512.Idx := ValueIdx.ix2 r j
def i8 (o : Fin 8) (r : Fin 64) (j : Fin 512) : S8x64x512.Idx := ValueIdx.ix3 o r j

def slotOf (r : Fin 512) : Fin 8 := ⟨r.val / 64, by have := r.isLt; omega⟩
def inSlot (r : Fin 512) : Fin 64 := ⟨r.val % 64, Nat.mod_lt _ (by decide)⟩
def blkOf (r : Fin 512) : Fin 4 := ⟨r.val / 128, by have := r.isLt; omega⟩
def inBlk (r : Fin 512) : Fin 128 := ⟨r.val % 128, Nat.mod_lt _ (by decide)⟩
def blkRow (b : Fin 4) (p : Fin 128) : Fin 512 := ⟨128 * b.val + p.val, by have := b.isLt; have := p.isLt; omega⟩
def rowOf (o : Fin 8) (r : Fin 64) : Fin 512 := ⟨64 * o.val + r.val, by have := o.isLt; have := r.isLt; omega⟩

-- Layer l on device c: gather slot o holds the rows of the device o before c; the product buffer, their blocks with c's hidden slice; accumulator slice o, the partial product from the device o after c; the next rows, c's own slot plus the accumulator's sum.
mutual
def xc : ℕ → Dev nD → Vec F S64x512 .f32
  | 0, c => k0_pay2 (xin m c)
  | l + 1, c => if h : l < 3 then next ⟨l, h⟩ (fun i => pbAt l c (rowOf 0 (i 0)) (i 1)) (fun i => accAt l c (i 0) (i 1) (i 2)) else xc l c
def xgAt : ℕ → Dev nD → Fin 512 → Fin 512 → Elt F .bf16
  | l, c, r, j => if h : l < 3 then toSlot ⟨l, h⟩ (xc l (back c (slotOf r))) (i64 (inSlot r) j) else toSlot 2 (xc l c) (i64 (inSlot r) j)
def pbAt : ℕ → Dev nD → Fin 512 → Fin 512 → Elt F .bf16
  | l, c, r, j => if h : l < 3 then
      blk ⟨l, h⟩ (blkOf r) (fun i => xgAt l c (blkRow (blkOf r) (i 0)) (i 1)) (wb m ⟨l, h⟩ c) (wob m ⟨l, h⟩ c) (i128 (inBlk r) j)
    else xgAt l c r j
def accAt : ℕ → Dev nD → Fin 8 → Fin 64 → Fin 512 → Elt F .bf16
  | l, c, o, r, j => if o = 0 then k0_pay3 (F := F) (ValueIdx.ix3 (0 : Fin 1) r j) else pbAt l (peer c o) (rowOf o r) j
end

end Cert.Kernel.Contents

end
-- ==== Proof.ProtoK.lean ====
import proofs.«900983_g7700000000000984_dist_mlpseq_tp1d_bs_bs_b64_d512_h1024_v7x_i8_f32_1_alg».proof.Defs
import proofs.«900983_g7700000000000984_dist_mlpseq_tp1d_bs_bs_b64_d512_h1024_v7x_i8_f32_1_alg».proof.Proof.Gen.Kernel.Launch
import proofs.«900983_g7700000000000984_dist_mlpseq_tp1d_bs_bs_b64_d512_h1024_v7x_i8_f32_1_alg».proof.Proof.ContentsK
import Idealize.ShloMosaic.Lib.Tactic

noncomputable section

namespace Cert.KernelProof

open Cert.Kernel Cert.Kernel.Gen
open Idealize.ShloMosaic Idealize.ShloMosaic.TcCoe Idealize.ShloMosaic.Rounds Idealize.SL.RA Idealize.SL.BI Idealize.SL.Sem

variable {F : FTy → Type} [FloatOps F]

abbrev Dy : Type := Fin 8
abbrev IxT : Type := ℕ × Dy

abbrev UB : Type := URounds (GSem nD τ sig) Dy
abbrev UU : Type := UR sig nD τ × UB

local notation "𝕄" => MT nD τ sig IxT (Elt F) ℕ UU ℕ

abbrev EP : Emb (UR sig nD τ) (MT nD τ sig IxT (Elt F) ℕ UU ℕ) := embL
abbrev ER : Emb UB (MT nD τ sig IxT (Elt F) ℕ UU ℕ) := embR

export Cert.Kernel.Contents (peer back back_peer peer_back)

abbrev xgM : Memref sig .tc .vmem S512x512 .bf16 := Memref.whole cc0_scratch0
abbrev accM : Memref sig .tc .vmem S8x64x512 .bf16 := Memref.whole cc0_scratch1
abbrev xcurM : Memref sig .tc .vmem S64x512 .f32 := Memref.whole cc0_scratch2
abbrev pbM : Memref sig .tc .vmem S512x512 .bf16 := Memref.whole cc0_scratch3
abbrev winbM : Memref sig .tc .vmem S512x1024 .bf16 := Memref.whole cc0_scratch4
abbrev woutbM : Memref sig .tc .vmem S1024x512 .bf16 := Memref.whole cc0_scratch5

abbrev barS : Sem sig := (SemArray.scalar (sig.barrier 0 rfl) : Sems sig S_).sem

def dmaS (fam : Fin 4) (o : Fin 8) : DmaSem sig := ⟨8 + 8 * fam.val + o.val, by have := fam.isLt; have := o.isLt; show _ < 40; omega⟩

abbrev barCell (c : Dev nD) : GSem nD τ sig := ((c : Thread nD τ), .reg barS)
abbrev dmaCell (c : Dev nD) (fam : Fin 4) (o : Fin 8) : GSem nD τ sig := ((c : Thread nD τ), .dma (dmaS fam o))

abbrev Nblk : ℕ := (xgM.slice (Rect.unit (s := S512x512) ![64, 0] S64x512.size inb_S512x512_S64x512_64_0) (fun _ => rfl)).view.dmaCredit

open Cert.Kernel.Contents (xc xgAt pbAt accAt)

def qsh : Fin 8 → PosShare TreeShare
  | 0 => fullShare.left.left.left
  | 1 => fullShare.left.left.right
  | 2 => fullShare.left.right.left
  | 3 => fullShare.left.right.right
  | 4 => fullShare.right.left.left
  | 5 => fullShare.right.left.right
  | 6 => fullShare.right.right.left
  | 7 => fullShare.right.right.right

abbrev slotR (o : Fin 8) : Rect S512x512 := Rect.unit (s := S512x512) ![64 * o.val, 0] S64x512.size (by revert o; decide)
abbrev blkR (b : Fin 4) : Rect S512x512 := Rect.unit (s := S512x512) ![128 * b.val, 0] S128x512.size (by revert b; decide)
abbrev accR (o : Fin 8) : Rect S8x64x512 := Rect.unit (s := S8x64x512) ![o.val, 0, 0] S1x64x512.size (by revert o; decide)

abbrev xgSl (o : Fin 8) : Memref sig .tc .vmem S64x512 .bf16 := xgM.slice (slotR o) (fun _ => rfl)
abbrev pbSl (o : Fin 8) : Memref sig .tc .vmem S64x512 .bf16 := pbM.slice (slotR o) (fun _ => rfl)
abbrev accSl (o : Fin 8) : Memref sig .tc .vmem S64x512 .bf16 := (accM.slice (accR o) (fun _ => rfl)).squeeze S64x512 squeezes_S1x64x512_S64x512

variable (m : (ℓ : Loc nD τ sig) → Buf (Elt F) ℓ)

def XGf (l : ℕ) (c : Dev nD) : Buf (Elt F) ((c : Thread nD τ).loc cc0_scratch0) := fun i => xgAt m l c (i 0) (i 1)
def PBf (l : ℕ) (c : Dev nD) : Buf (Elt F) ((c : Thread nD τ).loc cc0_scratch3) := fun i => pbAt m l c (i 0) (i 1)
def ACCf (l : ℕ) (c : Dev nD) : Buf (Elt F) ((c : Thread nD τ).loc cc0_scratch1) := fun i => accAt m l c (i 0) (i 1) (i 2)
def XCf (l : ℕ) (c : Dev nD) : Buf (Elt F) ((c : Thread nD τ).loc cc0_scratch2) := xc m l c

def xgP (c : Dev nD) (o : Fin 8) (q : PosShare TreeShare) (f : Buf (Elt F) ((c : Thread nD τ).loc cc0_scratch0)) : sProp 𝕄 :=
  (xgSl o).view.loc (c : Thread nD τ) ↦[(xgSl o).view.set]{q} f
def pbP (c : Dev nD) (o : Fin 8) (q : PosShare TreeShare) (f : Buf (Elt F) ((c : Thread nD τ).loc cc0_scratch3)) : sProp 𝕄 :=
  (pbSl o).view.loc (c : Thread nD τ) ↦[(pbSl o).view.set]{q} f
def accP (c : Dev nD) (o : Fin 8) (f : Buf (Elt F) ((c : Thread nD τ).loc cc0_scratch1)) : sProp 𝕄 :=
  (accSl o).view.loc (c : Thread nD τ) ↦[(accSl o).view.set]{fullShare} f
end Cert.KernelProof

end
-- ==== Proof.SchedK.lean ====
import proofs.«900983_g7700000000000984_dist_mlpseq_tp1d_bs_bs_b64_d512_h1024_v7x_i8_f32_1_alg».proof.Proof.ProtoK

noncomputable section

namespace Cert.KernelProof

open Cert.Kernel Cert.Kernel.Gen
open Idealize.ShloMosaic Idealize.ShloMosaic.TcCoe
open Idealize.SL.RA Idealize.SL.BI Idealize.SL.BI.BIBase
open Idealize.ShloMosaic.Rounds

variable {F : FTy → Type} [FloatOps F]

local notation "𝕄" => MT nD τ sig IxT (Elt F) ℕ UU ℕ

variable (m : (ℓ : Loc nD τ sig) → Buf (Elt F) ℓ)

def neg (o : Fin 8) : Fin 8 := ⟨(8 - o.val) % 8, Nat.mod_lt _ (by decide)⟩

def barPay (c : Dev nD) (d : Fin 8) : sProp 𝕄 := iprop(∃ f, xgP (F := F) (back c d) (neg d) fullShare f)
def bsendPay (c : Dev nD) (o : Fin 8) (r : ℕ) : sProp 𝕄 := xgP c 0 (qsh o) (XGf m r c)
def brecvPay (c : Dev nD) (o : Fin 8) (r : ℕ) : sProp 𝕄 :=
  iprop(xgP c o fullShare (XGf m r c) ∗ (∃ f, accP (F := F) (back c o) o f) ∗ reached (ER (F := F)) (dmaCell (back c o) 3 o) r)
def rsendPay (c : Dev nD) (o : Fin 8) (r : ℕ) : sProp 𝕄 := pbP c o fullShare (PBf m r c)
def rrecvPay (c : Dev nD) (o : Fin 8) (r : ℕ) : sProp 𝕄 :=
  iprop(accP c o (ACCf m r c) ∗ (if r < 2 then iprop((∃ f, xgP (F := F) (peer c o) o fullShare f) ∗ reached (ER (F := F)) (dmaCell (peer c o) 1 o) (r + 1)) else iprop(emp)))

def famOf (k : DmaSem sig) : ℕ := k.val / 8
def offOf (k : DmaSem sig) : Fin 8 := ⟨k.val % 8, Nat.mod_lt _ (by decide)⟩

def dmaPay (c : Dev nD) (k : DmaSem sig) (r : ℕ) : sProp 𝕄 :=
  match famOf k with
  | 1 => bsendPay m c (offOf k) r
  | 2 => brecvPay m c (offOf k) r
  | 3 => rsendPay m c (offOf k) r
  | 4 => rrecvPay m c (offOf k) r
  | _ => iprop(emp)

def Rd : Rounds.Schedule (GSem nD τ sig) Dy 𝕄 where
  duties g r := match g.2 with
    | .reg _ => if g.1.2 = .tc ∧ r = 0 then Finset.univ.erase 0 else ∅
    | .dma k => if g.1.2 = .tc ∧ 1 ≤ famOf k ∧ offOf k ≠ 0 ∧ r < 3 then {0} else ∅
  unitless _ := False
  amount g _ _ := match g.2 with
    | .reg _ => 1
    | .dma _ => Nblk
  payload g r d := match g.2 with
    | .reg _ => barPay g.1.1 d
    | .dma k => dmaPay m g.1.1 k r
  amount_pos g _ _ _ := by
    cases g.2 with
    | reg _ => exact Nat.one_pos
    | dma _ => exact View.dmaCredit_pos _ (by decide)

instance Rd_payload_storable (g : GSem nD τ sig) (r : ℕ) (d : Dy) :
    Storable (upEmb : UEmb _ 𝕄) ((Rd m).payload g r d) := by
  unfold Rd barPay dmaPay bsendPay brecvPay rsendPay rrecvPay xgP pbP accP
  dsimp only
  (repeat' split) <;> infer_instance

section Tables
variable (c : Dev nD) (fam : Fin 4) (o : Fin 8)

theorem famOf_dmaS : famOf (dmaS fam o) = fam.val + 1 := by
  show (8 + 8 * fam.val + o.val) / 8 = _; omega
theorem offOf_dmaS : offOf (dmaS fam o) = o :=
  Fin.ext (by show (8 + 8 * fam.val + o.val) % 8 = _; omega)

theorem duties_bar : (Rd m).duties (barCell c) 0 = Finset.univ.erase 0 := by
  show (if (c : Thread nD τ).2 = .tc ∧ (0 : ℕ) = 0 then Finset.univ.erase 0 else ∅) = _
  exact if_pos ⟨rfl, rfl⟩
theorem duties_dma (ho : o ≠ 0) {r : ℕ} (hr : r < 3) : (Rd m).duties (dmaCell c fam o) r = {0} := by
  show ite _ _ _ = _
  rw [famOf_dmaS, offOf_dmaS]; exact if_pos ⟨rfl, by omega, ho, hr⟩
theorem duties_dma_later {r : ℕ} (hr : 3 ≤ r) : (Rd m).duties (dmaCell c fam o) r = ∅ :=
  if_neg fun h => by omega
theorem amount_bar (r : ℕ) (d : Dy) : (Rd m).amount (barCell c) r d = 1 := rfl
theorem amount_dma (r : ℕ) (d : Dy) : (Rd m).amount (dmaCell c fam o) r d = Nblk := rfl

theorem expect_bar : (Rd m).expect (barCell c) 0 = 7 := by
  unfold Schedule.expect Schedule.amountOf
  rw [duties_bar, Finset.sum_congr rfl fun d _ => amount_bar m c 0 d]; decide
theorem expect_dma (ho : o ≠ 0) {r : ℕ} (hr : r < 3) : (Rd m).expect (dmaCell c fam o) r = Nblk := by
  unfold Schedule.expect Schedule.amountOf; rw [duties_dma m c fam o ho hr, Finset.sum_singleton, amount_dma]

theorem payload_bar (d : Dy) : (Rd m).payload (barCell c) 0 d = barPay c d := rfl
theorem payload_bsend (r : ℕ) (d : Dy) : (Rd m).payload (dmaCell c 0 o) r d = bsendPay m c o r := by
  show dmaPay m c (dmaS 0 o) r = _
  unfold dmaPay; rw [famOf_dmaS, offOf_dmaS]; rfl
theorem payload_brecv (r : ℕ) (d : Dy) : (Rd m).payload (dmaCell c 1 o) r d = brecvPay m c o r := by
  show dmaPay m c (dmaS 1 o) r = _
  unfold dmaPay; rw [famOf_dmaS, offOf_dmaS]; rfl
theorem payload_rsend (r : ℕ) (d : Dy) : (Rd m).payload (dmaCell c 2 o) r d = rsendPay m c o r := by
  show dmaPay m c (dmaS 2 o) r = _
  unfold dmaPay; rw [famOf_dmaS, offOf_dmaS]; rfl
theorem payload_rrecv (r : ℕ) (d : Dy) : (Rd m).payload (dmaCell c 3 o) r d = rrecvPay m c o r := by
  show dmaPay m c (dmaS 3 o) r = _
  unfold dmaPay; rw [famOf_dmaS, offOf_dmaS]; rfl

end Tables

end Cert.KernelProof

end
-- ==== Proof.LandingK.lean ====
import proofs.«900983_g7700000000000984_dist_mlpseq_tp1d_bs_bs_b64_d512_h1024_v7x_i8_f32_1_alg».proof.Proof.ProtoK
import Idealize.ShloMosaic.Lib.Pipeline.Value

noncomputable section

namespace Cert.KernelProof

open Cert.Kernel Cert.Kernel.Gen
open Cert.Kernel.Contents (xc xgAt pbAt accAt toSlot blk next wb wob i512 i64 i128 i8 slotOf inSlot blkOf inBlk blkRow rowOf)
open Idealize.ShloMosaic Idealize.ShloMosaic.TcCoe Idealize.SL.Sem
open Idealize.ShloMosaic.ValueIdx (ix2 ix3 eq_ix2 eq_ix3)

variable {F : FTy → Type} [FloatOps F]
variable (m : (ℓ : Loc nD τ sig) → Buf (Elt F) ℓ)

theorem accAt_zero (l : ℕ) (c : Dev nD) (r : Fin 64) (j : Fin 512) :
    accAt m l c 0 r j = k0_pay3 (F := F) (ix3 (0 : Fin 1) r j) := by
  rw [accAt, if_pos rfl]

theorem slotOf_rowOf (o : Fin 8) (r : Fin 64) : slotOf (rowOf o r) = o :=
  Fin.ext (by show (64 * o.val + r.val) / 64 = o.val; omega)
theorem inSlot_rowOf (o : Fin 8) (r : Fin 64) : inSlot (rowOf o r) = r :=
  Fin.ext (by show (64 * o.val + r.val) % 64 = r.val; omega)
theorem back_zero (c : Dev nD) : back c 0 = c := by revert c; decide

theorem xgAt_rowOf (l : ℕ) (hl : l < 3) (c : Dev nD) (o : Fin 8) (r : Fin 64) (j : Fin 512) :
    xgAt m l c (rowOf o r) j = toSlot ⟨l, hl⟩ (xc m l (back c o)) (i64 r j) := by
  rw [xgAt, dif_pos hl, slotOf_rowOf, inSlot_rowOf]

theorem slotR_idx (o : Fin 8) (p : Fin 64) (q : Fin 512) : (slotR o).idx (ix2 p q) = i512 (rowOf o p) q :=
  Shape.idx_ext₂ (by show 64 * o.val + 1 * p.val = 64 * o.val + p.val; omega) (by show 0 + 1 * q.val = q.val; omega)
theorem blkR_idx (b : Fin 4) (p : Fin 128) (q : Fin 512) : (blkR b).idx (ix2 p q) = i512 (blkRow b p) q :=
  Shape.idx_ext₂ (by show 128 * b.val + 1 * p.val = 128 * b.val + p.val; omega) (by show 0 + 1 * q.val = q.val; omega)
theorem accR_idx (o : Fin 8) (z : Fin 1) (p : Fin 64) (q : Fin 512) : (accR o).idx (ix3 z p q) = i8 o p q := by
  funext a; apply Fin.ext
  match a with
  | ⟨0, _⟩ => show o.val + 1 * z.val = o.val; omega
  | ⟨1, _⟩ => show 0 + 1 * p.val = p.val; omega
  | ⟨2, _⟩ => show 0 + 1 * q.val = q.val; omega

theorem mem_slot (o : Fin 8) (i : S512x512.Idx) : i ∈ (slotR o).set ↔ (i 0).val / 64 = o.val := by
  rw [Rect.mem_set_unit, Fin.forall_fin_two]
  show (64 * o.val ≤ (i 0).val ∧ (i 0).val < 64 * o.val + 64) ∧ 0 ≤ (i 1).val ∧ (i 1).val < 0 + 512 ↔ _
  have h1 : (i 1).val < 512 := (i 1).isLt
  omega
theorem mem_blk (b : Fin 4) (i : S512x512.Idx) : i ∈ (blkR b).set ↔ (i 0).val / 128 = b.val := by
  rw [Rect.mem_set_unit, Fin.forall_fin_two]
  show (128 * b.val ≤ (i 0).val ∧ (i 0).val < 128 * b.val + 128) ∧ 0 ≤ (i 1).val ∧ (i 1).val < 0 + 512 ↔ _
  have h1 : (i 1).val < 512 := (i 1).isLt
  omega
theorem mem_accSl (o : Fin 8) (i : (accSl o).view.ty.Idx) : i ∈ (accSl o).view.set ↔ (i 0).val = o.val := by
  show i ∈ (((View.whole cc0_scratch1).slice (accR o)).reshape S64x512 _).set ↔ _
  rw [View.set_reshape, View.set_slice_whole, Rect.mem_set_unit]
  show (∀ a : Fin 3, _) ↔ _
  rw [Fin.forall_fin_succ, Fin.forall_fin_two]
  show (o.val ≤ (i 0).val ∧ (i 0).val < o.val + 1) ∧ (0 ≤ (i 1).val ∧ (i 1).val < 0 + 64) ∧ 0 ≤ (i 2).val ∧ (i 2).val < 0 + 512 ↔ _
  have h1 : (i 1).val < 64 := (i 1).isLt
  have h2 : (i 2).val < 512 := (i 2).isLt
  omega

theorem acc_onto (o : Fin 8) (i : S8x64x512.Idx) (h : (i 0).val = o.val) :
    ∃ (p : Fin 64) (q : Fin 512), (accR o).idx (ix3 (0 : Fin 1) p q) = i := by
  refine ⟨i 1, i 2, (accR_idx o 0 _ _).trans (funext fun a => ?_)⟩
  match a with
  | ⟨0, _⟩ => exact Fin.ext h.symm
  | ⟨1, _⟩ | ⟨2, _⟩ => rfl

-- Every element of a view lies under one of its indices, so a write over all indices is read off index by index.
theorem write_eq {κ : Kind} {sp : Space} {S : Shape} {e : EltTy} {v : View sig κ sp S e} {f T : v.ty.Contents (Elt F)} {w : S.Idx → Elt F e}
    (h : ∀ y, cast (congrArg (Elt F) v.elt_eq.symm) (w y) = T (v.emb y)) : ∀ i ∈ v.set, v.write (Elt F) f w Finset.univ i = T i := by
  intro i hi
  obtain ⟨y, rfl⟩ := v.exists_emb_of_mem_set hi
  exact (View.write_emb_of_mem f w (Finset.mem_univ y)).trans (h y)

theorem land_xg (l : ℕ) (hl : l < 3) (s : Dev nD) (o : Fin 8) (fd : Buf (Elt F) ((xgSl o).view.loc (peer s o : Thread nD τ))) :
    ∀ i ∈ (xgSl o).view.set, (xgSl o).view.write (Elt F) fd ((xgSl 0).view.read (Elt F) (XGf m l s)) Finset.univ i = XGf m l (peer s o) i := by
  refine write_eq fun y => ?_
  obtain ⟨p, q, rfl⟩ : ∃ (p : Fin 64) (q : Fin 512), y = ix2 p q := ⟨_, _, eq_ix2 y⟩
  rw [View.read_apply, cast_cast, cast_eq]
  show XGf m l s ((slotR 0).idx (ix2 p q)) = XGf m l (peer s o) ((slotR o).idx (ix2 p q))
  rw [slotR_idx, slotR_idx]
  show xgAt m l s (rowOf 0 p) q = xgAt m l (peer s o) (rowOf o p) q
  rw [xgAt_rowOf m l hl, xgAt_rowOf m l hl, back_peer, back_zero]

theorem land_acc (l : ℕ) (hl : l < 3) (d : Dev nD) (o : Fin 8) (ho : o ≠ 0) (fd : Buf (Elt F) ((accSl o).view.loc (back d o : Thread nD τ))) :
    ∀ i ∈ (accSl o).view.set, (accSl o).view.write (Elt F) fd ((pbSl o).view.read (Elt F) (PBf m l d)) Finset.univ i = ACCf m l (back d o) i := by
  refine write_eq fun y => ?_
  obtain ⟨p, q, rfl⟩ : ∃ (p : Fin 64) (q : Fin 512), y = ix2 p q := ⟨_, _, eq_ix2 y⟩
  have hemb : (accSl o).view.emb (ix2 p q) = (accR o).idx (ix3 (0 : Fin 1) p q) := by
    show (accR o).idx (Shape.reshapeEquiv _ (ix2 p q)) = _
    rw [Shape.reshapeEquiv_cons_one]
    congr 1; funext a
    match a with
    | ⟨0, _⟩ | ⟨1, _⟩ | ⟨2, _⟩ => rfl
  rw [View.read_apply, cast_cast, cast_eq, hemb]
  show PBf m l d ((slotR o).idx (ix2 p q)) = ACCf m l (back d o) ((accR o).idx (ix3 (0 : Fin 1) p q))
  rw [slotR_idx, accR_idx]
  show pbAt m l d (rowOf o p) q = accAt m l (back d o) o p q
  rw [accAt, if_neg ho, peer_back]

theorem store_xg0 (l : ℕ) (hl : l < 3) (c : Dev nD) (f : Buf (Elt F) ((c : Thread nD τ).loc cc0_scratch0)) :
    ∀ i ∈ (xgM.access (slotR 0)).set,
      (xgM.access (slotR 0)).write (Elt F) f (toSlot ⟨l, hl⟩ (xc m l c)) Finset.univ i = XGf m l c i := by
  refine write_eq fun y => ?_
  obtain ⟨p, q, rfl⟩ : ∃ (p : Fin 64) (q : Fin 512), y = ix2 p q := ⟨_, _, eq_ix2 y⟩
  rw [cast_eq]
  show _ = XGf m l c ((slotR 0).idx (ix2 p q))
  rw [slotR_idx]
  show _ = xgAt m l c (rowOf 0 p) q
  rw [xgAt_rowOf m l hl, back_zero]
  rfl

theorem read_blk (l : ℕ) (c : Dev nD) (b : Fin 4) :
    xgM.view.readAt (Elt F) (blkR b).toLoadRect (XGf m l c)
      = fun i => xgAt m l c (blkRow b (i 0)) (i 1) := by
  funext y
  obtain ⟨p, q, rfl⟩ : ∃ (p : Fin 128) (q : Fin 512), y = ix2 p q := ⟨_, _, eq_ix2 y⟩
  rw [View.readAt_apply, View.read_apply, cast_eq]
  show XGf m l c ((blkR b).idx (ix2 p q)) = _
  rw [blkR_idx]
  rfl

theorem store_pb (l : ℕ) (hl : l < 3) (c : Dev nD) (b : Fin 4) (f : Buf (Elt F) ((c : Thread nD τ).loc cc0_scratch3)) :
    ∀ i ∈ (pbM.access (blkR b)).set,
      (pbM.access (blkR b)).write (Elt F) f
        (blk ⟨l, hl⟩ b (xgM.view.readAt (Elt F) (blkR b).toLoadRect (XGf m l c)) (wb m ⟨l, hl⟩ c) (wob m ⟨l, hl⟩ c)) Finset.univ i
        = PBf m l c i := by
  refine write_eq fun y => ?_
  obtain ⟨p, q, rfl⟩ : ∃ (p : Fin 128) (q : Fin 512), y = ix2 p q := ⟨_, _, eq_ix2 y⟩
  rw [cast_eq, read_blk]
  show _ = PBf m l c ((blkR b).idx (ix2 p q))
  rw [blkR_idx]
  show _ = pbAt m l c (blkRow b p) q
  have eb : blkOf (blkRow b p) = b := Fin.ext (by show (128 * b.val + p.val) / 128 = b.val; omega)
  have ei : inBlk (blkRow b p) = p := Fin.ext (by show (128 * b.val + p.val) % 128 = p.val; omega)
  rw [pbAt, dif_pos hl, eb, ei]
  rfl

theorem store_acc0 (l : ℕ) (c : Dev nD) (f : Buf (Elt F) ((c : Thread nD τ).loc cc0_scratch1)) :
    ∀ i ∈ (accM.access (accR 0)).set,
      (accM.access (accR 0)).write (Elt F) f (k0_pay3 (F := F)) Finset.univ i = ACCf m l c i := by
  refine write_eq fun y => ?_
  obtain ⟨z, p, q, rfl⟩ : ∃ (z : Fin 1) (p : Fin 64) (q : Fin 512), y = ix3 z p q := ⟨_, _, _, eq_ix3 y⟩
  rw [cast_eq, Fin.fin_one_eq_zero z]
  show _ = ACCf m l c ((accR 0).idx (ix3 (0 : Fin 1) p q))
  rw [accR_idx]
  show _ = accAt m l c 0 p q
  rw [accAt_zero]

theorem next_rows (l : ℕ) (hl : l < 3) (c : Dev nD) :
    next ⟨l, hl⟩ (pbM.view.readAt (Elt F) (slotR 0).toLoadRect (PBf m l c))
        (accM.view.readAt (Elt F) (Rect.unit (s := S8x64x512) ![0, 0, 0] S8x64x512.size inb_S8x64x512_S8x64x512_0_0_0).toLoadRect (ACCf m l c))
      = xc m (l + 1) c := by
  rw [xc, dif_pos hl]
  congr 1
  · funext y
    obtain ⟨p, q, rfl⟩ : ∃ (p : Fin 64) (q : Fin 512), y = ix2 p q := ⟨_, _, eq_ix2 y⟩
    rw [View.readAt_apply, View.read_apply, cast_eq]
    show PBf m l c ((slotR 0).idx (ix2 p q)) = _
    rw [slotR_idx]
    rfl
  · exact Memref.readAt_unit_zero (Elt F) cc0_scratch1 (by decide) _ _

end Cert.KernelProof

end
-- ==== Proof.EventsK.lean ====
import proofs.«900983_g7700000000000984_dist_mlpseq_tp1d_bs_bs_b64_d512_h1024_v7x_i8_f32_1_alg».proof.Proof.SchedK
import proofs.«900983_g7700000000000984_dist_mlpseq_tp1d_bs_bs_b64_d512_h1024_v7x_i8_f32_1_alg».proof.Proof.LandingK

noncomputable section

namespace Cert.KernelProof

open Cert.Kernel Cert.Kernel.Gen
open Idealize.ShloMosaic Idealize.ShloMosaic.TcCoe Idealize.ShloMosaic.Rounds
open Idealize.SL.RA Idealize.SL.BI Idealize.SL.BI.BIBase Idealize.SL.BI.Laws Idealize.SL.Sem

variable {F : FTy → Type} [FloatOps F]

local notation "𝕄" => MT nD τ sig IxT (Elt F) ℕ UU ℕ

variable (m : (ℓ : Loc nD τ sig) → Buf (Elt F) ℓ)

abbrev 𝒱₀ : Variants := Variants.none

-- The weakest precondition of a program of device c for postcondition Q.
abbrev wpDev (c : Dev nD) {α : Type} (e : Prog (TpuEff nD τ sig (Elt F) Λ₀ .tc) α) (Q : α → sProp 𝕄) : sProp 𝕄 :=
  wp frame (wpE (defs₀ (F := F)) 𝒱₀ c.tc none) Set.univ e Q

def scatterRider (d : Dev nD) (o : Fin 8) (l : ℕ) : sProp 𝕄 :=
  if l < 2 then iprop((∃ f, xgP (F := F) d o fullShare f) ∗ reached (ER (F := F)) (dmaCell d 1 o) (l + 1)) else iprop(emp)

theorem wp_bcast (κ₁ κ₂ : ℕ) (c n : Dev nD) (l : ℕ) (hl : l < 3) (o : Fin 8) (ho : o ≠ 0) (hn : n = peer c o)
    {hsc : (xgSl o).view.ref.isScScratch = false}
    {hsrc : (xgSl 0).view.WordExact} {hdst : (xgSl o).view.WordExact}
    {hsem : DmaTarget.Typed .vmem (.dma (dmaS 1 o)) (.remote n.tc (xgSl o) (.dma (dmaS 0 o)) hsc)}
    {α : Type} {Q : α → sProp 𝕄} {k : PUnit → Prog (TpuEff nD τ sig (Elt F) Λ₀ .tc) α}
    (fd : Buf (Elt F) ((peer c o).tc.loc cc0_scratch0)) (O : CellTallies nD τ sig IxT) (W : Waits sig IxT) :
    iprop(cellInv ER (Rd m) κ₁ (dmaCell c 0 o) ∗ cellInv ER (Rd m) κ₂ (dmaCell (peer c o) 1 o)
        ∗ xgP c 0 (qsh o) (XGf m l c) ∗ (xgP (peer c o) o fullShare fd ∗ ((∃ f, accP (F := F) c o f) ∗ reached ER (dmaCell c 3 o) l))
        ∗ owes c.tc (O + tallyAt (dmaCell (peer c o) 1 o) ((l, 0) : IxT) Nblk) W
        ∗ dutyTok ER (dmaCell c 0 o) l 0 ∗ reached ER (dmaCell c 0 o) l
        ∗ dutyTok ER (dmaCell (peer c o) 1 o) l 0 ∗ reached ER (dmaCell (peer c o) 1 o) l)
      ⊢ iprop(((cred (tallyAt (dmaCell c 0 o) ((l, 0) : IxT) Nblk) ∗ owes c.tc O W) -∗ wpDev c (k ⟨⟩) Q)
          -∗ wpDev c
              (.op (.enqueueDma (xgSl 0) (.remote n.tc (xgSl o) (.dma (dmaS 0 o)) hsc) (.dma (dmaS 1 o)) hsrc hdst hsem) k) Q) := by
  subst hn
  unfold xgP
  exact Rounds.wp_send_pointsTo_with 𝒱₀ ER (Rd m) c.tc none
    (by rw [duties_dma m c 0 o ho hl]; exact Finset.mem_singleton_self _)
    (by rw [duties_dma m (peer c o) 1 o ho hl]; exact Finset.mem_singleton_self _)
    ((l, 0) : IxT) ((l, 0) : IxT) Nblk rfl (amount_dma m c 0 o l 0) (amount_dma m (peer c o) 1 o l 0) O rfl
    (by rw [payload_bsend]; exact .rfl)
    (by rw [payload_brecv]; unfold brecvPay xgP; rw [back_peer, pointsTo_congr (land_xg m l hl c o fd)])

theorem wp_scatter (κ₁ κ₂ : ℕ) (d n : Dev nD) (l : ℕ) (hl : l < 3) (o : Fin 8) (ho : o ≠ 0) (hn : n = back d o)
    {hsc : (accSl o).view.ref.isScScratch = false}
    {hsrc : (pbSl o).view.WordExact} {hdst : (accSl o).view.WordExact}
    {hsem : DmaTarget.Typed .vmem (.dma (dmaS 3 o)) (.remote n.tc (accSl o) (.dma (dmaS 2 o)) hsc)}
    {α : Type} {Q : α → sProp 𝕄} {k : PUnit → Prog (TpuEff nD τ sig (Elt F) Λ₀ .tc) α}
    (fd : Buf (Elt F) ((back d o).tc.loc cc0_scratch1)) (O : CellTallies nD τ sig IxT) (W : Waits sig IxT) :
    iprop(cellInv ER (Rd m) κ₁ (dmaCell d 2 o) ∗ cellInv ER (Rd m) κ₂ (dmaCell (back d o) 3 o)
        ∗ pbP d o fullShare (PBf m l d) ∗ (accP (back d o) o fd ∗ scatterRider d o l)
        ∗ owes d.tc (O + tallyAt (dmaCell (back d o) 3 o) ((l, 0) : IxT) Nblk) W
        ∗ dutyTok ER (dmaCell d 2 o) l 0 ∗ reached ER (dmaCell d 2 o) l
        ∗ dutyTok ER (dmaCell (back d o) 3 o) l 0 ∗ reached ER (dmaCell (back d o) 3 o) l)
      ⊢ iprop(((cred (tallyAt (dmaCell d 2 o) ((l, 0) : IxT) Nblk) ∗ owes d.tc O W) -∗ wpDev d (k ⟨⟩) Q)
          -∗ wpDev d
              (.op (.enqueueDma (pbSl o) (.remote n.tc (accSl o) (.dma (dmaS 2 o)) hsc) (.dma (dmaS 3 o)) hsrc hdst hsem) k) Q) := by
  subst hn
  unfold pbP accP
  exact Rounds.wp_send_pointsTo_with 𝒱₀ ER (Rd m) d.tc none
    (by rw [duties_dma m d 2 o ho hl]; exact Finset.mem_singleton_self _)
    (by rw [duties_dma m (back d o) 3 o ho hl]; exact Finset.mem_singleton_self _)
    ((l, 0) : IxT) ((l, 0) : IxT) Nblk rfl (amount_dma m d 2 o l 0) (amount_dma m (back d o) 3 o l 0) O rfl
    (by rw [payload_rsend]; exact .rfl)
    (by rw [payload_rrecv]; unfold rrecvPay accP scatterRider; rw [peer_back, pointsTo_congr (land_acc m l hl d o ho fd)])

theorem wp_dmaWait (κ : ℕ) (c : Dev nD) (fam : Fin 4) (o : Fin 8) (ho : o ≠ 0) (l : ℕ) (hl : l < 3)
    {src dst : Memref sig .tc .vmem S64x512 .bf16} {hs : src.view.WordExact} {hd : dst.view.WordExact} (hN : dst.view.dmaCredit = Nblk)
    {α : Type} {Q : α → sProp 𝕄} {k : PUnit → Prog (TpuEff nD τ sig (Elt F) Λ₀ .tc) α}
    (O : CellTallies nD τ sig IxT) (W : Waits sig IxT) :
    iprop(cellInv ER (Rd m) κ (dmaCell c fam o) ∗ cred (tallyAt (dmaCell c fam o) ((l, 0) : IxT) Nblk) ∗ owes c.tc O W
        ∗ MayWait c.tc (.dma (dmaS fam o)) ((l, 0) : IxT) O ∗ atPos ER (dmaCell c fam o) l ∅ 0)
      ⊢ iprop(((owes c.tc O (insert (SemLoc.dma (dmaS fam o), ((l, 0) : IxT)) W)
              ∗ atPos ER (dmaCell c fam o) (l + 1) ∅ 0 ∗ reached ER (dmaCell c fam o) (l + 1)
              ∗ (Rd m).payload (dmaCell c fam o) l 0)
            -∗ wpDev c (k ⟨⟩) Q)
          -∗ wpDev c (.op (.waitDma2 (dmaS fam o) src dst hs hd) k) Q) := by
  have e : bigSep ((Rd m).duties (dmaCell c fam o) l \ ∅) (fun d => (Rd m).payload (dmaCell c fam o) l d) = (Rd m).payload (dmaCell c fam o) l 0 := by
    rw [Finset.sdiff_empty, duties_dma m c fam o ho hl, bigSep_singleton]
  rw [← e, ← hN]
  exact Rounds.wp_wait_rest_token 𝒱₀ ER (Rd m) c.tc none
      (wpE_waitDma2_eq 𝒱₀ c.tc none Set.univ) (Set.mem_univ _) ((l, 0) : IxT)
      (by rw [Nat.zero_add, expect_dma m c fam o ho hl]; exact hN)

theorem wp_barSignal (κ : ℕ) (c n : Dev nD) (o : Fin 8) (ho : o ≠ 0) (hn : n = peer c o)
    {α : Type} {Q : α → sProp 𝕄} {k : PUnit → Prog (TpuEff nD τ sig (Elt F) Λ₀ .tc) α}
    (O : CellTallies nD τ sig IxT) (W : Waits sig IxT) :
    iprop(cellInv ER (Rd m) κ (barCell (peer c o)) ∗ owes c.tc (O + tallyAt (barCell (peer c o)) ((0, 0) : IxT) 1) W
        ∗ dutyTok ER (barCell (peer c o)) 0 o ∗ (∃ f, xgP (F := F) c (neg o) fullShare f) ∗ reached ER (barCell (peer c o)) 0)
      ⊢ iprop((owes c.tc O W -∗ wpDev c (k ⟨⟩) Q)
          -∗ wpDev c (.op (.semSignal n.tc barS 1) k) Q) := by
  subst hn
  exact (sep_mono_right (sep_mono_right (sep_mono_right (sep_mono_left
      (by rw [payload_bar]; unfold barPay; rw [back_peer]))))).trans
    (Rounds.wp_signal 𝒱₀ ER (Rd m) c.tc none (d := o)
      (by rw [duties_bar]; exact Finset.mem_erase.mpr ⟨ho, Finset.mem_univ _⟩) (amount_bar m (peer c o) 0 o) ((0, 0) : IxT) O rfl)

end Cert.KernelProof

end
-- ==== Proof.OwedK.lean ====
import proofs.«900983_g7700000000000984_dist_mlpseq_tp1d_bs_bs_b64_d512_h1024_v7x_i8_f32_1_alg».proof.Proof.SchedK

noncomputable section

namespace Cert.KernelProof

open Cert.Kernel Cert.Kernel.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig IxT (Elt F) ℕ UU ℕ

def offs (s : ℕ) : Fin 8 := ⟨s % 7 + 1, by omega⟩

def payDev (c : Dev nD) (p : ℕ) : Dev nD :=
  if p < 7 then peer c (offs p) else if (p - 7) % 14 < 7 then peer c (offs (p - 7)) else back c (offs (p - 7))
def paySem (p : ℕ) : SemLoc sig :=
  if p < 7 then .reg barS else if (p - 7) % 14 < 7 then .dma (dmaS 1 (offs (p - 7))) else .dma (dmaS 3 (offs (p - 7)))
def payIx (p : ℕ) : IxT := if p < 7 then (0, 0) else ((p - 7) / 14, 0)
def payAmt (p : ℕ) : ℕ := if p < 7 then 1 else Nblk

def payCell (c : Dev nD) (p : ℕ) : GSem nD τ sig × IxT × ℕ :=
  ((((payDev c p : Dev nD) : Thread nD τ), paySem p), payIx p, payAmt p)

def payTally (c : Dev nD) (p : ℕ) : CellTallies nD τ sig IxT :=
  tallyAt (payCell c p).1 (payCell c p).2.1 (payCell c p).2.2

def owedFrom (c : Dev nD) (p : ℕ) : CellTallies nD τ sig IxT := ∑ q ∈ Finset.Ico p 49, payTally c q

theorem owedFrom_step (c : Dev nD) (p : ℕ) (hp : p < 49) :
    owedFrom c p = owedFrom c (p + 1) + tallyAt (payCell c p).1 (payCell c p).2.1 (payCell c p).2.2 := by
  unfold owedFrom
  rw [Finset.sum_eq_sum_Ico_succ_bot hp, add_comm]
  rfl

theorem owedFrom_end (c : Dev nD) : owedFrom c 49 = 0 := by
  unfold owedFrom
  rw [Finset.Ico_self, Finset.sum_empty]

theorem offs_of (o : Fin 8) (ho : o ≠ 0) (n : ℕ) : offs (7 * n + (o.val - 1)) = o := by
  have h1 : o.val ≠ 0 := fun h => ho (Fin.ext h)
  apply Fin.ext
  show (7 * n + (o.val - 1)) % 7 + 1 = o.val
  omega

theorem pay_signal (c : Dev nD) (o : Fin 8) (ho : o ≠ 0) :
    payCell c (o.val - 1) = (barCell (peer c o), (0, 0), 1) := by
  have h1 : o.val ≠ 0 := fun h => ho (Fin.ext h)
  have hlt : o.val - 1 < 7 := by omega
  have ho' : offs (o.val - 1) = o := by simpa using offs_of o ho 0
  simp only [payCell, payDev, paySem, payIx, payAmt, if_pos hlt, ho']

theorem pay_gather (c : Dev nD) (l : ℕ) (hl : l < 3) (o : Fin 8) (ho : o ≠ 0) :
    payCell c (7 + 14 * l + (o.val - 1)) = (dmaCell (peer c o) 1 o, (l, 0), Nblk) := by
  have h1 : o.val ≠ 0 := fun h => ho (Fin.ext h)
  have hge : ¬ 7 + 14 * l + (o.val - 1) < 7 := by omega
  have hm : (7 + 14 * l + (o.val - 1) - 7) % 14 < 7 := by omega
  have hd : (7 + 14 * l + (o.val - 1) - 7) / 14 = l := by omega
  have ho' : offs (7 + 14 * l + (o.val - 1) - 7) = o := by
    rw [show 7 + 14 * l + (o.val - 1) - 7 = 7 * (2 * l) + (o.val - 1) by omega]; exact offs_of o ho _
  simp only [payCell, payDev, paySem, payIx, payAmt, if_neg hge, if_pos hm, hd, ho']

theorem pay_scatter (c : Dev nD) (l : ℕ) (hl : l < 3) (o : Fin 8) (ho : o ≠ 0) :
    payCell c (14 + 14 * l + (o.val - 1)) = (dmaCell (back c o) 3 o, (l, 0), Nblk) := by
  have h1 : o.val ≠ 0 := fun h => ho (Fin.ext h)
  have hge : ¬ 14 + 14 * l + (o.val - 1) < 7 := by omega
  have hm : ¬ (14 + 14 * l + (o.val - 1) - 7) % 14 < 7 := by omega
  have hd : (14 + 14 * l + (o.val - 1) - 7) / 14 = l := by omega
  have ho' : offs (14 + 14 * l + (o.val - 1) - 7) = o := by
    rw [show 14 + 14 * l + (o.val - 1) - 7 = 7 * (2 * l + 1) + (o.val - 1) by omega]; exact offs_of o ho _
  simp only [payCell, payDev, paySem, payIx, payAmt, if_neg hge, if_neg hm, hd, ho']

def L (g : GSem nD τ sig) : Finset IxT := if g.1.2 = .tc then Finset.range 3 ×ˢ Finset.univ else ∅

def lvS (s : SemLoc sig) (ι : IxT) : ℕ :=
  match s with
  | .reg _ => 1
  | .dma k => if famOf k = 2 then 2 + 2 * ι.1 else if famOf k = 4 then 3 + 2 * ι.1 else 0

def lv (g : GSem nD τ sig) (ι : IxT) : ℕ := lvS g.2 ι

theorem L_of_ne (g : GSem nD τ sig) (h : g.1.2 ≠ .tc) : L g = ∅ := if_neg h

theorem mem_L (c : Dev nD) (sm : SemLoc sig) (ι : IxT) (h : ι.1 < 3) : ι ∈ L ((c : Thread nD τ), sm) := by
  unfold L
  rw [if_pos rfl]
  exact Finset.mem_product.mpr ⟨Finset.mem_range.mpr h, Finset.mem_univ _⟩

theorem lvS_dma (f : Fin 4) (o : Fin 8) (ι : IxT) :
    lvS (.dma (dmaS f o)) ι = if f.val + 1 = 2 then 2 + 2 * ι.1 else if f.val + 1 = 4 then 3 + 2 * ι.1 else 0 := by
  show (if famOf (dmaS f o) = 2 then _ else if famOf (dmaS f o) = 4 then _ else _) = _
  rw [famOf_dmaS]

-- In program order the dues' levels never fall: the seven dues from 7 k on lie at level k + 1.
theorem lv_pay (p : ℕ) : lvS (paySem p) (payIx p) = p / 7 + 1 := by
  unfold paySem payIx
  by_cases h7 : p < 7
  · rw [if_pos h7, if_pos h7]; show 1 = _; omega
  · rw [if_neg h7, if_neg h7]
    by_cases hm : (p - 7) % 14 < 7
    · rw [if_pos hm, lvS_dma]; show 2 + 2 * ((p - 7) / 14) = _; omega
    · rw [if_neg hm, lvS_dma]; show 3 + 2 * ((p - 7) / 14) = _; omega

theorem payIx_fst_lt (p : ℕ) (hp : p < 49) : (payIx p).1 < 3 := by
  unfold payIx
  by_cases h7 : p < 7
  · rw [if_pos h7]; exact Nat.zero_lt_succ 2
  · rw [if_neg h7]; show (p - 7) / 14 < 3; omega

-- Waiting is allowed on a cell whose level is below that of every due not yet paid.
theorem mayWait_of_lv (c : Dev nD) (s : SemLoc sig) (ι : IxT) (hι : ι.1 < 3) (p : ℕ)
    (h : ∀ q, p ≤ q → lvS s ι < q / 7 + 1) :
    (levAts L lv : sProp 𝕄) ⊢ MayWait (c : Thread nD τ) s ι (owedFrom c p) :=
  Pipeline.mayWait_of_levAts (mem_L c s ι hι) fun g i hg => by
    unfold owedFrom at hg
    obtain ⟨q, hq, hpos⟩ := Pipeline.sum_pos_exists hg
    obtain ⟨rfl, rfl⟩ := Pipeline.tallyAt_pos hpos
    have hq := Finset.mem_Ico.mp hq
    refine ⟨mem_L (payDev c q) (paySem q) (payIx q) (payIx_fst_lt q hq.2), ?_⟩
    show lvS s ι < lvS (paySem q) (payIx q)
    rw [lv_pay]
    exact h q hq.1

theorem mayWait_bar (c : Dev nD) :
    (levAts L lv : sProp 𝕄) ⊢ MayWait (c : Thread nD τ) (.reg barS) ((0, 0) : IxT) (owedFrom c 7) :=
  mayWait_of_lv c _ _ (Nat.zero_lt_succ 2) 7 fun q h => by show 1 < _; omega

theorem mayWait_brecv (c : Dev nD) (l : ℕ) (hl : l < 3) (o : Fin 8) (p : ℕ) (hp : 14 + 14 * l ≤ p) :
    (levAts L lv : sProp 𝕄) ⊢ MayWait (c : Thread nD τ) (.dma (dmaS 1 o)) ((l, 0) : IxT) (owedFrom c p) :=
  mayWait_of_lv c _ _ hl p fun q h => by rw [lvS_dma]; show 2 + 2 * l < _; omega

theorem mayWait_rrecv (c : Dev nD) (l : ℕ) (hl : l < 3) (o : Fin 8) (p : ℕ) (hp : 21 + 14 * l ≤ p) :
    (levAts L lv : sProp 𝕄) ⊢ MayWait (c : Thread nD τ) (.dma (dmaS 3 o)) ((l, 0) : IxT) (owedFrom c p) :=
  mayWait_of_lv c _ _ hl p fun q h => by rw [lvS_dma]; show 3 + 2 * l < _; omega

theorem mayWait_low (c : Dev nD) (q : DmaSem sig) (hq : famOf q ≠ 2 ∧ famOf q ≠ 4) (ι : IxT) (hι : ι.1 < 3) (p : ℕ) :
    (levAts L lv : sProp 𝕄) ⊢ MayWait (c : Thread nD τ) (.dma q) ι (owedFrom c p) :=
  mayWait_of_lv c _ _ hι p fun q' h => by
    show (if famOf q = 2 then 2 + 2 * ι.1 else if famOf q = 4 then 3 + 2 * ι.1 else 0) < _
    rw [if_neg hq.1, if_neg hq.2]; omega

end Cert.KernelProof

end
-- ==== Proof.FragsK.lean ====
import proofs.«900983_g7700000000000984_dist_mlpseq_tp1d_bs_bs_b64_d512_h1024_v7x_i8_f32_1_alg».proof.Proof.ProtoK

noncomputable section

namespace Cert.KernelProof

open Cert.Kernel Cert.Kernel.Gen
open Cert.Kernel.Contents (toSlot blk next)
open Idealize.ShloMosaic Idealize.SL.Sem

variable {F : FTy → Type} [FloatOps F]

abbrev PUf (F : FTy → Type) : Type 1 := Prog (TpuEff nD τ sig (Elt F) Λ₀ Proc.tc) PUnit

abbrev xinM : Memref sig .tc .vmem S64x512 .f32 := Memref.whole cc0_stg0_0
abbrev outM : Memref sig .tc .vmem S64x512 .f32 := Memref.whole cc0_stg7_0
def winM : Fin 3 → Memref sig .tc .vmem S512x1024 .f32
  | 0 => Memref.whole cc0_stg1_0 | 1 => Memref.whole cc0_stg3_0 | 2 => Memref.whole cc0_stg5_0
def woutM : Fin 3 → Memref sig .tc .vmem S1024x512 .f32
  | 0 => Memref.whole cc0_stg2_0 | 1 => Memref.whole cc0_stg4_0 | 2 => Memref.whole cc0_stg6_0

def wbCast : Fin 3 → Vec F S512x1024 .f32 → Vec F S512x1024 .bf16
  | 0 => fun v => k0_pay5 v | 1 => fun v => k0_pay15 v | 2 => fun v => k0_pay26 (k0_pay25 v)
def wobCast : Fin 3 → Vec F S1024x512 .f32 → Vec F S1024x512 .bf16
  | 0 => fun v => k0_pay6 v | 1 => fun v => k0_pay16 v | 2 => fun v => k0_pay27 v

abbrev r64 : Rect S64x512 := Rect.unit (s := S64x512) ![0, 0] S64x512.size inb_S64x512_S64x512_0_0
abbrev rW : Rect S512x1024 := Rect.unit (s := S512x1024) ![0, 0] S512x1024.size inb_S512x1024_S512x1024_0_0
abbrev rO : Rect S1024x512 := Rect.unit (s := S1024x512) ![0, 0] S1024x512.size inb_S1024x512_S1024x512_0_0
abbrev rA : Rect S8x64x512 := Rect.unit (s := S8x64x512) ![0, 0, 0] S8x64x512.size inb_S8x64x512_S8x64x512_0_0_0

theorem xgW (o : Fin 8) : (xgSl o).view.WordExact := (Memref.isWhole_whole _).wordExact_slice rfl _ (by revert o; decide)
theorem pbW (o : Fin 8) : (pbSl o).view.WordExact := (Memref.isWhole_whole _).wordExact_slice rfl _ (by revert o; decide)
theorem accW (o : Fin 8) : (accSl o).view.WordExact := ((Memref.isWhole_whole _).wordExact_slice rfl _ (by revert o; decide)).reshape _ _

def sigP (n : Dev nD) : PUf F := semSignalWord n barS 1#32 hamt_1

def initP : PUf F := do
  let v32 : Vec F S64x512 .f32 ← Prog.lift (.load xinM r64.toLoadRect (View.loadsAt_vmem h_S64x512))
  let v34 : Vec F S64x512 .f32 ← Prog.lift (.load xcurM r64.toLoadRect (View.loadsAt_vmem h_S64x512))
  Prog.lift (.store xcurM r64 (k0_pay2 v32) Finset.univ (View.stores_vmem_bits_univ h_S64x512 rfl) (.inl rfl))
  let v38 : Vec F S1x64x512 .bf16 ← Prog.lift (.load accM (accR 0).toLoadRect (View.loadsAt_vmem h_S1x64x512))
  Prog.lift (.store accM (accR 0) (k0_pay3 (F := F)) Finset.univ (View.stores_vmem h_S1x64x512 ((Memref.isWhole_whole _).storeExact_slice rfl _ packedbf16_S8x64x512_S1x64x512_0_0_0) (fun _ => rfl)) (.inl rfl))

def slot0P (l : Fin 3) : PUf F := do
  let v : Vec F S64x512 .f32 ← Prog.lift (.load xcurM r64.toLoadRect (View.loadsAt_vmem h_S64x512))
  let v' : Vec F S64x512 .bf16 ← Prog.lift (.load xgM (slotR 0).toLoadRect (View.loadsAt_vmem h_S64x512))
  Prog.lift (.store xgM (slotR 0) (toSlot l v) Finset.univ (View.stores_vmem h_S64x512 ((Memref.isWhole_whole _).storeExact_slice rfl _ packedbf16_S512x512_S64x512_0_0) (fun _ => rfl)) (.inl rfl))

def gatherP (o : Fin 8) (n : Dev nD) : PUf F :=
  Prog.lift (.enqueueDma (xgSl 0) (.remote (Dev.tc n) (xgSl o) (.dma (dmaS 0 o))) (.dma (dmaS 1 o)) (xgW 0) (xgW o) ⟨⟨rfl, Or.inl rfl⟩, trivial⟩)

def scatterP (o : Fin 8) (n : Dev nD) : PUf F :=
  Prog.lift (.enqueueDma (pbSl o) (.remote (Dev.tc n) (accSl o) (.dma (dmaS 2 o))) (.dma (dmaS 3 o)) (pbW o) (accW o) ⟨⟨rfl, Or.inl rfl⟩, trivial⟩)

def castsP (l : Fin 3) : PUf F := do
  let v : Vec F S512x1024 .f32 ← Prog.lift (.load (winM l) rW.toLoadRect (View.loadsAt_vmem h_S512x1024))
  let v' : Vec F S512x1024 .bf16 ← Prog.lift (.load winbM rW.toLoadRect (View.loadsAt_vmem h_S512x1024))
  Prog.lift (.store winbM rW (wbCast l v) Finset.univ (View.stores_vmem h_S512x1024 ((Memref.isWhole_whole _).storeExact_slice rfl _ packedbf16_S512x1024_S512x1024_0_0) (fun _ => rfl)) (.inl rfl))
  let u : Vec F S1024x512 .f32 ← Prog.lift (.load (woutM l) rO.toLoadRect (View.loadsAt_vmem h_S1024x512))
  let u' : Vec F S1024x512 .bf16 ← Prog.lift (.load woutbM rO.toLoadRect (View.loadsAt_vmem h_S1024x512))
  Prog.lift (.store woutbM rO (wobCast l u) Finset.univ (View.stores_vmem h_S1024x512 ((Memref.isWhole_whole _).storeExact_slice rfl _ packedbf16_S1024x512_S1024x512_0_0) (fun _ => rfl)) (.inl rfl))

def blkP (l : Fin 3) (b : Fin 4) : PUf F := do
  let x : Vec F S128x512 .bf16 ← Prog.lift (.load xgM (blkR b).toLoadRect (View.loadsAt_vmem h_S128x512))
  let w : Vec F S512x1024 .bf16 ← Prog.lift (.load winbM rW.toLoadRect (View.loadsAt_vmem h_S512x1024))
  let wo : Vec F S1024x512 .bf16 ← Prog.lift (.load woutbM rO.toLoadRect (View.loadsAt_vmem h_S1024x512))
  let p : Vec F S128x512 .bf16 ← Prog.lift (.load pbM (blkR b).toLoadRect (View.loadsAt_vmem h_S128x512))
  Prog.lift (.store pbM (blkR b) (blk l b x w wo) Finset.univ (View.stores_vmem h_S128x512 ((Memref.isWhole_whole _).storeExact_slice rfl _ (by revert b; decide)) (fun _ => rfl)) (.inl rfl))

def brecvWaitP (o : Fin 8) : PUf F := Prog.lift (.waitDma2 (dmaS 1 o) (xgSl 0) (xgSl o) (xgW 0) (xgW o))
def rrecvWaitP (o : Fin 8) : PUf F := Prog.lift (.waitDma2 (dmaS 3 o) (pbSl o) (accSl o) (pbW o) (accW o))
def bsendWaitP (o : Fin 8) : PUf F := Prog.lift (.waitDma2 (dmaS 0 o) (xgSl o) (xgSl 0) (xgW o) (xgW 0))
def rsendWaitP (o : Fin 8) : PUf F := Prog.lift (.waitDma2 (dmaS 2 o) (accSl o) (pbSl o) (accW o) (pbW o))

def finP (l : Fin 3) : PUf F := do
  let v : Vec F S64x512 .bf16 ← Prog.lift (.load pbM (slotR 0).toLoadRect (View.loadsAt_vmem h_S64x512))
  let a : Vec F S8x64x512 .bf16 ← Prog.lift (.load accM rA.toLoadRect (View.loadsAt_vmem h_S8x64x512))
  let x : Vec F S64x512 .f32 ← Prog.lift (.load xcurM r64.toLoadRect (View.loadsAt_vmem h_S64x512))
  Prog.lift (.store xcurM r64 (next l v a) Finset.univ (View.stores_vmem_bits_univ h_S64x512 rfl) (.inl rfl))

def outP : PUf F := do
  let v : Vec F S64x512 .f32 ← Prog.lift (.load xcurM r64.toLoadRect (View.loadsAt_vmem h_S64x512))
  let v' : Vec F S64x512 .f32 ← Prog.lift (.load outM r64.toLoadRect (View.loadsAt_vmem h_S64x512))
  Prog.lift (.store outM r64 v Finset.univ (View.stores_vmem_bits_univ h_S64x512 rfl) (.inl rfl))

def sigsP (n1 n2 n3 n4 n5 n6 n7 : Dev nD) : PUf F := do
  sigP n1; sigP n2; sigP n3; sigP n4; sigP n5; sigP n6; sigP n7

def gathersP (n1 n2 n3 n4 n5 n6 n7 : Dev nD) : PUf F := do
  gatherP 1 n1; gatherP 2 n2; gatherP 3 n3; gatherP 4 n4; gatherP 5 n5; gatherP 6 n6; gatherP 7 n7

-- Each block waits for the rows it multiplies, computes, and sends its two slots' partial products off.
def blocksP (l : Fin 3) (s1 s2 s3 s4 s5 s6 s7 : Dev nD) : PUf F := do
  brecvWaitP 1; blkP l 0; scatterP 1 s1
  brecvWaitP 2; brecvWaitP 3; blkP l 1; scatterP 2 s2; scatterP 3 s3
  brecvWaitP 4; brecvWaitP 5; blkP l 2; scatterP 4 s4; scatterP 5 s5
  brecvWaitP 6; brecvWaitP 7; blkP l 3; scatterP 6 s6; scatterP 7 s7

def rrecvWaitsP : PUf F := do
  rrecvWaitP 1; rrecvWaitP 2; rrecvWaitP 3; rrecvWaitP 4; rrecvWaitP 5; rrecvWaitP 6; rrecvWaitP 7
def bsendWaitsP : PUf F := do
  bsendWaitP 1; bsendWaitP 2; bsendWaitP 3; bsendWaitP 4; bsendWaitP 5; bsendWaitP 6; bsendWaitP 7
def rsendWaitsP : PUf F := do
  rsendWaitP 1; rsendWaitP 2; rsendWaitP 3; rsendWaitP 4; rsendWaitP 5; rsendWaitP 6; rsendWaitP 7

-- A layer once slot 0 is filled: the gathers go to n₁ … n₇, the scatters to s₁ … s₇.
def layerP (l : Fin 3) (n1 n2 n3 n4 n5 n6 n7 s1 s2 s3 s4 s5 s6 s7 : Dev nD) : PUf F := do
  gathersP n1 n2 n3 n4 n5 n6 n7
  castsP l
  blocksP l s1 s2 s3 s4 s5 s6 s7
  rrecvWaitsP
  bsendWaitsP
  rsendWaitsP
  finP l

def myBody : PUf F := do
  let d0 : Dev nD ← Prog.lift .deviceId
  sigsP ⟨k0_dev1 d0, k0_dev1_lt d0⟩ ⟨k0_dev2 d0, k0_dev2_lt d0⟩ ⟨k0_dev3 d0, k0_dev3_lt d0⟩ ⟨k0_dev4 d0, k0_dev4_lt d0⟩ ⟨k0_dev5 d0, k0_dev5_lt d0⟩ ⟨k0_dev6 d0, k0_dev6_lt d0⟩ ⟨k0_dev7 d0, k0_dev7_lt d0⟩
  initP
  slot0P 0
  semWaitWord barS 7#32 hamt_7
  layerP 0 ⟨k0_dev8 d0, k0_dev8_lt d0⟩ ⟨k0_dev9 d0, k0_dev9_lt d0⟩ ⟨k0_dev10 d0, k0_dev10_lt d0⟩ ⟨k0_dev11 d0, k0_dev11_lt d0⟩ ⟨k0_dev12 d0, k0_dev12_lt d0⟩ ⟨k0_dev13 d0, k0_dev13_lt d0⟩ ⟨k0_dev14 d0, k0_dev14_lt d0⟩ ⟨k0_dev15 d0, k0_dev15_lt d0⟩ ⟨k0_dev16 d0, k0_dev16_lt d0⟩ ⟨k0_dev17 d0, k0_dev17_lt d0⟩ ⟨k0_dev18 d0, k0_dev18_lt d0⟩ ⟨k0_dev19 d0, k0_dev19_lt d0⟩ ⟨k0_dev20 d0, k0_dev20_lt d0⟩ ⟨k0_dev21 d0, k0_dev21_lt d0⟩
  slot0P 1
  layerP 1 ⟨k0_dev22 d0, k0_dev22_lt d0⟩ ⟨k0_dev23 d0, k0_dev23_lt d0⟩ ⟨k0_dev24 d0, k0_dev24_lt d0⟩ ⟨k0_dev25 d0, k0_dev25_lt d0⟩ ⟨k0_dev26 d0, k0_dev26_lt d0⟩ ⟨k0_dev27 d0, k0_dev27_lt d0⟩ ⟨k0_dev28 d0, k0_dev28_lt d0⟩ ⟨k0_dev29 d0, k0_dev29_lt d0⟩ ⟨k0_dev30 d0, k0_dev30_lt d0⟩ ⟨k0_dev31 d0, k0_dev31_lt d0⟩ ⟨k0_dev32 d0, k0_dev32_lt d0⟩ ⟨k0_dev33 d0, k0_dev33_lt d0⟩ ⟨k0_dev34 d0, k0_dev34_lt d0⟩ ⟨k0_dev35 d0, k0_dev35_lt d0⟩
  slot0P 2
  layerP 2 ⟨k0_dev36 d0, k0_dev36_lt d0⟩ ⟨k0_dev37 d0, k0_dev37_lt d0⟩ ⟨k0_dev38 d0, k0_dev38_lt d0⟩ ⟨k0_dev39 d0, k0_dev39_lt d0⟩ ⟨k0_dev40 d0, k0_dev40_lt d0⟩ ⟨k0_dev41 d0, k0_dev41_lt d0⟩ ⟨k0_dev42 d0, k0_dev42_lt d0⟩ ⟨k0_dev43 d0, k0_dev43_lt d0⟩ ⟨k0_dev44 d0, k0_dev44_lt d0⟩ ⟨k0_dev45 d0, k0_dev45_lt d0⟩ ⟨k0_dev46 d0, k0_dev46_lt d0⟩ ⟨k0_dev47 d0, k0_dev47_lt d0⟩ ⟨k0_dev48 d0, k0_dev48_lt d0⟩ ⟨k0_dev49 d0, k0_dev49_lt d0⟩
  outP

-- The printed body is this sequence of phases: sequencing is associative.
theorem body_eq :
    cc0_body (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9
    = myBody (F := F) := by
  unfold myBody layerP sigsP gathersP blocksP rrecvWaitsP bsendWaitsP rsendWaitsP
  simp only [Prog.bind_assoc, bind_assoc]
  rfl

end Cert.KernelProof

end
-- ==== Proof.StateK.lean ====
import proofs.«900983_g7700000000000984_dist_mlpseq_tp1d_bs_bs_b64_d512_h1024_v7x_i8_f32_1_alg».proof.Proof.EventsK
import proofs.«900983_g7700000000000984_dist_mlpseq_tp1d_bs_bs_b64_d512_h1024_v7x_i8_f32_1_alg».proof.Proof.OwedK
import proofs.«900983_g7700000000000984_dist_mlpseq_tp1d_bs_bs_b64_d512_h1024_v7x_i8_f32_1_alg».proof.Proof.FragsK

noncomputable section

namespace Cert.KernelProof

open Cert.Kernel Cert.Kernel.Gen
open Cert.Kernel.Contents (xin win wout)
open Idealize.ShloMosaic Idealize.ShloMosaic.TcCoe Idealize.SL Idealize.SL.RA Idealize.SL.BI Idealize.SL.BI.BIBase Idealize.SL.Sem Idealize.ShloMosaic.Rounds
open scoped Idealize.SL.BI

variable {F : FTy → Type} [FloatOps F]

local notation "𝕄" => MT nD τ sig IxT (Elt F) ℕ UU ℕ

variable (m : (ℓ : Loc nD τ sig) → Buf (Elt F) ℓ)

def io (i : Fin 7) : Fin 8 := ⟨i.val + 1, by have := i.isLt; omega⟩
theorem io_ne (i : Fin 7) : io i ≠ 0 := by revert i; decide

abbrev CI : Type := Option (Fin 4 × Fin 7)
def kcell (ck : Dev nD × CI) : GSem nD τ sig :=
  match ck.2 with
  | none => barCell ck.1
  | some p => dmaCell ck.1 p.1 (io p.2)

def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

def barToks (c : Dev nD) : sProp 𝕄 := bigSep Finset.univ fun i : Fin 7 => dutyTok ER (barCell (peer c (io i))) 0 (io i)
def layerToks (c : Dev nD) (l : ℕ) : sProp 𝕄 := bigSep Finset.univ fun i : Fin 7 =>
  iprop(dutyTok ER (dmaCell c 0 (io i)) l 0 ∗ dutyTok ER (dmaCell (peer c (io i)) 1 (io i)) l 0
    ∗ dutyTok ER (dmaCell c 2 (io i)) l 0 ∗ dutyTok ER (dmaCell (back c (io i)) 3 (io i)) l 0)
def layerCreds (c : Dev nD) (l : ℕ) : sProp 𝕄 := bigSep Finset.univ fun i : Fin 7 =>
  iprop(cred (tallyAt (dmaCell c 1 (io i)) (l, 0) Nblk) ∗ cred (tallyAt (dmaCell c 3 (io i)) (l, 0) Nblk))
def positions (c : Dev nD) (l : ℕ) : sProp 𝕄 := bigSep Finset.univ fun p : Fin 4 × Fin 7 => atPos ER (dmaCell c p.1 (io p.2)) l ∅ 0

def ghost (K : Dev nD × CI → ℕ) (c : Dev nD) : sProp 𝕄 :=
  iprop(records m K ∗ atPos ER (barCell c) 0 ∅ 0 ∗ positions c 0 ∗ barToks c ∗ layerToks c 0 ∗ layerToks c 1 ∗ layerToks c 2)
def credsOf (c : Dev nD) : sProp 𝕄 :=
  iprop(cred (tallyAt (barCell c) (0, 0) 7) ∗ layerCreds c 0 ∗ layerCreds c 1 ∗ layerCreds c 2)

def scratch (c : Dev nD) : sProp 𝕄 :=
  iprop((∃ f, (c.tc.loc cc0_scratch0) ↦{fullShare} f)
    ∗ (∃ f, (c.tc.loc cc0_scratch1) ↦{fullShare} f)
    ∗ (∃ f, (c.tc.loc cc0_scratch2) ↦{fullShare} f)
    ∗ (∃ f, (c.tc.loc cc0_scratch3) ↦{fullShare} f)
    ∗ (∃ f, (c.tc.loc cc0_scratch4) ↦{fullShare} f)
    ∗ (∃ f, (c.tc.loc cc0_scratch5) ↦{fullShare} f))

def stgIn (c : Dev nD) : sProp 𝕄 :=
  iprop(((c.tc.loc cc0_stg0_0) ↦{fullShare} xin m c)
    ∗ ((c.tc.loc cc0_stg1_0) ↦{fullShare} win m 0 c)
    ∗ ((c.tc.loc cc0_stg2_0) ↦{fullShare} wout m 0 c)
    ∗ ((c.tc.loc cc0_stg3_0) ↦{fullShare} win m 1 c)
    ∗ ((c.tc.loc cc0_stg4_0) ↦{fullShare} wout m 1 c)
    ∗ ((c.tc.loc cc0_stg5_0) ↦{fullShare} win m 2 c)
    ∗ ((c.tc.loc cc0_stg6_0) ↦{fullShare} wout m 2 c))

def Φ₀ (c : Dev nD) : sProp 𝕄 := iprop((∃ K, ghost m K c) ∗ credsOf c ∗ levAts L lv ∗ scratch c)
def Φ₁ (c : Dev nD) : sProp 𝕄 :=
  iprop(scratch c ∗ bigSep Finset.univ fun p : Fin 4 × Fin 7 => (semVal (dmaCell c p.1 (io p.2)) 0 : sProp 𝕄))

end Cert.KernelProof

end
-- ==== Proof.RemoteStepsK.lean ====
import proofs.«900983_g7700000000000984_dist_mlpseq_tp1d_bs_bs_b64_d512_h1024_v7x_i8_f32_1_alg».proof.Proof.StateK

namespace Cert.KernelProof

open Cert.Kernel Cert.Kernel.Gen
open Idealize.ShloMosaic Idealize.ShloMosaic.TcCoe Idealize.SL Idealize.SL.RA Idealize.SL.BI Idealize.SL.BI.BIBase Idealize.SL.BI.Laws Idealize.SL.ProofMode Idealize.SL.Sem Idealize.ShloMosaic.Rounds
open scoped Idealize.SL.BI

variable {F : FTy → Type} [FloatOps F]

local notation "𝕄" => MT nD τ sig IxT (Elt F) ℕ UU ℕ

variable (m : (ℓ : Loc nD τ sig) → Buf (Elt F) ℓ) (K : Dev nD × CI → ℕ) (c : Dev nD)
variable {α : Type} {Q : α → sProp (MT nD τ sig IxT (Elt F) ℕ UU ℕ)} {k : PUnit → Prog (TpuEff nD τ sig (Elt F) Λ₀ .tc) α}

-- The records hold every cell's invariant at some name, and that its round 0 is reached.
theorem rec_at (ck : Dev nD × CI) :
    records m K ⊢ iprop((∃ κ, cellInv ER (Rd m) κ (kcell ck)) ∗ reached ER (kcell ck) 0) := by
  unfold records
  exact BIClass.sep_mono (exists_intro_trans (K ck) (bigSep_elim (Finset.mem_univ ck))) (bigSep_elim (Finset.mem_univ ck))

theorem rec_bar : records m K ⊢ iprop((∃ κ, cellInv ER (Rd m) κ (barCell c)) ∗ reached ER (barCell c) 0) :=
  rec_at m K (c, none)

-- Every offset but 0 is one of the seven the records name.
theorem rec_dma (fam : Fin 4) (o : Fin 8) (ho : o ≠ 0) :
    records m K ⊢ iprop((∃ κ, cellInv ER (Rd m) κ (dmaCell c fam o)) ∗ reached ER (dmaCell c fam o) 0) := by
  obtain ⟨i, rfl⟩ : ∃ i, io i = o := by revert o; decide
  exact rec_at m K (c, some (fam, i))

-- What is owed before the payment at position b + (o - 1) is that payment and what is owed after it.
theorem owed_pred (b : ℕ) (o : Fin 8) (ho : o ≠ 0) (hb : b + o.val ≤ 49) {g : GSem nD τ sig} {ι : IxT} {a : ℕ}
    (h : payCell c (b + (o.val - 1)) = (g, ι, a)) : owedFrom c (b + (o.val - 1)) = owedFrom c (b + o.val) + tallyAt g ι a := by
  have h1 : o.val ≠ 0 := fun h => ho (Fin.ext h)
  rw [owedFrom_step c _ (by omega), h, show b + (o.val - 1) + 1 = b + o.val by omega]

-- The barrier signal at offset o is the p-th payment, and hands over slot s = 8 - o.
theorem wp_sigStep (n : Dev nD) (o : Fin 8) (ho : o ≠ 0) (hn : n = peer c o) (W : Waits sig IxT) (p p' : ℕ) (hp : p = 0 + (o.val - 1)) (hp' : p' = 0 + o.val)
    (s : Fin 8) (hs : s = neg o) (f : Buf (Elt F) (c.tc.loc cc0_scratch0)) :
    iprop(records m K ∗ owes c.tc (owedFrom c p) W ∗ dutyTok ER (barCell (peer c o)) 0 o ∗ xgP c s fullShare f)
      ⊢ iprop((owes c.tc (owedFrom c p') W -∗ wpDev c (k ⟨⟩) Q) -∗ wpDev c (sigP n >>= k) Q) := by
  subst hp hp' hs
  rw [owed_pred c 0 o ho (by have := o.isLt; omega) (by rw [Nat.zero_add, pay_signal c o ho])]
  simp only [sigP, semSignalWord, Prog.lift, Prog.bind_op, Prog.bind_ret, Prog.pure_eq_ret]
  iintro ⟨#Hrec, HO, Htok, Hx⟩
  ihave ⟨⟨%κ, #HI⟩, #Hr⟩ := (rec_bar m K (peer c o)) $$ Hrec
  iapply (wp_barSignal m κ c n o ho hn (owedFrom c (0 + o.val)) W)
  iframe # ∗
  iexists f; iexact Hx

-- The barrier's payloads, named by the signaller's offset d, are the slots 8 - d of the devices 8 - d places on.
theorem rest_bar : bigSep ((Rd m).duties (barCell c) 0 \ ∅) (fun d => (Rd m).payload (barCell c) 0 d)
      = bigSep Finset.univ fun i : Fin 7 => iprop(∃ f, xgP (peer c (io i)) (io i) fullShare f) := by
  rw [Finset.sdiff_empty, duties_bar,
    show Finset.univ.erase (0 : Fin 8) = Finset.univ.map ⟨fun i : Fin 7 => neg (io i), by decide⟩ by decide, bigSep_map]
  refine bigSep_congr fun i _ => ?_
  rw [payload_bar]; unfold barPay
  simp only [Function.Embedding.coeFn_mk]
  rw [show back c (neg (io i)) = peer c (io i) by revert c i; decide, show neg (neg (io i)) = io i by revert i; decide]

-- The barrier wait: every other device's slot for this device's rows comes with it.
theorem wp_barWaitStep (W : Waits sig IxT) :
    iprop(records m K ∗ levAts L lv ∗ cred (tallyAt (barCell c) (0, 0) 7) ∗ owes c.tc (owedFrom c 7) W
        ∗ atPos ER (barCell c) 0 ∅ 0)
      ⊢ iprop(((owes c.tc (owedFrom c 7) (insert (SemLoc.reg barS, (0, 0)) W) ∗ atPos ER (barCell c) 1 ∅ 0
            ∗ bigSep Finset.univ fun i : Fin 7 => iprop(∃ f, xgP (peer c (io i)) (io i) fullShare f)) -∗ wpDev c (k ⟨⟩) Q)
          -∗ wpDev c (semWaitWord barS 7#32 hamt_7 >>= k) Q) := by
  simp only [semWaitWord, Prog.lift, Prog.bind_op, Prog.bind_ret, Prog.pure_eq_ret]
  rw [← rest_bar m c]
  iintro ⟨#Hrec, #Hlev, Hc, HO, Hat⟩ Hk
  ihave ⟨⟨%κ, #HI⟩, -⟩ := (rec_bar m K c) $$ Hrec
  iapply (Rounds.wp_wait_rest_token 𝒱₀ ER (Rd m) c.tc none (κ := κ) (k' := 7)
      (wpE_semWait_eq 𝒱₀ c.tc none Set.univ) (Set.mem_univ _) (0, 0) (O := owedFrom c 7) (W := W) (R := 0) (m := 0) (T := ∅)
      (by rw [expect_bar])) $$ [Hc HO Hat]
  · iframe # ∗
    iapply (mayWait_bar c); iexact Hlev
  iintro ⟨HO, Hat, -, Hpay⟩
  iapply Hk
  iframe ∗

-- The gather copy of layer l at offset o.
theorem wp_gatherStep (n : Dev nD) (l : ℕ) (hl : l < 3) (o : Fin 8) (ho : o ≠ 0) (hn : n = peer c o)
    (fd : Buf (Elt F) ((peer c o).tc.loc cc0_scratch0)) (W : Waits sig IxT) :
    iprop(records m K ∗ xgP c 0 (qsh o) (XGf m l c) ∗ xgP (peer c o) o fullShare fd ∗ (∃ f, accP c o f)
        ∗ reached ER (dmaCell c 3 o) l ∗ owes c.tc (owedFrom c (7 + 14 * l + (o.val - 1))) W
        ∗ dutyTok ER (dmaCell c 0 o) l 0 ∗ reached ER (dmaCell c 0 o) l
        ∗ dutyTok ER (dmaCell (peer c o) 1 o) l 0 ∗ reached ER (dmaCell (peer c o) 1 o) l)
      ⊢ iprop(((cred (tallyAt (dmaCell c 0 o) (l, 0) Nblk) ∗ owes c.tc (owedFrom c (7 + 14 * l + o.val)) W) -∗ wpDev c (k ⟨⟩) Q)
          -∗ wpDev c (gatherP o n >>= k) Q) := by
  simp only [gatherP, Prog.lift, Prog.bind_op, Prog.bind_ret, Prog.pure_eq_ret]
  rw [owed_pred c (7 + 14 * l) o ho (by have := o.isLt; omega) (pay_gather c l hl o ho)]
  iintro ⟨#Hrec, Hx, Hd, Hacc, #Hr3, HO, Ht0, #Hr0, Ht1, #Hr1⟩
  ihave ⟨⟨%κ₁, #HI0⟩, -⟩ := (rec_dma m K c 0 o ho) $$ Hrec
  ihave ⟨⟨%κ₂, #HI1⟩, -⟩ := (rec_dma m K (peer c o) 1 o ho) $$ Hrec
  iapply (wp_bcast m κ₁ κ₂ c n l hl o ho hn fd (owedFrom c (7 + 14 * l + o.val)) W)
  iframe # ∗

-- The scatter copy of layer l at offset o.
theorem wp_scatterStep (n : Dev nD) (l : ℕ) (hl : l < 3) (o : Fin 8) (ho : o ≠ 0) (hn : n = back c o)
    (fd : Buf (Elt F) ((back c o).tc.loc cc0_scratch1)) (W : Waits sig IxT) :
    iprop(records m K ∗ pbP c o fullShare (PBf m l c) ∗ accP (back c o) o fd ∗ scatterRider c o l
        ∗ owes c.tc (owedFrom c (14 + 14 * l + (o.val - 1))) W
        ∗ dutyTok ER (dmaCell c 2 o) l 0 ∗ reached ER (dmaCell c 2 o) l
        ∗ dutyTok ER (dmaCell (back c o) 3 o) l 0 ∗ reached ER (dmaCell (back c o) 3 o) l)
      ⊢ iprop(((cred (tallyAt (dmaCell c 2 o) (l, 0) Nblk) ∗ owes c.tc (owedFrom c (14 + 14 * l + o.val)) W) -∗ wpDev c (k ⟨⟩) Q)
          -∗ wpDev c (scatterP o n >>= k) Q) := by
  simp only [scatterP, Prog.lift, Prog.bind_op, Prog.bind_ret, Prog.pure_eq_ret]
  rw [owed_pred c (14 + 14 * l) o ho (by have := o.isLt; omega) (pay_scatter c l hl o ho)]
  iintro ⟨#Hrec, Hpb, Hd, Hrid, HO, Ht2, #Hr2, Ht3, #Hr3⟩
  ihave ⟨⟨%κ₁, #HI2⟩, -⟩ := (rec_dma m K c 2 o ho) $$ Hrec
  ihave ⟨⟨%κ₂, #HI3⟩, -⟩ := (rec_dma m K (back c o) 3 o ho) $$ Hrec
  iapply (wp_scatter m κ₁ κ₂ c n l hl o ho hn fd (owedFrom c (14 + 14 * l + o.val)) W)
  iframe # ∗

-- A wait, the program e, for round l of the device's cell of family fam at offset o: the payload pay comes with it.
abbrev WaitStep (fam : Fin 4) (o : Fin 8) (l p : ℕ) (W : Waits sig IxT) (pay : sProp 𝕄) (e : Prog (TpuEff nD τ sig (Elt F) Λ₀ .tc) PUnit)
    (Q : α → sProp 𝕄) (k : PUnit → Prog (TpuEff nD τ sig (Elt F) Λ₀ .tc) α) : Prop :=
  iprop(records m K ∗ levAts L lv ∗ cred (tallyAt (dmaCell c fam o) (l, 0) Nblk) ∗ owes c.tc (owedFrom c p) W ∗ atPos ER (dmaCell c fam o) l ∅ 0)
    ⊢ iprop(((owes c.tc (owedFrom c p) (insert (SemLoc.dma (dmaS fam o), (l, 0)) W)
          ∗ atPos ER (dmaCell c fam o) (l + 1) ∅ 0 ∗ reached ER (dmaCell c fam o) (l + 1) ∗ pay) -∗ wpDev c (k ⟨⟩) Q) -∗ wpDev c (e >>= k) Q)

-- Such a wait may be made once nothing still owed stands in its way.
theorem wp_waitStep (fam : Fin 4) (l : ℕ) (hl : l < 3) (o : Fin 8) (ho : o ≠ 0) (p : ℕ) (W : Waits sig IxT)
    {src dst : Memref sig .tc .vmem S64x512 .bf16} {hs : src.view.WordExact} {hd : dst.view.WordExact} (hN : dst.view.dmaCredit = Nblk)
    (hw : (levAts L lv : sProp 𝕄) ⊢ MayWait c.tc (.dma (dmaS fam o)) (l, 0) (owedFrom c p)) :
    WaitStep m K c fam o l p W ((Rd m).payload (dmaCell c fam o) l 0) (Prog.lift (.waitDma2 (dmaS fam o) src dst hs hd)) Q k := by
  simp only [WaitStep, Prog.lift, Prog.bind_op, Prog.bind_ret, Prog.pure_eq_ret]
  iintro ⟨#Hrec, #Hlev, Hc, HO, Hat⟩
  ihave ⟨⟨%κ, #HI⟩, -⟩ := (rec_dma m K c fam o ho) $$ Hrec
  iapply (wp_dmaWait m κ c fam o ho l hl hN (owedFrom c p) W)
  iframe # ∗
  iapply hw; iexact Hlev

theorem wp_brecvWaitStep (l : ℕ) (hl : l < 3) (o : Fin 8) (ho : o ≠ 0) (p : ℕ) (hp : 14 + 14 * l ≤ p) (W : Waits sig IxT) :
    WaitStep m K c 1 o l p W (brecvPay m c o l) (brecvWaitP o) Q k := by
  rw [← payload_brecv m c o l 0]
  exact wp_waitStep m K c 1 l hl o ho p W (dst := xgSl o) rfl (mayWait_brecv c l hl o p hp)

theorem wp_rrecvWaitStep (l : ℕ) (hl : l < 3) (o : Fin 8) (ho : o ≠ 0) (p : ℕ) (hp : 21 + 14 * l ≤ p) (W : Waits sig IxT) :
    WaitStep m K c 3 o l p W (rrecvPay m c o l) (rrecvWaitP o) Q k := by
  rw [← payload_rrecv m c o l 0]
  exact wp_waitStep m K c 3 l hl o ho p W (dst := accSl o) rfl (mayWait_rrecv c l hl o p hp)

theorem wp_bsendWaitStep (l : ℕ) (hl : l < 3) (o : Fin 8) (ho : o ≠ 0) (p : ℕ) (W : Waits sig IxT) :
    WaitStep m K c 0 o l p W (bsendPay m c o l) (bsendWaitP o) Q k := by
  rw [← payload_bsend m c o l 0]
  exact wp_waitStep m K c 0 l hl o ho p W (dst := xgSl 0) rfl (mayWait_low c _ (by rw [famOf_dmaS]; decide) _ hl p)

theorem wp_rsendWaitStep (l : ℕ) (hl : l < 3) (o : Fin 8) (ho : o ≠ 0) (p : ℕ) (W : Waits sig IxT) :
    WaitStep m K c 2 o l p W (rsendPay m c o l) (rsendWaitP o) Q k := by
  rw [← payload_rsend m c o l 0]
  exact wp_waitStep m K c 2 l hl o ho p W (dst := pbSl o) rfl (mayWait_low c _ (by rw [famOf_dmaS]; decide) _ hl p)

-- After the third layer every DMA cell of the device closes, at value zero.
theorem close_cells :
    iprop(records m K ∗ positions c 3) ⊢ |={Set.univ}=> (bigSep Finset.univ fun p : Fin 4 × Fin 7 => (semVal (dmaCell c p.1 (io p.2)) 0 : sProp 𝕄)) := by
  unfold positions
  refine (bigSep_with_persistent (R := records m K)
    (Ψ := fun p : Fin 4 × Fin 7 => iprop(|={Set.univ}=> (semVal (dmaCell c p.1 (io p.2)) 0 : sProp 𝕄))) fun p _ => ?_).trans (bigSep_fupd _ _)
  iintro ⟨#Hrec, Hat⟩
  ihave ⟨⟨%κ, #HI⟩, -⟩ := (rec_dma m K c p.1 (io p.2) (io_ne p.2)) $$ Hrec
  iapply (Rounds.cell_close ER (Rd m) (Set.mem_univ κ) (fun h => h) (R := 3) (fun r hr => duties_dma_later m c p.1 (io p.2) hr))
  iframe # ∗

end Cert.KernelProof
-- ==== Proof.PiecesK.lean ====
import proofs.«900983_g7700000000000984_dist_mlpseq_tp1d_bs_bs_b64_d512_h1024_v7x_i8_f32_1_alg».proof.Proof.LandingK

noncomputable section

namespace Cert.KernelProof

open Cert.Kernel Cert.Kernel.Gen
open Idealize.ShloMosaic Idealize.ShloMosaic.TcCoe
open Idealize.SL.RA Idealize.SL.BI Idealize.SL.BI.BIBase Idealize.SL.BI.Laws

variable {F : FTy → Type} [FloatOps F]

local notation "𝕄" => MT nD τ sig IxT (Elt F) ℕ UU ℕ

section Generic
variable {ℓ : Loc nD τ sig}

-- Eight sets, the o-th the elements whose key is o, partition everything when every key is below eight.
theorem pointsTo_split8 (S : Fin 8 → Finset (Idx ℓ)) (key : Idx ℓ → ℕ)
    (hS : ∀ o i, i ∈ S o ↔ key i = o.val) (hT : ∀ i, key i < 8) (q : PosShare TreeShare) (f : Buf (Elt F) ℓ) :
    (ℓ ↦{q} f : sProp 𝕄) ⊣⊢ iprop((ℓ ↦[S 0]{q} f) ∗ (ℓ ↦[S 1]{q} f) ∗ (ℓ ↦[S 2]{q} f) ∗ (ℓ ↦[S 3]{q} f) ∗ (ℓ ↦[S 4]{q} f)
      ∗ (ℓ ↦[S 5]{q} f) ∗ (ℓ ↦[S 6]{q} f) ∗ (ℓ ↦[S 7]{q} f)) := by
  have e : Finset.univ = S 0 ∪ (S 1 ∪ (S 2 ∪ (S 3 ∪ (S 4 ∪ (S 5 ∪ (S 6 ∪ S 7)))))) := by
    ext i; have := hT i; simp only [Finset.mem_univ, Finset.mem_union, hS, true_iff]; omega
  rw [e]
  iterate 6 refine (pointsTo_union (Finset.disjoint_left.mpr fun i hi hj => by
    simp only [Finset.mem_union, hS] at hi hj; omega)).trans (sep_congr_right ?_)
  exact pointsTo_union (Finset.disjoint_left.mpr fun i hi hj => by simp only [hS] at hi hj; omega)

theorem pointsTo_two {S₁ S₂ T : Finset (Idx ℓ)} (hT : T = S₁ ∪ S₂) (hd : Disjoint S₁ S₂) (q : PosShare TreeShare)
    (f : Buf (Elt F) ℓ) :
    (iprop((ℓ ↦[S₁]{q} f) ∗ (ℓ ↦[S₂]{q} f)) : sProp 𝕄) ⊣⊢ (ℓ ↦[T]{q} f) := by
  rw [hT]; exact (pointsTo_union hd).symm

end Generic

theorem xgSl_set (o : Fin 8) : (xgSl o).view.set = (slotR o).set := View.set_slice_whole cc0_scratch0 _
theorem pbSl_set (o : Fin 8) : (pbSl o).view.set = (slotR o).set := View.set_slice_whole cc0_scratch3 _

theorem slot_lt (i : S512x512.Idx) : (i 0).val / 64 < 8 := Nat.div_lt_of_lt_mul (i 0).isLt

theorem xg_slots (c : Dev nD) (q : PosShare TreeShare) (f : Buf (Elt F) (c.tc.loc cc0_scratch0)) :
    ((c.tc.loc cc0_scratch0) ↦{q} f : sProp 𝕄) ⊣⊢ iprop(xgP c 0 q f ∗ xgP c 1 q f ∗ xgP c 2 q f ∗ xgP c 3 q f
      ∗ xgP c 4 q f ∗ xgP c 5 q f ∗ xgP c 6 q f ∗ xgP c 7 q f) :=
  pointsTo_split8 (ℓ := c.tc.loc cc0_scratch0) (fun o => (xgSl o).view.set) (fun i => (i 0).val / 64) (fun o i => xgSl_set o ▸ mem_slot o i) slot_lt q f

theorem pb_slots (c : Dev nD) (q : PosShare TreeShare) (f : Buf (Elt F) (c.tc.loc cc0_scratch3)) :
    ((c.tc.loc cc0_scratch3) ↦{q} f : sProp 𝕄) ⊣⊢ iprop(pbP c 0 q f ∗ pbP c 1 q f ∗ pbP c 2 q f ∗ pbP c 3 q f
      ∗ pbP c 4 q f ∗ pbP c 5 q f ∗ pbP c 6 q f ∗ pbP c 7 q f) :=
  pointsTo_split8 (ℓ := c.tc.loc cc0_scratch3) (fun o => (pbSl o).view.set) (fun i => (i 0).val / 64) (fun o i => pbSl_set o ▸ mem_slot o i) slot_lt q f

theorem acc_slices (c : Dev nD) (f : Buf (Elt F) (c.tc.loc cc0_scratch1)) :
    ((c.tc.loc cc0_scratch1) ↦{fullShare} f : sProp 𝕄) ⊣⊢ iprop(accP c 0 f ∗ accP c 1 f ∗ accP c 2 f ∗ accP c 3 f
      ∗ accP c 4 f ∗ accP c 5 f ∗ accP c 6 f ∗ accP c 7 f) :=
  pointsTo_split8 (ℓ := c.tc.loc cc0_scratch1) (fun o => (accSl o).view.set) (fun i => (i 0).val) mem_accSl (fun i => (i 0).isLt) fullShare f

-- The full share is its eight leaves three halvings down.
theorem xg_shares (c : Dev nD) (o : Fin 8) (f : Buf (Elt F) (c.tc.loc cc0_scratch0)) :
    (xgP c o fullShare f : sProp 𝕄) ⊣⊢ iprop(xgP c o (qsh 0) f ∗ xgP c o (qsh 1) f ∗ xgP c o (qsh 2) f ∗ xgP c o (qsh 3) f
      ∗ xgP c o (qsh 4) f ∗ xgP c o (qsh 5) f ∗ xgP c o (qsh 6) f ∗ xgP c o (qsh 7) f) := by
  have s (q : PosShare TreeShare) : (xgP c o q f : sProp 𝕄) ⊣⊢ iprop(xgP c o q.left f ∗ xgP c o q.right f) :=
    pointsTo_share (PosShare.mem_left_op_right q)
  have s4 (q : PosShare TreeShare) : (xgP c o q f : sProp 𝕄) ⊣⊢ iprop(xgP c o q.left.left f ∗ xgP c o q.left.right f
      ∗ xgP c o q.right.left f ∗ xgP c o q.right.right f) :=
    (s _).trans ((sep_congr (s _) (s _)).trans sep_assoc)
  exact (s _).trans ((sep_congr (s4 _) (s4 _)).trans (sep_assoc.trans (sep_congr_right (sep_assoc.trans (sep_congr_right sep_assoc)))))

theorem setOn_whole (b : Ref sig .tc) (M : Finset b.ty.shape.Idx) : (View.whole b : View sig .tc _ _ _).setOn M = M :=
  Finset.map_refl

abbrev loS (b : Fin 4) : Fin 8 := ⟨2 * b.val, by omega⟩
abbrev hiS (b : Fin 4) : Fin 8 := ⟨2 * b.val + 1, by omega⟩

-- A block of 128 rows is two slots of 64.
theorem blk_eq_slots (b : Fin 4) : (blkR b).set = (slotR (loS b)).set ∪ (slotR (hiS b)).set := by
  ext i
  rw [Finset.mem_union, mem_blk, mem_slot, mem_slot]
  show _ ↔ (i 0).val / 64 = 2 * b.val ∨ (i 0).val / 64 = 2 * b.val + 1
  omega
theorem slots_disjoint (b : Fin 4) : Disjoint (slotR (loS b)).set (slotR (hiS b)).set :=
  Rect.unit_disjoint (0 : Fin 2) (.inl (by show 64 * (2 * b.val) + 64 ≤ 64 * (2 * b.val + 1); omega))

theorem xg_blk (c : Dev nD) (b : Fin 4) (q : PosShare TreeShare) (f : Buf (Elt F) (c.tc.loc cc0_scratch0)) :
    (iprop(xgP c (loS b) q f ∗ xgP c (hiS b) q f) : sProp 𝕄)
      ⊣⊢ ((c.tc.loc cc0_scratch0) ↦[xgM.view.setOn (blkR b).toLoadRect.set]{q} f) :=
  pointsTo_two (by rw [xgSl_set, xgSl_set, ← blk_eq_slots]; exact setOn_whole cc0_scratch0 _)
    (by rw [xgSl_set, xgSl_set]; exact slots_disjoint b) q f

theorem pb_blk (c : Dev nD) (b : Fin 4) (f : Buf (Elt F) (c.tc.loc cc0_scratch3)) :
    (iprop(pbP c (loS b) fullShare f ∗ pbP c (hiS b) fullShare f) : sProp 𝕄)
      ⊣⊢ ((c.tc.loc cc0_scratch3) ↦[(pbM.access (blkR b)).setOn Finset.univ]{fullShare} f) :=
  pointsTo_two (by rw [pbSl_set, pbSl_set, ← blk_eq_slots]; exact View.set_slice_whole cc0_scratch3 _)
    (by rw [pbSl_set, pbSl_set]; exact slots_disjoint b) fullShare f

theorem acc0_store : (accM.access (accR 0)).setOn Finset.univ = (accSl 0).view.set :=
  (View.set_reshape (((View.whole cc0_scratch1 : View sig .tc _ _ _)).slice (accR 0)) (s' := S64x512) _).symm
theorem pb_slot0_load : pbM.view.setOn (slotR 0).toLoadRect.set = (pbSl 0).view.set :=
  (setOn_whole cc0_scratch3 _).trans (pbSl_set 0).symm

end Cert.KernelProof

end
-- ==== Proof.LocalStepsK.lean ====
import proofs.«900983_g7700000000000984_dist_mlpseq_tp1d_bs_bs_b64_d512_h1024_v7x_i8_f32_1_alg».proof.Proof.PiecesK
import proofs.«900983_g7700000000000984_dist_mlpseq_tp1d_bs_bs_b64_d512_h1024_v7x_i8_f32_1_alg».proof.Proof.FragsK
import proofs.«900983_g7700000000000984_dist_mlpseq_tp1d_bs_bs_b64_d512_h1024_v7x_i8_f32_1_alg».proof.Proof.EventsK

noncomputable section

namespace Cert.KernelProof

open Cert.Kernel Cert.Kernel.Gen
open Contents (xc accAt wb wob xin win wout)
open Idealize.ShloMosaic Idealize.ShloMosaic.TcCoe
open Idealize.SL Idealize.SL.RA Idealize.SL.BI Idealize.SL.BI.BIBase Idealize.SL.ProofMode Idealize.SL.Sem

variable {F : FTy → Type} [FloatOps F]

local notation "𝕄" => MT nD τ sig IxT (Elt F) ℕ UU ℕ

variable (m : (ℓ : Loc nD τ sig) → Buf (Elt F) ℓ)
variable {α : Type} {Q : α → sProp (MT nD τ sig IxT (Elt F) ℕ UU ℕ)} {k : PUnit → Prog (TpuEff nD τ sig (Elt F) Λ₀ .tc) α}

theorem hz2 : (![0, 0] : Fin 2 → Nat) = fun _ => 0 := funext fun a => by fin_cases a <;> rfl

theorem acc0_any (c : Dev nD) (l l' : ℕ) : (accP c 0 (ACCf m l c) : sProp 𝕄) = accP c 0 (ACCf m l' c) := by
  unfold accP
  refine pointsTo_congr fun i hi => ?_
  obtain ⟨p, q, rfl⟩ := acc_onto 0 i ((mem_accSl 0 i).mp hi)
  rw [accR_idx]
  show accAt m l c 0 p q = accAt m l' c 0 p q
  rw [accAt_zero, accAt_zero]

theorem wp_initP (c : Dev nD) (fx : Buf (Elt F) (c.tc.loc cc0_scratch2)) (fa : Buf (Elt F) (c.tc.loc cc0_scratch1)) :
    iprop((c.tc.loc cc0_stg0_0 ↦{fullShare} xin m c)
        ∗ (c.tc.loc cc0_scratch2 ↦{fullShare} fx) ∗ accP c 0 fa)
      ⊢ iprop((((c.tc.loc cc0_stg0_0 ↦{fullShare} xin m c)
          ∗ (c.tc.loc cc0_scratch2 ↦{fullShare} XCf m 0 c) ∗ accP c 0 (ACCf m 0 c)) -∗ wpDev c (k ⟨⟩) Q)
        -∗ wpDev c (initP >>= k) Q) := by
  simp only [initP, Prog.bind_lift, Prog.bind_op]
  iintro ⟨Hi, Hx, Ha⟩ Hk
  iapply (wp_load 𝒱₀ (c : Thread nD τ) none _ (m := xinM) (Finset.subset_univ _)) $$ Hi; iintro Hi
  erw [Memref.readAt_unit_zero (Elt F) _ hz2]
  iapply (wp_load 𝒱₀ (c : Thread nD τ) none _ (m := xcurM) (Finset.subset_univ _)) $$ Hx; iintro Hx
  iapply (wp_store 𝒱₀ (c : Thread nD τ) none _ (m := xcurM) (r := r64) (Mk := Finset.univ) (Finset.subset_univ _)) $$ Hx; iintro Hx
  erw [Memref.write_access_unit_zero_univ (Elt F) _ hz2]
  unfold accP
  iapply (wp_load 𝒱₀ (c : Thread nD τ) none _ (m := accM) (r := (accR 0).toLoadRect) (S := (accSl 0).view.set)
    (by rw [← acc0_store]; exact (setOn_whole cc0_scratch1 _).le.trans (View.set_slice_whole cc0_scratch1 _).ge)) $$ Ha; iintro Ha
  iapply (wp_store 𝒱₀ (c : Thread nD τ) none _ (m := accM) (r := accR 0) (Mk := Finset.univ) (S := (accSl 0).view.set) acc0_store.le) $$ Ha; iintro Ha
  iapply Hk
  have e := store_acc0 m 0 c fa
  rw [show ((accM : Memref sig .tc .vmem S8x64x512 .bf16).access (accR 0)).set = (accSl 0).view.set from acc0_store] at e
  ihave Ha := (Entails.of_eq (pointsTo_congr (q := fullShare) e)) $$ Ha
  rw [show XCf m 0 c = k0_pay2 (xin m c) by unfold XCf; rw [xc]]
  iframe ∗

theorem wp_slot0P (c : Dev nD) (l : ℕ) (hl : l < 3) (f : Buf (Elt F) (c.tc.loc cc0_scratch0)) :
    iprop((c.tc.loc cc0_scratch2 ↦{fullShare} XCf m l c) ∗ xgP c 0 fullShare f)
      ⊢ iprop((((c.tc.loc cc0_scratch2 ↦{fullShare} XCf m l c) ∗ xgP c 0 fullShare (XGf m l c)) -∗ wpDev c (k ⟨⟩) Q)
        -∗ wpDev c (slot0P ⟨l, hl⟩ >>= k) Q) := by
  simp only [slot0P, Prog.bind_lift, Prog.bind_op]
  iintro ⟨Hx, Hg⟩ Hk
  iapply (wp_load 𝒱₀ (c : Thread nD τ) none _ (m := xcurM) (Finset.subset_univ _)) $$ Hx; iintro Hx
  erw [Memref.readAt_unit_zero (Elt F) _ hz2]
  unfold xgP
  iapply (wp_load 𝒱₀ (c : Thread nD τ) none _ (m := xgM) (S := (xgSl 0).view.set) (by rw [xgSl_set]; exact (setOn_whole cc0_scratch0 _).le)) $$ Hg; iintro Hg
  iapply (wp_store 𝒱₀ (c : Thread nD τ) none _ (m := xgM) (r := slotR 0) (Mk := Finset.univ) (S := (xgSl 0).view.set) (Finset.Subset.refl _)) $$ Hg; iintro Hg
  iapply Hk
  ihave Hg := (Entails.of_eq (pointsTo_congr (q := fullShare) (store_xg0 m l hl c f))) $$ Hg
  iframe ∗

def stgW (c : Dev nD) : Fin 3 → sProp 𝕄
  | 0 => iprop((c.tc.loc cc0_stg1_0 ↦{fullShare} win m 0 c)
      ∗ (c.tc.loc cc0_stg2_0 ↦{fullShare} wout m 0 c))
  | 1 => iprop((c.tc.loc cc0_stg3_0 ↦{fullShare} win m 1 c)
      ∗ (c.tc.loc cc0_stg4_0 ↦{fullShare} wout m 1 c))
  | 2 => iprop((c.tc.loc cc0_stg5_0 ↦{fullShare} win m 2 c)
      ∗ (c.tc.loc cc0_stg6_0 ↦{fullShare} wout m 2 c))

theorem wp_castsP (c : Dev nD) (l : Fin 3) (fw : Buf (Elt F) (c.tc.loc cc0_scratch4)) (fo : Buf (Elt F) (c.tc.loc cc0_scratch5)) :
    iprop(stgW m c l ∗ (c.tc.loc cc0_scratch4 ↦{fullShare} fw) ∗ (c.tc.loc cc0_scratch5 ↦{fullShare} fo))
      ⊢ iprop(((stgW m c l ∗ (c.tc.loc cc0_scratch4 ↦{fullShare} wb m l c)
          ∗ (c.tc.loc cc0_scratch5 ↦{fullShare} wob m l c)) -∗ wpDev c (k ⟨⟩) Q)
        -∗ wpDev c (castsP l >>= k) Q) := by
  have h3 : l = 0 ∨ l = 1 ∨ l = 2 := by revert l; decide
  rcases h3 with rfl | rfl | rfl <;>
  · simp only [castsP, winM, woutM, stgW, Prog.bind_lift, Prog.bind_op]
    iintro ⟨⟨Hw, Ho⟩, Hwb, Hob⟩ Hk
    first
      | iapply (wp_load 𝒱₀ (c : Thread nD τ) none _ (m := (Memref.whole cc0_stg1_0 : Memref sig .tc .vmem S512x1024 .f32)) (Finset.subset_univ _)) $$ Hw
      | iapply (wp_load 𝒱₀ (c : Thread nD τ) none _ (m := (Memref.whole cc0_stg3_0 : Memref sig .tc .vmem S512x1024 .f32)) (Finset.subset_univ _)) $$ Hw
      | iapply (wp_load 𝒱₀ (c : Thread nD τ) none _ (m := (Memref.whole cc0_stg5_0 : Memref sig .tc .vmem S512x1024 .f32)) (Finset.subset_univ _)) $$ Hw
    iintro Hw
    erw [Memref.readAt_unit_zero (Elt F) _ hz2]
    iapply (wp_load 𝒱₀ (c : Thread nD τ) none _ (m := winbM) (Finset.subset_univ _)) $$ Hwb; iintro Hwb
    iapply (wp_store 𝒱₀ (c : Thread nD τ) none _ (m := winbM) (r := rW) (Mk := Finset.univ) (Finset.subset_univ _)) $$ Hwb; iintro Hwb
    erw [Memref.write_access_unit_zero_univ (Elt F) _ hz2]
    first
      | iapply (wp_load 𝒱₀ (c : Thread nD τ) none _ (m := (Memref.whole cc0_stg2_0 : Memref sig .tc .vmem S1024x512 .f32)) (Finset.subset_univ _)) $$ Ho
      | iapply (wp_load 𝒱₀ (c : Thread nD τ) none _ (m := (Memref.whole cc0_stg4_0 : Memref sig .tc .vmem S1024x512 .f32)) (Finset.subset_univ _)) $$ Ho
      | iapply (wp_load 𝒱₀ (c : Thread nD τ) none _ (m := (Memref.whole cc0_stg6_0 : Memref sig .tc .vmem S1024x512 .f32)) (Finset.subset_univ _)) $$ Ho
    iintro Ho
    erw [Memref.readAt_unit_zero (Elt F) _ hz2]
    iapply (wp_load 𝒱₀ (c : Thread nD τ) none _ (m := woutbM) (Finset.subset_univ _)) $$ Hob; iintro Hob
    iapply (wp_store 𝒱₀ (c : Thread nD τ) none _ (m := woutbM) (r := rO) (Mk := Finset.univ) (Finset.subset_univ _)) $$ Hob; iintro Hob
    erw [Memref.write_access_unit_zero_univ (Elt F) _ hz2]
    iapply Hk
    iframe ∗
    isplitl [Hwb]
    · iexact Hwb
    iexact Hob

theorem wp_finP (c : Dev nD) (l : ℕ) (hl : l < 3) (q : PosShare TreeShare) (fx : Buf (Elt F) (c.tc.loc cc0_scratch2)) :
    iprop(pbP c 0 q (PBf m l c) ∗ (c.tc.loc cc0_scratch1 ↦{fullShare} ACCf m l c) ∗ (c.tc.loc cc0_scratch2 ↦{fullShare} fx))
      ⊢ iprop(((pbP c 0 q (PBf m l c) ∗ (c.tc.loc cc0_scratch1 ↦{fullShare} ACCf m l c)
          ∗ (c.tc.loc cc0_scratch2 ↦{fullShare} XCf m (l + 1) c)) -∗ wpDev c (k ⟨⟩) Q)
        -∗ wpDev c (finP ⟨l, hl⟩ >>= k) Q) := by
  simp only [finP, Prog.bind_lift, Prog.bind_op]
  iintro ⟨Hp, Ha, Hx⟩ Hk
  unfold pbP
  iapply (wp_load 𝒱₀ (c : Thread nD τ) none _ (m := pbM) (r := (slotR 0).toLoadRect) (S := (pbSl 0).view.set) pb_slot0_load.le) $$ Hp; iintro Hp
  iapply (wp_load 𝒱₀ (c : Thread nD τ) none _ (m := accM) (Finset.subset_univ _)) $$ Ha; iintro Ha
  iapply (wp_load 𝒱₀ (c : Thread nD τ) none _ (m := xcurM) (Finset.subset_univ _)) $$ Hx; iintro Hx
  iapply (wp_store 𝒱₀ (c : Thread nD τ) none _ (m := xcurM) (r := r64) (Mk := Finset.univ) (Finset.subset_univ _)) $$ Hx; iintro Hx
  erw [Memref.write_access_unit_zero_univ (Elt F) _ hz2]
  rw [next_rows m l hl c]
  iapply Hk
  iframe ∗
  iexact Hx

theorem wp_outP (c : Dev nD) (fx : Buf (Elt F) (c.tc.loc cc0_scratch2)) (g : Buf (Elt F) (c.tc.loc cc0_stg7_0)) :
    iprop((c.tc.loc cc0_scratch2 ↦{fullShare} fx) ∗ (c.tc.loc cc0_stg7_0 ↦{fullShare} g))
      ⊢ iprop((((c.tc.loc cc0_scratch2 ↦{fullShare} fx)
          ∗ (c.tc.loc cc0_stg7_0 ↦{fullShare} fx)) -∗ wpDev c (k ⟨⟩) Q)
        -∗ wpDev c (outP >>= k) Q) := by
  simp only [outP, Prog.bind_lift, Prog.bind_op]
  iintro ⟨Hx, Ho⟩ Hk
  iapply (wp_load 𝒱₀ (c : Thread nD τ) none _ (m := xcurM) (Finset.subset_univ _)) $$ Hx; iintro Hx
  erw [Memref.readAt_unit_zero (Elt F) _ hz2]
  iapply (wp_load 𝒱₀ (c : Thread nD τ) none _ (m := outM) (Finset.subset_univ _)) $$ Ho; iintro Ho
  iapply (wp_store 𝒱₀ (c : Thread nD τ) none _ (m := outM) (r := r64) (Mk := Finset.univ) (Finset.subset_univ _)) $$ Ho; iintro Ho
  erw [Memref.write_access_unit_zero_univ (Elt F) _ hz2]
  iapply Hk
  iframe ∗

end Cert.KernelProof

end
-- ==== Proof.BodyPhasesK.lean ====
import proofs.«900983_g7700000000000984_dist_mlpseq_tp1d_bs_bs_b64_d512_h1024_v7x_i8_f32_1_alg».proof.Proof.RemoteStepsK
import proofs.«900983_g7700000000000984_dist_mlpseq_tp1d_bs_bs_b64_d512_h1024_v7x_i8_f32_1_alg».proof.Proof.LocalStepsK

noncomputable section

namespace Cert.KernelProof

open Cert.Kernel Cert.Kernel.Gen
open Contents (wb wob)
open Idealize.ShloMosaic Idealize.ShloMosaic.TcCoe
open Idealize.SL Idealize.SL.RA Idealize.SL.BI Idealize.SL.BI.BIBase Idealize.SL.ProofMode Idealize.SL.Sem Idealize.ShloMosaic.Rounds

variable {F : FTy → Type} [FloatOps F]

local notation "𝕄" => MT nD τ sig IxT (Elt F) ℕ UU ℕ

variable (m : (ℓ : Loc nD τ sig) → Buf (Elt F) ℓ) (c : Dev nD) (K : Dev nD × CI → ℕ)
variable {α : Type} {Q : α → sProp (MT nD τ sig IxT (Elt F) ℕ UU ℕ)} {k : PUnit → Prog (TpuEff nD τ sig (Elt F) Λ₀ .tc) α}

theorem owes_at {p p' : ℕ} (h : p = p') (W : Waits sig IxT) :
    (owes c.tc (owedFrom c p) W : sProp 𝕄) ⊢ owes c.tc (owedFrom c p') W := by
  subst h; exact BI.Entails.refl _

def gIn (l : ℕ) (o : Fin 8) : sProp 𝕄 :=
  iprop(xgP c 0 (qsh o) (XGf m l c) ∗ (∃ fd, xgP (peer c o) o fullShare fd) ∗ (∃ f, accP c o f)
    ∗ reached ER (dmaCell c 3 o) l ∗ dutyTok ER (dmaCell c 0 o) l 0 ∗ reached ER (dmaCell c 0 o) l
    ∗ dutyTok ER (dmaCell (peer c o) 1 o) l 0 ∗ reached ER (dmaCell (peer c o) 1 o) l)

def gOut (l : ℕ) (o : Fin 8) : sProp 𝕄 := cred (tallyAt (dmaCell c 0 o) (l, 0) Nblk)

theorem wp_gathers (l : ℕ) (hl : l < 3) (n1 n2 n3 n4 n5 n6 n7 : Dev nD)
    (h1 : n1 = peer c 1) (h2 : n2 = peer c 2) (h3 : n3 = peer c 3) (h4 : n4 = peer c 4) (h5 : n5 = peer c 5) (h6 : n6 = peer c 6) (h7 : n7 = peer c 7)
    (W : Waits sig IxT) :
    iprop(records m K ∗ owes c.tc (owedFrom c (7 + 14 * l)) W
        ∗ gIn m c l 1 ∗ gIn m c l 2 ∗ gIn m c l 3 ∗ gIn m c l 4 ∗ gIn m c l 5 ∗ gIn m c l 6 ∗ gIn m c l 7)
      ⊢ iprop(((owes c.tc (owedFrom c (14 + 14 * l)) W
            ∗ gOut c l 1 ∗ gOut c l 2 ∗ gOut c l 3 ∗ gOut c l 4 ∗ gOut c l 5 ∗ gOut c l 6 ∗ gOut c l 7) -∗ wpDev c (k ⟨⟩) Q)
          -∗ wpDev c (gathersP n1 n2 n3 n4 n5 n6 n7 >>= k) Q) := by
  unfold gathersP gIn gOut
  simp only [Prog.bind_assoc]
  iintro ⟨#Hrec, HO, G1, G2, G3, G4, G5, G6, G7⟩ Hk
  icases G1 with ⟨Hx, ⟨%fd, Hr⟩, Ha, #R3, T0, #R0, T1, #R1⟩
  iapply (wp_gatherStep m K c n1 l hl 1 (by decide) h1 fd W) $$ [$]
  iintro ⟨C1, HO⟩
  icases G2 with ⟨Hx, ⟨%fd, Hr⟩, Ha, #R3, T0, #R0, T1, #R1⟩
  iapply (wp_gatherStep m K c n2 l hl 2 (by decide) h2 fd W) $$ [$]
  iintro ⟨C2, HO⟩
  icases G3 with ⟨Hx, ⟨%fd, Hr⟩, Ha, #R3, T0, #R0, T1, #R1⟩
  iapply (wp_gatherStep m K c n3 l hl 3 (by decide) h3 fd W) $$ [$]
  iintro ⟨C3, HO⟩
  icases G4 with ⟨Hx, ⟨%fd, Hr⟩, Ha, #R3, T0, #R0, T1, #R1⟩
  iapply (wp_gatherStep m K c n4 l hl 4 (by decide) h4 fd W) $$ [$]
  iintro ⟨C4, HO⟩
  icases G5 with ⟨Hx, ⟨%fd, Hr⟩, Ha, #R3, T0, #R0, T1, #R1⟩
  iapply (wp_gatherStep m K c n5 l hl 5 (by decide) h5 fd W) $$ [$]
  iintro ⟨C5, HO⟩
  icases G6 with ⟨Hx, ⟨%fd, Hr⟩, Ha, #R3, T0, #R0, T1, #R1⟩
  iapply (wp_gatherStep m K c n6 l hl 6 (by decide) h6 fd W) $$ [$]
  iintro ⟨C6, HO⟩
  icases G7 with ⟨Hx, ⟨%fd, Hr⟩, Ha, #R3, T0, #R0, T1, #R1⟩
  iapply (wp_gatherStep m K c n7 l hl 7 (by decide) h7 fd W) $$ [$]
  iintro ⟨C7, HO⟩
  ihave HO := (owes_at c (show 7 + 14 * l + 7 = 14 + 14 * l by omega) W) $$ HO
  iapply Hk
  iframe ∗

def bIn (l : ℕ) (o : Fin 8) : sProp 𝕄 :=
  iprop(cred (tallyAt (dmaCell c 1 o) (l, 0) Nblk) ∗ atPos ER (dmaCell c 1 o) l ∅ 0
    ∗ dutyTok ER (dmaCell c 2 o) l 0 ∗ reached ER (dmaCell c 2 o) l ∗ dutyTok ER (dmaCell (back c o) 3 o) l 0)

def riderLeft (l : ℕ) (o : Fin 8) : sProp 𝕄 := if l < 2 then iprop(emp) else xgP c o fullShare (XGf m l c)

def bOut (l : ℕ) (o : Fin 8) : sProp 𝕄 :=
  iprop(atPos ER (dmaCell c 1 o) (l + 1) ∅ 0 ∗ reached ER (dmaCell c 1 o) (l + 1)
    ∗ cred (tallyAt (dmaCell c 2 o) (l, 0) Nblk) ∗ riderLeft m c l o)

-- A multiplied slot either rides with the scatter copy (before the last layer) or stays.
theorem rider_intro (l : ℕ) (o : Fin 8) :
    iprop(xgP c o fullShare (XGf m l c) ∗ reached ER (dmaCell c 1 o) (l + 1)) ⊢ iprop(scatterRider c o l ∗ riderLeft m c l o) := by
  unfold scatterRider riderLeft
  by_cases h : l < 2
  · rw [if_pos h, if_pos h]
    iintro ⟨Hx, #Hr⟩
    isplitl [Hx]
    · isplitl [Hx]
      · iexists (XGf m l c); iexact Hx
      · iexact Hr
    · iempintro
  · rw [if_neg h, if_neg h]
    iintro ⟨Hx, -⟩
    isplitr
    · iempintro
    · iexact Hx

-- Block b reads slots s = 2b and s' = 2b + 1 of the gathered rows and writes the same slots of the products.
theorem wp_blk (l : ℕ) (hl : l < 3) (b : Fin 4) {s s' : Fin 8} (hs : s = loS b) (hs' : s' = hiS b) (q : PosShare TreeShare) (fp : Buf (Elt F) (c.tc.loc cc0_scratch3)) :
    iprop(xgP c s q (XGf m l c) ∗ xgP c s' q (XGf m l c) ∗ (c.tc.loc cc0_scratch4 ↦{fullShare} wb m ⟨l, hl⟩ c) ∗ (c.tc.loc cc0_scratch5 ↦{fullShare} wob m ⟨l, hl⟩ c) ∗ pbP c s fullShare fp ∗ pbP c s' fullShare fp)
      ⊢ iprop(((xgP c s q (XGf m l c) ∗ xgP c s' q (XGf m l c) ∗ (c.tc.loc cc0_scratch4 ↦{fullShare} wb m ⟨l, hl⟩ c) ∗ (c.tc.loc cc0_scratch5 ↦{fullShare} wob m ⟨l, hl⟩ c)
          ∗ pbP c s fullShare (PBf m l c) ∗ pbP c s' fullShare (PBf m l c)) -∗ wpDev c (k ⟨⟩) Q)
        -∗ wpDev c (blkP ⟨l, hl⟩ b >>= k) Q) := by
  subst hs hs'
  simp only [blkP, Prog.bind_lift, Prog.bind_op]
  iintro ⟨Hg0, Hg1, Hw, Hwo, Hp0, Hp1⟩ Hk
  ihave Hg := (xg_blk c b q (XGf m l c)).1 $$ [$]
  iapply (wp_load 𝒱₀ (c : Thread nD τ) none _ (m := xgM) (r := (blkR b).toLoadRect) (Finset.Subset.refl _)) $$ Hg; iintro Hg
  rw [read_blk]
  iapply (wp_load 𝒱₀ (c : Thread nD τ) none _ (m := winbM) (Finset.subset_univ _)) $$ Hw; iintro Hw
  erw [Memref.readAt_unit_zero (Elt F) _ hz2]
  iapply (wp_load 𝒱₀ (c : Thread nD τ) none _ (m := woutbM) (Finset.subset_univ _)) $$ Hwo; iintro Hwo
  erw [Memref.readAt_unit_zero (Elt F) _ hz2]
  ihave Hp := (pb_blk c b fp).1 $$ [$]
  iapply (wp_load 𝒱₀ (c : Thread nD τ) none _ (m := pbM) (r := (blkR b).toLoadRect)
    (S := ((pbM : Memref sig .tc .vmem S512x512 .bf16).access (blkR b)).setOn Finset.univ)
    (by rw [show ((pbM : Memref sig .tc .vmem S512x512 .bf16).access (blkR b)).setOn Finset.univ = (blkR b).set from View.set_slice_whole cc0_scratch3 _]; exact (setOn_whole cc0_scratch3 _).le)) $$ Hp; iintro Hp
  iapply (wp_store 𝒱₀ (c : Thread nD τ) none _ (m := pbM) (r := blkR b) (Mk := Finset.univ) (Finset.Subset.refl _)) $$ Hp; iintro Hp
  iapply Hk
  ihave Hg := (xg_blk c b q (XGf m l c)).2 $$ Hg
  have e := store_pb m l hl c b fp
  rw [read_blk] at e
  ihave Hp := (Entails.of_eq (pointsTo_congr (q := fullShare) e)) $$ Hp
  ihave Hp := (pb_blk c b (PBf m l c)).2 $$ Hp
  icases Hg with ⟨Hg0, Hg1⟩
  icases Hp with ⟨Hp0, Hp1⟩
  iframe ∗

theorem wp_block0 (l : ℕ) (hl : l < 3) (s1 : Dev nD) (hs1 : s1 = back c 1) (W : Waits sig IxT) (fp : Buf (Elt F) (c.tc.loc cc0_scratch3)) :
    iprop(records m K ∗ levAts L lv ∗ owes c.tc (owedFrom c (14 + 14 * l)) W
        ∗ xgP c 0 (qsh 0) (XGf m l c)
        ∗ (c.tc.loc cc0_scratch4 ↦{fullShare} wb m ⟨l, hl⟩ c)
        ∗ (c.tc.loc cc0_scratch5 ↦{fullShare} wob m ⟨l, hl⟩ c)
        ∗ pbP c 0 fullShare fp ∗ pbP c 1 fullShare fp ∗ bIn c l 1)
      ⊢ iprop(((∃ W', owes c.tc (owedFrom c (15 + 14 * l)) W')
            ∗ xgP c 0 (qsh 0) (XGf m l c)
            ∗ (c.tc.loc cc0_scratch4 ↦{fullShare} wb m ⟨l, hl⟩ c)
            ∗ (c.tc.loc cc0_scratch5 ↦{fullShare} wob m ⟨l, hl⟩ c)
            ∗ pbP c 0 fullShare (PBf m l c) ∗ bOut m c l 1 -∗ wpDev c (k ⟨⟩) Q)
          -∗ wpDev c (brecvWaitP 1 >>= fun _ => blkP ⟨l, hl⟩ 0 >>= fun _ => scatterP 1 s1 >>= k) Q) := by
  unfold bIn bOut
  iintro ⟨#Hrec, #Hlev, HO, Hx0, Hw, Hwo, Hp0, Hp1, Cr, Pos, T2, #R2, T3⟩ Hk
  iapply (wp_brecvWaitStep m K c l hl 1 (by decide) (14 + 14 * l) (le_refl _) W) $$ [$]
  iintro ⟨HO, Pos, #R1, Hpay⟩
  unfold brecvPay
  icases Hpay with ⟨Hx1, ⟨%fa, Hacc⟩, #R3⟩
  ihave Hsh := (xg_shares c 1 (XGf m l c)).1 $$ Hx1
  icases Hsh with ⟨Hq0, Hq1, Hq2, Hq3, Hq4, Hq5, Hq6, Hq7⟩
  iapply (wp_blk m c l hl 0 (s := 0) (s' := 1) rfl rfl (qsh 0) fp) $$ [$]
  iintro ⟨Hx0, Hq0, Hw, Hwo, Hp0, Hp1⟩
  ihave Hx1 := (xg_shares c 1 (XGf m l c)).2 $$ [$]
  ihave Hrid := (rider_intro m c l 1) $$ [$]
  icases Hrid with ⟨Hrid, Hleft⟩
  iapply (wp_scatterStep m K c s1 l hl 1 (by decide) hs1 fa _) $$ [$]
  iintro ⟨C2, HO⟩
  ihave HO := (owes_at c (show 14 + 14 * l + 1 = 15 + 14 * l by omega) _) $$ HO
  iapply Hk
  iframe # ∗
  iexists _; iexact HO

theorem wp_blockB (l : ℕ) (hl : l < 3) (b : Fin 4) (hb : b ≠ 0) (s s' : Dev nD) (hs : s = back c (loS b)) (hs' : s' = back c (hiS b))
    (W : Waits sig IxT) (fp : Buf (Elt F) (c.tc.loc cc0_scratch3)) :
    iprop(records m K ∗ levAts L lv ∗ owes c.tc (owedFrom c (14 + 14 * l + ((loS b).val - 1))) W
        ∗ (c.tc.loc cc0_scratch4 ↦{fullShare} wb m ⟨l, hl⟩ c)
        ∗ (c.tc.loc cc0_scratch5 ↦{fullShare} wob m ⟨l, hl⟩ c)
        ∗ pbP c (loS b) fullShare fp ∗ pbP c (hiS b) fullShare fp ∗ bIn c l (loS b) ∗ bIn c l (hiS b))
      ⊢ iprop(((∃ W', owes c.tc (owedFrom c (14 + 14 * l + (hiS b).val)) W')
            ∗ (c.tc.loc cc0_scratch4 ↦{fullShare} wb m ⟨l, hl⟩ c)
            ∗ (c.tc.loc cc0_scratch5 ↦{fullShare} wob m ⟨l, hl⟩ c)
            ∗ bOut m c l (loS b) ∗ bOut m c l (hiS b) -∗ wpDev c (k ⟨⟩) Q)
          -∗ wpDev c (brecvWaitP (loS b) >>= fun _ => brecvWaitP (hiS b) >>= fun _ => blkP ⟨l, hl⟩ b >>= fun _ => scatterP (loS b) s >>= fun _ => scatterP (hiS b) s' >>= k) Q) := by
  have hlo : loS b ≠ 0 := by clear hs hs'; revert b; decide
  have hhi : hiS b ≠ 0 := by clear hs hs' hlo; revert b; decide
  unfold bIn bOut
  iintro ⟨#Hrec, #Hlev, HO, Hw, Hwo, Hpl, Hph, ⟨Crl, Posl, T2l, #R2l, T3l⟩, ⟨Crh, Posh, T2h, #R2h, T3h⟩⟩ Hk
  iapply (wp_brecvWaitStep m K c l hl (loS b) hlo (14 + 14 * l + ((loS b).val - 1)) (by omega) W) $$ [$]
  iintro ⟨HO, Posl, #R1l, Hpay⟩
  unfold brecvPay
  icases Hpay with ⟨Hxl, ⟨%fal, Haccl⟩, #R3l⟩
  iapply (wp_brecvWaitStep m K c l hl (hiS b) hhi (14 + 14 * l + ((loS b).val - 1)) (by omega) _) $$ [$]
  iintro ⟨HO, Posh, #R1h, Hpay⟩
  unfold brecvPay
  icases Hpay with ⟨Hxh, ⟨%fah, Hacch⟩, #R3h⟩
  iapply (wp_blk m c l hl b rfl rfl fullShare fp) $$ [$]
  iintro ⟨Hxl, Hxh, Hw, Hwo, Hpl, Hph⟩
  ihave Hridl := (rider_intro m c l (loS b)) $$ [$]
  icases Hridl with ⟨Hridl, Hleftl⟩
  ihave Hridh := (rider_intro m c l (hiS b)) $$ [$]
  icases Hridh with ⟨Hridh, Hlefth⟩
  iapply (wp_scatterStep m K c s l hl (loS b) hlo hs fal _) $$ [$]
  iintro ⟨C2l, HO⟩
  ihave HO := (owes_at c (show 14 + 14 * l + (loS b).val = 14 + 14 * l + ((hiS b).val - 1) from rfl) _) $$ HO
  iapply (wp_scatterStep m K c s' l hl (hiS b) hhi hs' fah _) $$ [$]
  iintro ⟨C2h, HO⟩
  iapply Hk
  iframe # ∗
  iexists _; iexact HO

def rIn (l : ℕ) (o : Fin 8) : sProp 𝕄 :=
  iprop(cred (tallyAt (dmaCell c 3 o) (l, 0) Nblk) ∗ atPos ER (dmaCell c 3 o) l ∅ 0)
def rOut (l : ℕ) (o : Fin 8) : sProp 𝕄 :=
  iprop(atPos ER (dmaCell c 3 o) (l + 1) ∅ 0 ∗ reached ER (dmaCell c 3 o) (l + 1) ∗ rrecvPay m c o l)

theorem wp_rrecvWaits (l : ℕ) (hl : l < 3) (W : Waits sig IxT) :
    iprop(records m K ∗ levAts L lv ∗ owes c.tc (owedFrom c (21 + 14 * l)) W
        ∗ rIn c l 1 ∗ rIn c l 2 ∗ rIn c l 3 ∗ rIn c l 4 ∗ rIn c l 5 ∗ rIn c l 6 ∗ rIn c l 7)
      ⊢ iprop(((∃ W', owes c.tc (owedFrom c (21 + 14 * l)) W')
            ∗ rOut m c l 1 ∗ rOut m c l 2 ∗ rOut m c l 3 ∗ rOut m c l 4 ∗ rOut m c l 5 ∗ rOut m c l 6 ∗ rOut m c l 7 -∗ wpDev c (k ⟨⟩) Q)
          -∗ wpDev c (rrecvWaitsP >>= k) Q) := by
  unfold rrecvWaitsP rIn rOut
  simp only [Prog.bind_assoc]
  iintro ⟨#Hrec, #Hlev, HO, ⟨C1, P1⟩, ⟨C2, P2⟩, ⟨C3, P3⟩, ⟨C4, P4⟩, ⟨C5, P5⟩, ⟨C6, P6⟩, ⟨C7, P7⟩⟩ Hk
  iapply (wp_rrecvWaitStep m K c l hl 1 (by decide) (21 + 14 * l) (le_refl _) W) $$ [$]
  iintro ⟨HO, O1⟩
  iapply (wp_rrecvWaitStep m K c l hl 2 (by decide) (21 + 14 * l) (le_refl _) _) $$ [$]
  iintro ⟨HO, O2⟩
  iapply (wp_rrecvWaitStep m K c l hl 3 (by decide) (21 + 14 * l) (le_refl _) _) $$ [$]
  iintro ⟨HO, O3⟩
  iapply (wp_rrecvWaitStep m K c l hl 4 (by decide) (21 + 14 * l) (le_refl _) _) $$ [$]
  iintro ⟨HO, O4⟩
  iapply (wp_rrecvWaitStep m K c l hl 5 (by decide) (21 + 14 * l) (le_refl _) _) $$ [$]
  iintro ⟨HO, O5⟩
  iapply (wp_rrecvWaitStep m K c l hl 6 (by decide) (21 + 14 * l) (le_refl _) _) $$ [$]
  iintro ⟨HO, O6⟩
  iapply (wp_rrecvWaitStep m K c l hl 7 (by decide) (21 + 14 * l) (le_refl _) _) $$ [$]
  iintro ⟨HO, O7⟩
  iapply Hk
  iframe # ∗
  iexists _; iexact HO

def sIn (l : ℕ) (o : Fin 8) : sProp 𝕄 :=
  iprop(cred (tallyAt (dmaCell c 0 o) (l, 0) Nblk) ∗ atPos ER (dmaCell c 0 o) l ∅ 0)
def sOut (l : ℕ) (o : Fin 8) : sProp 𝕄 :=
  iprop(atPos ER (dmaCell c 0 o) (l + 1) ∅ 0 ∗ reached ER (dmaCell c 0 o) (l + 1) ∗ bsendPay m c o l)

theorem wp_bsendWaits (l : ℕ) (hl : l < 3) (p : ℕ) (W : Waits sig IxT) :
    iprop(records m K ∗ levAts L lv ∗ owes c.tc (owedFrom c p) W
        ∗ sIn c l 1 ∗ sIn c l 2 ∗ sIn c l 3 ∗ sIn c l 4 ∗ sIn c l 5 ∗ sIn c l 6 ∗ sIn c l 7)
      ⊢ iprop(((∃ W', owes c.tc (owedFrom c p) W')
            ∗ sOut m c l 1 ∗ sOut m c l 2 ∗ sOut m c l 3 ∗ sOut m c l 4 ∗ sOut m c l 5 ∗ sOut m c l 6 ∗ sOut m c l 7 -∗ wpDev c (k ⟨⟩) Q)
          -∗ wpDev c (bsendWaitsP >>= k) Q) := by
  unfold bsendWaitsP sIn sOut
  simp only [Prog.bind_assoc]
  iintro ⟨#Hrec, #Hlev, HO, ⟨C1, P1⟩, ⟨C2, P2⟩, ⟨C3, P3⟩, ⟨C4, P4⟩, ⟨C5, P5⟩, ⟨C6, P6⟩, ⟨C7, P7⟩⟩ Hk
  iapply (wp_bsendWaitStep m K c l hl 1 (by decide) p W) $$ [$]
  iintro ⟨HO, O1⟩
  iapply (wp_bsendWaitStep m K c l hl 2 (by decide) p _) $$ [$]
  iintro ⟨HO, O2⟩
  iapply (wp_bsendWaitStep m K c l hl 3 (by decide) p _) $$ [$]
  iintro ⟨HO, O3⟩
  iapply (wp_bsendWaitStep m K c l hl 4 (by decide) p _) $$ [$]
  iintro ⟨HO, O4⟩
  iapply (wp_bsendWaitStep m K c l hl 5 (by decide) p _) $$ [$]
  iintro ⟨HO, O5⟩
  iapply (wp_bsendWaitStep m K c l hl 6 (by decide) p _) $$ [$]
  iintro ⟨HO, O6⟩
  iapply (wp_bsendWaitStep m K c l hl 7 (by decide) p _) $$ [$]
  iintro ⟨HO, O7⟩
  iapply Hk
  iframe # ∗
  iexists _; iexact HO

def tIn (l : ℕ) (o : Fin 8) : sProp 𝕄 :=
  iprop(cred (tallyAt (dmaCell c 2 o) (l, 0) Nblk) ∗ atPos ER (dmaCell c 2 o) l ∅ 0)
def tOut (l : ℕ) (o : Fin 8) : sProp 𝕄 :=
  iprop(atPos ER (dmaCell c 2 o) (l + 1) ∅ 0 ∗ reached ER (dmaCell c 2 o) (l + 1) ∗ rsendPay m c o l)

theorem wp_rsendWaits (l : ℕ) (hl : l < 3) (p : ℕ) (W : Waits sig IxT) :
    iprop(records m K ∗ levAts L lv ∗ owes c.tc (owedFrom c p) W
        ∗ tIn c l 1 ∗ tIn c l 2 ∗ tIn c l 3 ∗ tIn c l 4 ∗ tIn c l 5 ∗ tIn c l 6 ∗ tIn c l 7)
      ⊢ iprop(((∃ W', owes c.tc (owedFrom c p) W')
            ∗ tOut m c l 1 ∗ tOut m c l 2 ∗ tOut m c l 3 ∗ tOut m c l 4 ∗ tOut m c l 5 ∗ tOut m c l 6 ∗ tOut m c l 7 -∗ wpDev c (k ⟨⟩) Q)
          -∗ wpDev c (rsendWaitsP >>= k) Q) := by
  unfold rsendWaitsP tIn tOut
  simp only [Prog.bind_assoc]
  iintro ⟨#Hrec, #Hlev, HO, ⟨C1, P1⟩, ⟨C2, P2⟩, ⟨C3, P3⟩, ⟨C4, P4⟩, ⟨C5, P5⟩, ⟨C6, P6⟩, ⟨C7, P7⟩⟩ Hk
  iapply (wp_rsendWaitStep m K c l hl 1 (by decide) p W) $$ [$]
  iintro ⟨HO, O1⟩
  iapply (wp_rsendWaitStep m K c l hl 2 (by decide) p _) $$ [$]
  iintro ⟨HO, O2⟩
  iapply (wp_rsendWaitStep m K c l hl 3 (by decide) p _) $$ [$]
  iintro ⟨HO, O3⟩
  iapply (wp_rsendWaitStep m K c l hl 4 (by decide) p _) $$ [$]
  iintro ⟨HO, O4⟩
  iapply (wp_rsendWaitStep m K c l hl 5 (by decide) p _) $$ [$]
  iintro ⟨HO, O5⟩
  iapply (wp_rsendWaitStep m K c l hl 6 (by decide) p _) $$ [$]
  iintro ⟨HO, O6⟩
  iapply (wp_rsendWaitStep m K c l hl 7 (by decide) p _) $$ [$]
  iintro ⟨HO, O7⟩
  iapply Hk
  iframe # ∗
  iexists _; iexact HO

end Cert.KernelProof

end
-- ==== Proof.LayerDefsK.lean ====
import proofs.«900983_g7700000000000984_dist_mlpseq_tp1d_bs_bs_b64_d512_h1024_v7x_i8_f32_1_alg».proof.Proof.StateK

noncomputable section

namespace Cert.KernelProof

open Cert.Kernel Cert.Kernel.Gen
open Idealize.ShloMosaic Idealize.ShloMosaic.TcCoe Idealize.SL Idealize.SL.RA Idealize.SL.BI Idealize.SL.BI.BIBase Idealize.SL.Sem Idealize.ShloMosaic.Rounds
open scoped Idealize.SL.BI

variable {F : FTy → Type} [FloatOps F]

local notation "𝕄" => MT nD τ sig IxT (Elt F) ℕ UU ℕ

variable (m : (ℓ : Loc nD τ sig) → Buf (Elt F) ℓ) (c : Dev nD)

def layerIn (l : ℕ) (o : Fin 8) : sProp 𝕄 :=
  iprop((∃ fd, xgP (peer c o) o fullShare fd) ∗ (∃ f, accP c o f)
    ∗ reached ER (dmaCell c 3 o) l ∗ reached ER (dmaCell c 0 o) l ∗ reached ER (dmaCell c 2 o) l ∗ reached ER (dmaCell (peer c o) 1 o) l
    ∗ dutyTok ER (dmaCell c 0 o) l 0 ∗ dutyTok ER (dmaCell (peer c o) 1 o) l 0 ∗ dutyTok ER (dmaCell c 2 o) l 0 ∗ dutyTok ER (dmaCell (back c o) 3 o) l 0
    ∗ cred (tallyAt (dmaCell c 1 o) (l, 0) Nblk) ∗ cred (tallyAt (dmaCell c 3 o) (l, 0) Nblk)
    ∗ atPos ER (dmaCell c 0 o) l ∅ 0 ∗ atPos ER (dmaCell c 1 o) l ∅ 0 ∗ atPos ER (dmaCell c 2 o) l ∅ 0 ∗ atPos ER (dmaCell c 3 o) l ∅ 0)

def layerOut (l : ℕ) (o : Fin 8) : sProp 𝕄 :=
  iprop((if l < 2 then iprop((∃ f, xgP (peer c o) o fullShare f) ∗ reached ER (dmaCell (peer c o) 1 o) (l + 1)) else xgP c o fullShare (XGf m l c))
    ∗ accP c o (ACCf m l c)
    ∗ reached ER (dmaCell c 3 o) (l + 1) ∗ reached ER (dmaCell c 0 o) (l + 1) ∗ reached ER (dmaCell c 2 o) (l + 1)
    ∗ atPos ER (dmaCell c 0 o) (l + 1) ∅ 0 ∗ atPos ER (dmaCell c 1 o) (l + 1) ∅ 0 ∗ atPos ER (dmaCell c 2 o) (l + 1) ∅ 0 ∗ atPos ER (dmaCell c 3 o) (l + 1) ∅ 0)

end Cert.KernelProof

end
-- ==== Proof.BodyGlueK.lean ====
import proofs.«900983_g7700000000000984_dist_mlpseq_tp1d_bs_bs_b64_d512_h1024_v7x_i8_f32_1_alg».proof.Proof.LayerDefsK
import proofs.«900983_g7700000000000984_dist_mlpseq_tp1d_bs_bs_b64_d512_h1024_v7x_i8_f32_1_alg».proof.Proof.RemoteStepsK

noncomputable section

namespace Cert.KernelProof

open Cert.Kernel Cert.Kernel.Gen
open Idealize.ShloMosaic Idealize.SL Idealize.SL.RA Idealize.SL.BI Idealize.SL.BI.BIBase Idealize.SL.ProofMode Idealize.SL.Sem Idealize.ShloMosaic.Rounds
open scoped Idealize.SL.BI

variable {F : FTy → Type} [FloatOps F]

local notation "𝕄" => MT nD τ sig IxT (Elt F) ℕ UU ℕ

variable (m : (ℓ : Loc nD τ sig) → Buf (Elt F) ℓ) (c : Dev nD) (K : Dev nD × CI → ℕ)

def tok4 (l : ℕ) (o : Fin 8) : sProp 𝕄 :=
  iprop(dutyTok ER (dmaCell c 0 o) l 0 ∗ dutyTok ER (dmaCell (peer c o) 1 o) l 0 ∗ dutyTok ER (dmaCell c 2 o) l 0 ∗ dutyTok ER (dmaCell (back c o) 3 o) l 0)
def cred2 (l : ℕ) (o : Fin 8) : sProp 𝕄 :=
  iprop(cred (tallyAt (dmaCell c 1 o) (l, 0) Nblk) ∗ cred (tallyAt (dmaCell c 3 o) (l, 0) Nblk))
def pos4 (l : ℕ) (o : Fin 8) : sProp 𝕄 :=
  iprop(atPos ER (dmaCell c 0 o) l ∅ 0 ∗ atPos ER (dmaCell c 1 o) l ∅ 0 ∗ atPos ER (dmaCell c 2 o) l ∅ 0 ∗ atPos ER (dmaCell c 3 o) l ∅ 0)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem layerToks_split (l : ℕ) : layerToks (F := F) c l ⊣⊢ iprop(tok4 c l 1 ∗ tok4 c l 2 ∗ tok4 c l 3 ∗ tok4 c l 4 ∗ tok4 c l 5 ∗ tok4 c l 6 ∗ tok4 c l 7) :=
  .of_eq (bigSep_fin7 _)
theorem layerCreds_split (l : ℕ) : layerCreds (F := F) c l ⊣⊢ iprop(cred2 c l 1 ∗ cred2 c l 2 ∗ cred2 c l 3 ∗ cred2 c l 4 ∗ cred2 c l 5 ∗ cred2 c l 6 ∗ cred2 c l 7) :=
  .of_eq (bigSep_fin7 _)
theorem positions_split (l : ℕ) : positions (F := F) c l ⊣⊢ iprop(pos4 c l 1 ∗ pos4 c l 2 ∗ pos4 c l 3 ∗ pos4 c l 4 ∗ pos4 c l 5 ∗ pos4 c l 6 ∗ pos4 c l 7) :=
  .of_eq (by
    unfold positions
    rw [bigSep_univ_equiv (Equiv.prodComm (Fin 7) (Fin 4)), bigSep_univ_prod, bigSep_fin7]
    simp only [bigSep_univ_eq_bigSepL ([0, 1, 2, 3] : List (Fin 4)) (by decide) (by decide)]
    rfl)
theorem barSlots_split : (bigSep Finset.univ fun i : Fin 7 => iprop(∃ f, xgP (F := F) (peer c (io i)) (io i) fullShare f))
    ⊣⊢ iprop((∃ f, xgP (peer c 1) 1 fullShare f) ∗ (∃ f, xgP (peer c 2) 2 fullShare f) ∗ (∃ f, xgP (peer c 3) 3 fullShare f) ∗ (∃ f, xgP (peer c 4) 4 fullShare f)
      ∗ (∃ f, xgP (peer c 5) 5 fullShare f) ∗ (∃ f, xgP (peer c 6) 6 fullShare f) ∗ (∃ f, xgP (peer c 7) 7 fullShare f)) :=
  .of_eq (bigSep_fin7 _)

-- Layer 0 starts from the records: every cell is at round 0.
theorem layerIn_zero (o : Fin 8) (ho : o ≠ 0) :
    iprop(records m K ∗ (∃ fd, xgP (peer c o) o fullShare fd) ∗ (∃ f, accP c o f) ∗ tok4 c 0 o ∗ cred2 c 0 o ∗ pos4 c 0 o)
      ⊢ layerIn c 0 o := by
  unfold layerIn tok4 cred2 pos4
  iintro ⟨#Hrec, Hx, Ha, ⟨Ht0, Ht1, Ht2, Ht3⟩, ⟨Hc1, Hc3⟩, ⟨Hp0, Hp1, Hp2, Hp3⟩⟩
  ihave ⟨-, #Hr3⟩ := (rec_dma m K c 3 o ho) $$ Hrec
  ihave ⟨-, #Hr0⟩ := (rec_dma m K c 0 o ho) $$ Hrec
  ihave ⟨-, #Hr2⟩ := (rec_dma m K c 2 o ho) $$ Hrec
  ihave ⟨-, #Hr1⟩ := (rec_dma m K (peer c o) 1 o ho) $$ Hrec
  iframe # ∗
-- The next layer starts from what the layer before leaves.
theorem layerIn_next (l : ℕ) (h : l < 2) (o : Fin 8) :
    iprop(layerOut m c l o ∗ tok4 c (l + 1) o ∗ cred2 c (l + 1) o) ⊢ layerIn c (l + 1) o := by
  unfold layerOut layerIn tok4 cred2
  rw [if_pos h]
  iintro ⟨⟨⟨Hx, #Hr1⟩, Ha, #Hr3, #Hr0, #Hr2, Hp0, Hp1, Hp2, Hp3⟩, ⟨Ht0, Ht1, Ht2, Ht3⟩, ⟨Hc1, Hc3⟩⟩
  iframe # ∗
  iexists _; iexact Ha
theorem layerOut_last (o : Fin 8) :
    layerOut m c 2 o ⊢ iprop(xgP c o fullShare (XGf m 2 c) ∗ accP c o (ACCf m 2 c) ∗ pos4 c 3 o) := by
  unfold layerOut pos4
  rw [if_neg (Nat.lt_irrefl 2)]
  iintro ⟨Hx, Ha, -, -, -, Hp0, Hp1, Hp2, Hp3⟩
  iframe ∗

-- The seven barrier signals in turn: the signal at offset o hands over slot 8 - o.
theorem wp_sigs {α : Type} {Q : α → sProp 𝕄} {k : PUnit → Prog (TpuEff nD τ sig (Elt F) Λ₀ .tc) α}
    (n1 n2 n3 n4 n5 n6 n7 : Dev nD)
    (h1 : n1 = peer c 1) (h2 : n2 = peer c 2) (h3 : n3 = peer c 3) (h4 : n4 = peer c 4) (h5 : n5 = peer c 5) (h6 : n6 = peer c 6) (h7 : n7 = peer c 7)
    (W : Waits sig IxT) (f : Buf (Elt F) (c.tc.loc cc0_scratch0)) :
    iprop(records m K ∗ owes c.tc (owedFrom c 0) W ∗ barToks c
        ∗ xgP c 1 fullShare f ∗ xgP c 2 fullShare f ∗ xgP c 3 fullShare f ∗ xgP c 4 fullShare f ∗ xgP c 5 fullShare f ∗ xgP c 6 fullShare f ∗ xgP c 7 fullShare f)
      ⊢ iprop((owes c.tc (owedFrom c 7) W -∗ wpDev c (k ⟨⟩) Q)
          -∗ wpDev c (sigsP n1 n2 n3 n4 n5 n6 n7 >>= k) Q) := by
  unfold sigsP barToks
  simp only [Prog.bind_assoc]
  rw [bigSep_fin7]
  iintro ⟨#Hrec, HO, ⟨T1, T2, T3, T4, T5, T6, T7⟩, X1, X2, X3, X4, X5, X6, X7⟩ Hk
  iapply (wp_sigStep m K c n1 (io 0) (io_ne _) h1 W 0 1 rfl rfl 7 rfl f) $$ [$]
  iintro HO
  iapply (wp_sigStep m K c n2 (io 1) (io_ne _) h2 W 1 2 rfl rfl 6 rfl f) $$ [$]
  iintro HO
  iapply (wp_sigStep m K c n3 (io 2) (io_ne _) h3 W 2 3 rfl rfl 5 rfl f) $$ [$]
  iintro HO
  iapply (wp_sigStep m K c n4 (io 3) (io_ne _) h4 W 3 4 rfl rfl 4 rfl f) $$ [$]
  iintro HO
  iapply (wp_sigStep m K c n5 (io 4) (io_ne _) h5 W 4 5 rfl rfl 3 rfl f) $$ [$]
  iintro HO
  iapply (wp_sigStep m K c n6 (io 5) (io_ne _) h6 W 5 6 rfl rfl 2 rfl f) $$ [$]
  iintro HO
  iapply (wp_sigStep m K c n7 (io 6) (io_ne _) h7 W 6 7 rfl rfl 1 rfl f) $$ [$]
  iexact Hk

end Cert.KernelProof

end
-- ==== Proof.LayerK.lean ====
import proofs.«900983_g7700000000000984_dist_mlpseq_tp1d_bs_bs_b64_d512_h1024_v7x_i8_f32_1_alg».proof.Proof.BodyPhasesK
import proofs.«900983_g7700000000000984_dist_mlpseq_tp1d_bs_bs_b64_d512_h1024_v7x_i8_f32_1_alg».proof.Proof.BodyGlueK

noncomputable section

namespace Cert.KernelProof

open Cert.Kernel Cert.Kernel.Gen
open Cert.Kernel.Contents (wb wob)
open Idealize.ShloMosaic Idealize.ShloMosaic.TcCoe Idealize.ShloMosaic.Rounds
open Idealize.SL Idealize.SL.RA Idealize.SL.BI Idealize.SL.BI.BIBase Idealize.SL.ProofMode Idealize.SL.Sem

variable {F : FTy → Type} [FloatOps F]

variable (m : (ℓ : Loc nD τ sig) → Buf (Elt F) ℓ) (c : Dev nD)

-- A piece held in one case and a piece held in the other case join to one held in either case.
theorem ite_join {p : Prop} [Decidable p] {A B : sProp (MT nD τ sig IxT (Elt F) ℕ UU ℕ)} :
    (if p then iprop(emp) else B) ⊢ iprop((if p then A else iprop(emp)) -∗ if p then A else B) := by
  by_cases h : p
  · rw [if_pos h, if_pos h, if_pos h]; iintro - H; iexact H
  · rw [if_neg h, if_neg h, if_neg h]; iintro H -; iexact H

-- A layer on device c from its rows in slot 0: the phases in order, each offset's pieces handed from phase to phase.
set_option maxHeartbeats 400000 in
theorem wp_layer (K : Dev nD × CI → ℕ) {α : Type} {Q : α → sProp (MT nD τ sig IxT (Elt F) ℕ UU ℕ)} {k : PUnit → Prog (TpuEff nD τ sig (Elt F) Λ₀ .tc) α}
    (l : ℕ) (hl : l < 3) (l' : ℕ) {n1 n2 n3 n4 n5 n6 n7 s1 s2 s3 s4 s5 s6 s7 : Dev nD}
    (h1 : n1 = peer c 1) (h2 : n2 = peer c 2) (h3 : n3 = peer c 3) (h4 : n4 = peer c 4) (h5 : n5 = peer c 5) (h6 : n6 = peer c 6) (h7 : n7 = peer c 7)
    (g1 : s1 = back c 1) (g2 : s2 = back c 2) (g3 : s3 = back c 3) (g4 : s4 = back c 4) (g5 : s5 = back c 5) (g6 : s6 = back c 6) (g7 : s7 = back c 7)
    (W : Waits sig IxT) (R : Fin 8 → sProp (MT nD τ sig IxT (Elt F) ℕ UU ℕ))
    (hR : ∀ o, o ≠ 0 → iprop(records m K ∗ R o ∗ tok4 (F := F) c l o ∗ cred2 (F := F) c l o) ⊢ layerIn (F := F) c l o)
    (fp : Buf (Elt F) (c.tc.loc cc0_scratch3)) (fw : Buf (Elt F) (c.tc.loc cc0_scratch4)) (fo : Buf (Elt F) (c.tc.loc cc0_scratch5)) :
    iprop(records m K ∗ levAts L lv ∗ owes c.tc (owedFrom c (7 + 14 * l)) W
        ∗ xgP c 0 fullShare (XGf m l c)
        ∗ ((c.tc.loc cc0_scratch2) ↦{fullShare} XCf m l c)
        ∗ ((c.tc.loc cc0_scratch3) ↦{fullShare} fp)
        ∗ ((c.tc.loc cc0_scratch4) ↦{fullShare} fw)
        ∗ ((c.tc.loc cc0_scratch5) ↦{fullShare} fo)
        ∗ accP c 0 (ACCf m l' c) ∗ stgW m c ⟨l, hl⟩
        ∗ layerToks (F := F) c l ∗ layerCreds (F := F) c l ∗ R 1 ∗ R 2 ∗ R 3 ∗ R 4 ∗ R 5 ∗ R 6 ∗ R 7)
      ⊢ iprop(((∃ W', owes c.tc (owedFrom c (21 + 14 * l)) W')
            ∗ xgP c 0 fullShare (XGf m l c)
            ∗ ((c.tc.loc cc0_scratch2) ↦{fullShare} XCf m (l + 1) c)
            ∗ ((c.tc.loc cc0_scratch3) ↦{fullShare} PBf m l c)
            ∗ ((c.tc.loc cc0_scratch4) ↦{fullShare} (wb m ⟨l, hl⟩ c : Buf (Elt F) (c.tc.loc cc0_scratch4)))
            ∗ ((c.tc.loc cc0_scratch5) ↦{fullShare} (wob m ⟨l, hl⟩ c : Buf (Elt F) (c.tc.loc cc0_scratch5)))
            ∗ accP c 0 (ACCf m l c) ∗ stgW m c ⟨l, hl⟩
            ∗ layerOut m c l 1 ∗ layerOut m c l 2 ∗ layerOut m c l 3 ∗ layerOut m c l 4 ∗ layerOut m c l 5 ∗ layerOut m c l 6 ∗ layerOut m c l 7
            -∗ wpDev c (k ⟨⟩) Q)
          -∗ wpDev c (layerP (F := F) ⟨l, hl⟩ n1 n2 n3 n4 n5 n6 n7 s1 s2 s3 s4 s5 s6 s7 >>= k) Q) := by
  have hg := @wp_gathers F _ m c K
  have h0 := @wp_block0 F _ m c K
  have hr := @wp_rrecvWaits F _ m c K
  have hs := @wp_bsendWaits F _ m c K
  have ht := @wp_rsendWaits F _ m c K
  simp only [gIn, gOut, bIn, bOut, rIn, rOut, rrecvPay, sIn, sOut, bsendPay, tIn, tOut, rsendPay] at hg h0 hr hs ht
  have e : loS 1 = 2 ∧ hiS 1 = 3 ∧ loS 2 = 4 ∧ hiS 2 = 5 ∧ loS 3 = 6 ∧ hiS 3 = 7 := by decide
  unfold layerP blocksP
  unfold layerIn at hR
  rw [acc0_any m c l' l]
  simp only [Prog.bind_assoc]
  iintro ⟨#Hrec, #Hlev, HO, Hx0, Hxc, Hpb, Hw4, Hw5, Ha0, Hstg, LT, LC, I1, I2, I3, I4, I5, I6, I7⟩ Hk
  ihave ⟨T1, T2, T3, T4, T5, T6, T7⟩ := (layerToks_split c l).1 $$ LT
  ihave ⟨C1, C2, C3, C4, C5, C6, C7⟩ := (layerCreds_split c l).1 $$ LC
  ihave ⟨Hr1, Hac1, #R31, #R01, #R21, #R11, T01, T11, T21, T31, C11, C31, P01, P11, P21, P31⟩ := (hR 1 (by decide)) $$ [$]
  ihave ⟨Hr2, Hac2, #R32, #R02, #R22, #R12, T02, T12, T22, T32, C12, C32, P02, P12, P22, P32⟩ := (hR 2 (by decide)) $$ [$]
  ihave ⟨Hr3, Hac3, #R33, #R03, #R23, #R13, T03, T13, T23, T33, C13, C33, P03, P13, P23, P33⟩ := (hR 3 (by decide)) $$ [$]
  ihave ⟨Hr4, Hac4, #R34, #R04, #R24, #R14, T04, T14, T24, T34, C14, C34, P04, P14, P24, P34⟩ := (hR 4 (by decide)) $$ [$]
  ihave ⟨Hr5, Hac5, #R35, #R05, #R25, #R15, T05, T15, T25, T35, C15, C35, P05, P15, P25, P35⟩ := (hR 5 (by decide)) $$ [$]
  ihave ⟨Hr6, Hac6, #R36, #R06, #R26, #R16, T06, T16, T26, T36, C16, C36, P06, P16, P26, P36⟩ := (hR 6 (by decide)) $$ [$]
  ihave ⟨Hr7, Hac7, #R37, #R07, #R27, #R17, T07, T17, T27, T37, C17, C37, P07, P17, P27, P37⟩ := (hR 7 (by decide)) $$ [$]
  ihave ⟨Hq0, Hq1, Hq2, Hq3, Hq4, Hq5, Hq6, Hq7⟩ := (xg_shares c 0 (XGf m l c)).1 $$ Hx0
  iapply (hg l hl n1 n2 n3 n4 n5 n6 n7 h1 h2 h3 h4 h5 h6 h7 W) $$ [$]
  iintro ⟨HO, G1, G2, G3, G4, G5, G6, G7⟩
  iapply (wp_castsP m c ⟨l, hl⟩ fw fo) $$ [$]
  iintro ⟨Hstg, Hw4, Hw5⟩
  ihave ⟨Hp0, Hp1, Hp2, Hp3, Hp4, Hp5, Hp6, Hp7⟩ := (pb_slots c fullShare fp).1 $$ Hpb
  iapply (h0 l hl s1 g1 W fp) $$ [$]
  iintro ⟨⟨%W1, HO⟩, Hq0, Hw4, Hw5, Hp0, P11, -, C21, L1⟩
  ihave HO := (owes_at (F := F) c (show 15 + 14 * l = 14 + 14 * l + 1 by omega) W1) $$ HO
  iapply (wp_blockB m c K l hl 1 (by decide) s2 s3 g2 g3 W1 fp) $$ [HO Hw4 Hw5 Hp2 Hp3 C12 P12 T22 T32 C13 P13 T23 T33] <;> simp only [e, bIn, bOut]
  · iframe # ∗
  iintro ⟨⟨%W2, HO⟩, Hw4, Hw5, ⟨P12, -, C22, L2⟩, P13, -, C23, L3⟩
  iapply (wp_blockB m c K l hl 2 (by decide) s4 s5 g4 g5 W2 fp) $$ [HO Hw4 Hw5 Hp4 Hp5 C14 P14 T24 T34 C15 P15 T25 T35] <;> simp only [e, bIn, bOut]
  · iframe # ∗
  iintro ⟨⟨%W3, HO⟩, Hw4, Hw5, ⟨P14, -, C24, L4⟩, P15, -, C25, L5⟩
  iapply (wp_blockB m c K l hl 3 (by decide) s6 s7 g6 g7 W3 fp) $$ [HO Hw4 Hw5 Hp6 Hp7 C16 P16 T26 T36 C17 P17 T27 T37] <;> simp only [e, bIn, bOut]
  · iframe # ∗
  iintro ⟨⟨%W4, HO⟩, Hw4, Hw5, ⟨P16, -, C26, L6⟩, P17, -, C27, L7⟩
  ihave HO := (owes_at (F := F) c (show 14 + 14 * l + 7 = 21 + 14 * l by omega) W4) $$ HO
  iapply (hr l hl W4) $$ [$]
  iintro ⟨⟨%W5, HO⟩, ⟨P31, #Q31, A1, Hrd1⟩, ⟨P32, #Q32, A2, Hrd2⟩, ⟨P33, #Q33, A3, Hrd3⟩, ⟨P34, #Q34, A4, Hrd4⟩, ⟨P35, #Q35, A5, Hrd5⟩, ⟨P36, #Q36, A6, Hrd6⟩, ⟨P37, #Q37, A7, Hrd7⟩⟩
  iapply (hs l hl (21 + 14 * l) W5) $$ [$]
  iintro ⟨⟨%W6, HO⟩, ⟨P01, #Q01, Hq1⟩, ⟨P02, #Q02, Hq2⟩, ⟨P03, #Q03, Hq3⟩, ⟨P04, #Q04, Hq4⟩, ⟨P05, #Q05, Hq5⟩, ⟨P06, #Q06, Hq6⟩, ⟨P07, #Q07, Hq7⟩⟩
  iapply (ht l hl (21 + 14 * l) W6) $$ [$]
  iintro ⟨⟨%W7, HO⟩, ⟨P21, #Q21, Hp1⟩, ⟨P22, #Q22, Hp2⟩, ⟨P23, #Q23, Hp3⟩, ⟨P24, #Q24, Hp4⟩, ⟨P25, #Q25, Hp5⟩, ⟨P26, #Q26, Hp6⟩, ⟨P27, #Q27, Hp7⟩⟩
  ihave Hacc := (acc_slices c (ACCf m l c)).2 $$ [$]
  iapply (wp_finP m c l hl fullShare (XCf m l c)) $$ [$]
  iintro ⟨Hp0, Hacc, Hxc⟩
  ihave ⟨Ha0, A1, A2, A3, A4, A5, A6, A7⟩ := (acc_slices c (ACCf m l c)).1 $$ Hacc
  ihave Hx0 := (xg_shares c 0 (XGf m l c)).2 $$ [$]
  ihave Hpb := (pb_slots c fullShare (PBf m l c)).2 $$ [$]
  unfold riderLeft
  ihave LO1 := ite_join $$ L1 Hrd1
  ihave LO2 := ite_join $$ L2 Hrd2
  ihave LO3 := ite_join $$ L3 Hrd3
  ihave LO4 := ite_join $$ L4 Hrd4
  ihave LO5 := ite_join $$ L5 Hrd5
  ihave LO6 := ite_join $$ L6 Hrd6
  ihave LO7 := ite_join $$ L7 Hrd7
  iapply Hk
  isplitl [HO]
  · iexists W7; iexact HO
  unfold layerOut
  iframe # ∗

end Cert.KernelProof

end
-- ==== Proof.DevsK.lean ====
import proofs.«900983_g7700000000000984_dist_mlpseq_tp1d_bs_bs_b64_d512_h1024_v7x_i8_f32_1_alg».proof.Proof.ProtoK

namespace Cert.KernelProof

open Cert.Kernel Idealize.ShloMosaic

variable {c : Dev nD} {o : Fin 8} {k : ℕ} {h : k < nD}

-- An index equal to c + o mod 8 names the device o places after c; c + (8 - o) mod 8, the device o places before it.
theorem devP (e : k = (c.val + o.val) % 8) : (⟨k, h⟩ : Dev nD) = peer c o := Fin.ext e
theorem devB (e : k = (c.val + (8 - o.val)) % 8) : (⟨k, h⟩ : Dev nD) = back c o :=
  Fin.ext (e.trans (by show _ = (c.val + 8 - o.val) % 8; omega))

end Cert.KernelProof
-- ==== Proof.BodyRunK.lean ====
import proofs.«900983_g7700000000000984_dist_mlpseq_tp1d_bs_bs_b64_d512_h1024_v7x_i8_f32_1_alg».proof.Proof.LayerK
import proofs.«900983_g7700000000000984_dist_mlpseq_tp1d_bs_bs_b64_d512_h1024_v7x_i8_f32_1_alg».proof.Proof.BodyGlueK
import proofs.«900983_g7700000000000984_dist_mlpseq_tp1d_bs_bs_b64_d512_h1024_v7x_i8_f32_1_alg».proof.Proof.DevsK

noncomputable section

namespace Cert.KernelProof

open Cert.Kernel Cert.Kernel.Gen
open Cert.Kernel.Contents (xc xin)
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem

variable {F : FTy → Type} [FloatOps F]

variable (m : (ℓ : Loc nD τ sig) → Buf (Elt F) ℓ)

-- The argument blocks: the input rows, then each layer's two matrices.
theorem stgIn_split (c : Dev nD) : stgIn m c ⊣⊢ iprop(((c.tc.loc cc0_stg0_0) ↦{fullShare} (xin m c : Buf (Elt F) (c.tc.loc cc0_stg0_0)))
    ∗ stgW m c ⟨0, by decide⟩ ∗ stgW m c ⟨1, by decide⟩ ∗ stgW m c ⟨2, by decide⟩) :=
  sep_congr_right (sep_assoc.symm.trans (sep_congr_right sep_assoc.symm))

-- The body on device c: the signals, the first rows, the barrier wait, three layers, the result; at the end every cell of the device is closed.
theorem body_run (K : Dev nD × CI → ℕ) (c : Dev nD) (W : Waits sig IxT) (g7 : Buf (Elt F) (c.tc.loc cc0_stg7_0)) :
    iprop(ghost m K c ∗ credsOf c ∗ levAts L lv ∗ scratch c ∗ owes c.tc (owedFrom c 0) W
        ∗ stgIn m c ∗ ((c.tc.loc cc0_stg7_0) ↦{fullShare} g7))
      ⊢ wpDev c (myBody (F := F))
          (fun _ => iprop(Φ₁ c ∗ (∃ W', owes c.tc 0 W') ∗ stgIn m c
            ∗ ((c.tc.loc cc0_stg7_0) ↦{fullShare} (xc m 3 c : Buf (Elt F) (c.tc.loc cc0_stg7_0))))) := by
  unfold myBody
  rw [← Prog.bind_pure (outP (F := F))]
  simp only [Prog.lift, Prog.bind_op, Prog.bind_ret, wp_deviceId]
  unfold ghost credsOf scratch
  iintro ⟨⟨#Hrec, PosB, Pos, BT, LT0, LT1, LT2⟩, ⟨CB, LC0, LC1, LC2⟩, #Hlev, ⟨⟨%fxg, Hxg⟩, ⟨%facc, Hacc⟩, ⟨%fxc, Hxc⟩, ⟨%fpb, Hpb⟩, ⟨%fwb, Hwb⟩, ⟨%fwo, Hwo⟩⟩, HO, Hstg, H7⟩
  ihave ⟨S0, SW0, SW1, SW2⟩ := (stgIn_split m c).1 $$ Hstg
  ihave ⟨X0, X1, X2, X3, X4, X5, X6, X7⟩ := (xg_slots c fullShare fxg).1 $$ Hxg
  iapply (wp_sigs m c K _ _ _ _ _ _ _ (devP (k0_dev1_eq c)) (devP (k0_dev2_eq c)) (devP (k0_dev3_eq c)) (devP (k0_dev4_eq c)) (devP (k0_dev5_eq c)) (devP (k0_dev6_eq c)) (devP (k0_dev7_eq c)) W fxg) $$ [$]
  iintro HO
  ihave ⟨A0, A1, A2, A3, A4, A5, A6, A7⟩ := (acc_slices c facc).1 $$ Hacc
  iapply (wp_initP m c fxc facc) $$ [$]
  iintro ⟨S0, Hxc, A0⟩
  iapply (wp_slot0P m c 0 (by decide) fxg) $$ [$]
  iintro ⟨Hxc, X0⟩
  iapply (wp_barWaitStep m K c W) $$ [$]
  iintro ⟨HO, PosB, Hslots⟩
  ihave ⟨Y1, Y2, Y3, Y4, Y5, Y6, Y7⟩ := (barSlots_split c).1 $$ Hslots
  ihave ⟨P1, P2, P3, P4, P5, P6, P7⟩ := (positions_split c 0).1 $$ Pos
  iapply (wp_layer m c K 0 _ 0 (devP (k0_dev8_eq c)) (devP (k0_dev9_eq c)) (devP (k0_dev10_eq c)) (devP (k0_dev11_eq c)) (devP (k0_dev12_eq c)) (devP (k0_dev13_eq c)) (devP (k0_dev14_eq c))
      (devB (k0_dev15_eq c)) (devB (k0_dev16_eq c)) (devB (k0_dev17_eq c)) (devB (k0_dev18_eq c)) (devB (k0_dev19_eq c)) (devB (k0_dev20_eq c)) (devB (k0_dev21_eq c)) _
      (fun o => iprop((∃ fd, xgP (F := F) (peer c o) o fullShare fd) ∗ accP c o facc ∗ pos4 (F := F) c 0 o))
      (fun o ho => by iintro ⟨#R, ⟨Y, A, P⟩, T, C⟩; iapply (layerIn_zero m c K o ho); iframe # ∗; iexists _; iexact A) _ _ _) $$ [$]
  iintro ⟨⟨%W1, HO⟩, X0, Hxc, Hpb, Hwb, Hwo, A0, SW0, O1, O2, O3, O4, O5, O6, O7⟩
  iapply (wp_slot0P m c 1 (by decide) _) $$ [$]
  iintro ⟨Hxc, X0⟩
  iapply (wp_layer m c K 1 _ 0 (devP (k0_dev22_eq c)) (devP (k0_dev23_eq c)) (devP (k0_dev24_eq c)) (devP (k0_dev25_eq c)) (devP (k0_dev26_eq c)) (devP (k0_dev27_eq c)) (devP (k0_dev28_eq c))
      (devB (k0_dev29_eq c)) (devB (k0_dev30_eq c)) (devB (k0_dev31_eq c)) (devB (k0_dev32_eq c)) (devB (k0_dev33_eq c)) (devB (k0_dev34_eq c)) (devB (k0_dev35_eq c)) W1
      (layerOut m c 0)
      (fun o _ => by iintro ⟨-, H⟩; iapply (layerIn_next m c 0 (by decide) o) $$ H) _ _ _) $$ [$]
  iintro ⟨⟨%W2, HO⟩, X0, Hxc, Hpb, Hwb, Hwo, A0, SW1, O1, O2, O3, O4, O5, O6, O7⟩
  iapply (wp_slot0P m c 2 (by decide) _) $$ [$]
  iintro ⟨Hxc, X0⟩
  iapply (wp_layer m c K 2 _ 1 (devP (k0_dev36_eq c)) (devP (k0_dev37_eq c)) (devP (k0_dev38_eq c)) (devP (k0_dev39_eq c)) (devP (k0_dev40_eq c)) (devP (k0_dev41_eq c)) (devP (k0_dev42_eq c))
      (devB (k0_dev43_eq c)) (devB (k0_dev44_eq c)) (devB (k0_dev45_eq c)) (devB (k0_dev46_eq c)) (devB (k0_dev47_eq c)) (devB (k0_dev48_eq c)) (devB (k0_dev49_eq c)) W2
      (layerOut m c 1)
      (fun o _ => by iintro ⟨-, H⟩; iapply (layerIn_next m c 1 (by decide) o) $$ H) _ _ _) $$ [$]
  iintro ⟨⟨%W3, HO⟩, X0, Hxc, Hpb, Hwb, Hwo, A0, SW2, O1, O2, O3, O4, O5, O6, O7⟩
  iapply (wp_outP c (XCf m 3 c) g7) $$ [$]
  iintro ⟨Hxc, H7⟩
  simp only [wpDev, Prog.pure_eq_ret, wp_ret]
  rw [show 21 + 14 * 2 = 49 from rfl, owedFrom_end]
  ihave ⟨X1, A1, P1⟩ := (layerOut_last m c 1) $$ O1
  ihave ⟨X2, A2, P2⟩ := (layerOut_last m c 2) $$ O2
  ihave ⟨X3, A3, P3⟩ := (layerOut_last m c 3) $$ O3
  ihave ⟨X4, A4, P4⟩ := (layerOut_last m c 4) $$ O4
  ihave ⟨X5, A5, P5⟩ := (layerOut_last m c 5) $$ O5
  ihave ⟨X6, A6, P6⟩ := (layerOut_last m c 6) $$ O6
  ihave ⟨X7, A7, P7⟩ := (layerOut_last m c 7) $$ O7
  ihave Pos := (positions_split c 3).2 $$ [$]
  imod (close_cells m K c) $$ [$] with Hz
  imodintro
  ihave Hxg := (xg_slots c fullShare (XGf m 2 c)).2 $$ [$]
  ihave Hacc := (acc_slices c (ACCf m 2 c)).2 $$ [$]
  ihave Hstg := (stgIn_split m c).2 $$ [$]
  unfold Φ₁ scratch XCf
  iframe Hz Hstg H7
  isplitr [HO]
  · isplitl [Hxg]; · iexists _; iexact Hxg
    isplitl [Hacc]; · iexists _; iexact Hacc
    isplitl [Hxc]; · iexists _; iexact Hxc
    isplitl [Hpb]; · iexists _; iexact Hpb
    isplitl [Hwb]; · iexists _; iexact Hwb
    iexists _; iexact Hwo
  iexists _; iexact HO

/-- info: 'Cert.KernelProof.body_run' depends on axioms: [propext, Classical.choice, Quot.sound] -/
#guard_msgs in #print axioms body_run

end Cert.KernelProof

end
-- ==== Proof.OwedCredK.lean ====
import proofs.«900983_g7700000000000984_dist_mlpseq_tp1d_bs_bs_b64_d512_h1024_v7x_i8_f32_1_alg».proof.Proof.OwedK

noncomputable section

namespace Cert.KernelProof

open Cert.Kernel Cert.Kernel.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig IxT (Elt F) ℕ UU ℕ

def payDevInv (c : Dev nD) (p : ℕ) : Dev nD :=
  if p < 7 then back c (offs p) else if (p - 7) % 14 < 7 then back c (offs (p - 7)) else peer c (offs (p - 7))

theorem payDev_inv (p : ℕ) (c : Dev nD) : payDev (payDevInv c p) p = c := by
  unfold payDev payDevInv
  split_ifs <;> first | exact peer_back _ _ | exact back_peer _ _

theorem payDevInv_dev (p : ℕ) (d : Dev nD) : payDevInv (payDev d p) p = d := by
  unfold payDev payDevInv
  split_ifs <;> first | exact peer_back _ _ | exact back_peer _ _

-- Each due goes to a device reached from the payer by a bijection of the devices, so every device is dealt one due of each position.
theorem creds_all (c : Dev nD) :
    (Pipeline.launchCred (fun d => owedFrom d 0) c : sProp 𝕄)
      ⊢ bigSep (Finset.Ico 0 49) fun q => cred (tallyAt (c.tc, paySem q) (payIx q) (payAmt q)) := by
  show (Pipeline.launchCred (fun d => ∑ q ∈ Finset.Ico 0 49, payTally d q) c : sProp 𝕄) ⊢ _
  rw [Pipeline.launchCred_sum (Finset.Ico 0 49) (fun q d => payTally d q) c]
  exact bigSep_mono fun q _ => Pipeline.launchCred_tallyAt (paySem q) (fun d => payDev d q) (fun c => payDevInv c q)
    (payDev_inv q) (payDevInv_dev q) (payIx q) (payAmt q) c

end Cert.KernelProof

end
-- ==== Proof.LaunchK.lean ====
import proofs.«900983_g7700000000000984_dist_mlpseq_tp1d_bs_bs_b64_d512_h1024_v7x_i8_f32_1_alg».proof.Proof.BodyRunK
import proofs.«900983_g7700000000000984_dist_mlpseq_tp1d_bs_bs_b64_d512_h1024_v7x_i8_f32_1_alg».proof.Proof.OwedCredK
import proofs.«900983_g7700000000000984_dist_mlpseq_tp1d_bs_bs_b64_d512_h1024_v7x_i8_f32_1_alg».proof.Proof.Gen.Kernel.Points
import Idealize.ShloMosaic.Lib.Ring

noncomputable section

namespace Cert.KernelProof

open Cert.Kernel Cert.Kernel.Gen
open Cert.Kernel.Contents (xc xin win wout)
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig IxT (Elt F) ℕ UU ℕ

variable (m : (ℓ : Loc nD τ sig) → Buf (Elt F) ℓ) (ρ : Dev nD → PrngReg)

abbrev ι₀ : IxT := (0, 0)

abbrev osem : Fin 4 × Fin 7 → SemLoc sig := fun p => .dma (dmaS p.1 (io p.2))

def dats (_ : Fin 1) (c : Dev nD) : Dat τ (Elt F) IxT ℕ UU ℕ cfg0 c where
  A w := m ((cfg0.win w).arr.view.loc c.tc)
  after w _ := match w with
    | ⟨0, _⟩ => xin m c
    | ⟨1, _⟩ => win m 0 c
    | ⟨2, _⟩ => wout m 0 c
    | ⟨3, _⟩ => win m 1 c
    | ⟨4, _⟩ => wout m 1 c
    | ⟨5, _⟩ => win m 2 c
    | ⟨6, _⟩ => wout m 2 c
    | ⟨7, _⟩ => xc m 3 c
    | ⟨_ + 8, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => owedFrom c 0
    | ⟨_ + 1, _⟩ => 0

theorem ownSemFacts : Pipeline.OwnSemFacts cfg0.spec osem := by decide

theorem share_eq (c : Dev nD) (w : Fin cfg0.W) : (dats m 0 c).share w = fullShare := by unfold Dat.share; split <;> rfl

theorem dmaS_inj {f f' : Fin 4} {o o' : Fin 8} (h : dmaS f o = dmaS f' o') : f = f' ∧ o = o' := by
  have h5 : 8 + 8 * f.val + o.val = 8 + 8 * f'.val + o'.val := congrArg Fin.val h
  exact ⟨Fin.ext (by omega), Fin.ext (by omega)⟩

theorem io_cancel {i i' : Fin 7} (h : io i = io i') : i = i' := Fin.ext (Nat.succ.inj (congrArg Fin.val h))

theorem kcell_injective : Function.Injective (kcell : Dev nD × CI → GSem nD τ sig) := by
  rintro ⟨c, k⟩ ⟨c', k'⟩ h
  obtain rfl : c = c' := by cases k <;> cases k' <;> exact congrArg (fun g : GSem nD τ sig => g.1.1) h
  have h2 : (kcell (c, k)).2 = (kcell (c, k')).2 := congrArg Prod.snd h
  rcases k with _ | p <;> rcases k' with _ | p'
  · rfl
  · cases h2
  · cases h2
  · have h4 : p.1 = p'.1 ∧ io p.2 = io p'.2 := dmaS_inj (SemLoc.dma.inj h2)
    rw [Prod.ext h4.1 (io_cancel h4.2)]

def ringCells : Finset (GSem nD τ sig) := Finset.univ.map ⟨kcell, kcell_injective⟩

abbrev TI : Type := Fin 7 ⊕ (Fin 3 × Fin 7 × Fin 4)
def tokOf : Dev nD × TI → GSem nD τ sig × ℕ × Dy
  | (c, .inl i) => (kcell (c, none), 0, io i)
  | (c, .inr (l, i, f)) => (kcell (c, some (f, i)), l.val, 0)

theorem tokOf_injective : Function.Injective (tokOf : Dev nD × TI → GSem nD τ sig × ℕ × Dy) := by
  rintro ⟨c, i | ⟨l, i, f⟩⟩ ⟨c', i' | ⟨l', i', f'⟩⟩ h <;> simp only [tokOf, Prod.mk.injEq] at h <;> cases kcell_injective h.1
  · rw [io_cancel h.2.2]
  · rw [Fin.ext h.2.1]

def ringToks : Finset (GSem nD τ sig × ℕ × Dy) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun j : TI => dutyTok (ER (F := F)) (tokOf (c, j)).1 (tokOf (c, j)).2.1 (tokOf (c, j)).2.2

-- Φ at each of the cells of device c.
def over (Φ : GSem nD τ sig → sProp 𝕄) (c : Dev nD) : sProp 𝕄 := bigSep Finset.univ fun k : CI => Φ (kcell (c, k))

theorem over_all (Φ : GSem nD τ sig → sProp 𝕄) :
    (bigSep Finset.univ fun c : Dev nD => over Φ c) = bigSep Finset.univ fun ck : Dev nD × CI => Φ (kcell ck) := by
  unfold over; rw [bigSep_univ_prod]

def G (c : Dev nD) : sProp 𝕄 :=
  iprop(over (roundState ER (Rd m) · 0) c ∗ over (atPos (ER (F := F)) · 0 ∅ 0) c ∗ over (reached (ER (F := F)) · 0) c ∗ toks c)

def H (c : Dev nD) : sProp 𝕄 :=
  iprop(over (fun g => iprop(∃ κ : ℕ, cellInv ER (Rd m) κ g)) c ∗ over (atPos (ER (F := F)) · 0 ∅ 0) c ∗ over (reached (ER (F := F)) · 0) c ∗ toks c)

def G' (c : Dev nD) : sProp 𝕄 := iprop(∃ K, ghost m K c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ (over Φ) := (bigSep_map _).trans (over_all Φ).symm
  have hT : bigSep ringToks (fun x => (dutyTok (ER (F := F)) x.1 x.2.1 x.2.2 : sProp 𝕄)) = bigSep Finset.univ fun c : Dev nD => toks c := by
    unfold ringToks; rw [bigSep_map, bigSep_univ_prod]; rfl
  have h := Rounds.fund (ER (F := F)) (Rd m) ringCells ringToks
  rw [hX, hX, hX, hT] at h
  iintro HX
  imod h $$ HX with ⟨Hst, Hr, Hat, Htok⟩
  imodintro
  unfold G; simp only [bigSep_sep']
  iframe

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_CI (Φ : CI → sProp 𝕄) :
    bigSep Finset.univ Φ = iprop((bigSep Finset.univ fun p : Fin 4 × Fin 7 => Φ (some p)) ∗ Φ none) := by
  rw [bigSep_univ_equiv (Equiv.optionEquivSumPUnit.{0, 0} (Fin 4 × Fin 7)).symm Φ, bigSep_univ_sum,
    bigSep_univ_of_subsingleton PUnit.unit]
  rfl

def peerE (o : Fin 8) : Dev nD ≃ Dev nD := ⟨fun c => peer c o, fun c => back c o, fun c => back_peer c o, fun c => peer_back c o⟩

-- A family indexed by device and by i, re-dealt along a bijection of the devices for each i.
theorem deal {I : Type} [Fintype I] (B : Dev nD → I → sProp 𝕄) (e : I → Dev nD ≃ Dev nD) :
    (bigSep Finset.univ fun c : Dev nD => bigSep Finset.univ fun i : I => B c i)
      = bigSep Finset.univ fun c : Dev nD => bigSep Finset.univ fun i : I => B (e i c) i := by
  rw [bigSep_univ_comm, bigSep_univ_comm (fun (c : Dev nD) (i : I) => B (e i c) i)]
  exact bigSep_congr fun i _ => bigSep_univ_equiv (e i) (fun c => B c i)

-- The device that pays the duty of a token minted for a device's own cell.
def payer : TI → Dev nD ≃ Dev nD
  | .inl i => peerE (io i)
  | .inr (_, i, 1) => peerE (io i)
  | .inr (_, i, 3) => (peerE (io i)).symm
  | .inr _ => Equiv.refl _

def payToks (c : Dev nD) : sProp 𝕄 := iprop(barToks c ∗ layerToks c 0 ∗ layerToks c 1 ∗ layerToks c 2)

theorem toks_around : (bigSep Finset.univ fun c : Dev nD => (toks c : sProp 𝕄)) = bigSep Finset.univ fun c : Dev nD => payToks c := by
  unfold toks
  rw [deal _ payer]
  refine bigSep_congr fun c _ => ?_
  rw [bigSep_univ_sum, bigSep_univ_prod, Ring.bigSep_fin3]
  unfold payToks barToks layerToks
  simp only [bigSep_univ_prod, bigSep_fin4]
  rfl

abbrev own0 (c : Dev nD) : sProp 𝕄 := Pipeline.ownSems0 (Ix := IxT) (Name := ℕ) (U := UU) (Lvl := ℕ) (Val := Elt F) (τ := τ) osem c

theorem own0_eq (c : Dev nD) : (own0 c : sProp 𝕄) = bigSep Finset.univ fun p : Fin 4 × Fin 7 => semVal (dmaCell c p.1 (io p.2)) 0 := rfl

theorem sems0_eq (c : Dev nD) :
    iprop(own0 c ∗ unscopedSems0 c) ⊢ (over (semVal · 0) c : sProp 𝕄) := by
  have h : (unscopedSems0 c : sProp 𝕄) = semVal (barCell c) 0 := by
    unfold unscopedSems0; rw [bigSep_eq_bigSepL_of_eq [SemLoc.reg barS] (by decide) (by decide)]; rfl
  unfold over; rw [h, bigSep_CI]
  exact .rfl

theorem core_alloc (c : Dev nD) :
    iprop(own0 c ∗ unscopedSems0 c ∗ G m c) ⊢ |={Set.univ}=> H m c := by
  unfold G H
  iintro ⟨Hos, Hus, Hst, Hat, Hr, Htok⟩
  ihave Hv := (sems0_eq (F := F) c) $$ [Hos Hus]
  · iframe
  imod (show iprop(over (semVal · 0) c ∗ over (roundState ER (Rd m) · 0) c)
      ⊢ (|={Set.univ}=> over (fun g => iprop(∃ κ : ℕ, cellInv ER (Rd m) κ g)) c : sProp 𝕄) from by
        unfold over; rw [← bigSep_sep']
        exact (bigSep_mono fun k _ => (Rounds.body_intro ER (Rd m) (kcell (c, k))).trans inv_alloc).trans (bigSep_fupd _ _)) $$ [Hv Hst] with Hinv
  · iframe
  imodintro
  iframe

def linear (c : Dev nD) : sProp 𝕄 :=
  iprop(over (atPos (ER (F := F)) · 0 ∅ 0) c ∗ payToks c)

theorem ghost_intro (K : Dev nD × CI → ℕ) (c : Dev nD) : iprop(records m K ∗ linear c) ⊢ G' m c := by
  unfold linear payToks G' ghost positions over
  rw [bigSep_CI]
  iintro ⟨#HR, ⟨HaD, HaB⟩, HtB, Ht0, Ht1, Ht2⟩
  iexists K
  iframe # ∗
  isplitl [HaB]
  · iexact HaB
  · iexact HaD

theorem regroup : (bigSep Finset.univ fun c : Dev nD => H m c : sProp 𝕄) ⊢ bigSep Finset.univ (G' m) := by
  unfold H
  rw [bigSep_sep', bigSep_sep', bigSep_sep', over_all, over_all (reached (ER (F := F)) · 0), toks_around]
  iintro ⟨HI, Hat, #HR, Htok⟩
  ihave HK := (BI.bigSep_exists_pi Finset.univ (fun (ck : Dev nD × CI) (κ : ℕ) => (cellInv ER (Rd m) κ (kcell ck) : sProp 𝕄))) $$ HI
  icases HK with ⟨%K, #HI⟩
  iapply (bigSep_with_persistent (R := records m K) fun c _ => ghost_intro m K c)
  isplitr
  · unfold records; iframe #
  · unfold linear; rw [bigSep_sep']; iframe

theorem glob : (bigSep Finset.univ fun c => iprop(own0 c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def start (c : Dev nD) : sProp 𝕄 := iprop((∃ K, ghost m K c) ∗ credsOf c ∗ levAts L lv)

-- The credit of the due at position q, on the cell, round and amount that due names.
theorem cred_of_pay (c : Dev nD) {q q' : ℕ} {t : Thread nD τ} {s : SemLoc sig} {ι : IxT} {n : ℕ} (hq : q = q') (h : payCell c q' = ((t, s), ι, n)) :
    (cred (tallyAt (c.tc, paySem q) (payIx q) (payAmt q)) : sProp 𝕄) = cred (tallyAt (c.tc, s) ι n) := by
  subst hq
  rw [show paySem q = s from congrArg (fun y : GSem nD τ sig × IxT × ℕ => y.1.2) h,
    show payIx q = ι from congrArg (fun y : GSem nD τ sig × IxT × ℕ => y.2.1) h,
    show payAmt q = n from congrArg (fun y : GSem nD τ sig × IxT × ℕ => y.2.2) h]

-- The 49 positions are seven signals, then for each of three layers seven gathers and seven scatters.
theorem credsOf_intro (c : Dev nD) : (Pipeline.launchCred (fun d => owedFrom d 0) c : sProp 𝕄) ⊢ credsOf c := by
  refine (creds_all c).trans (Entails.of_eq ?_)
  rw [← Finset.range_eq_Ico, ← Ring.bigSep_fin_eq_range 49 (fun q : Fin 49 => cred (tallyAt (c.tc, paySem q.val) (payIx q.val) (payAmt q.val))) _ (fun _ _ => rfl),
    bigSep_univ_equiv (finSumFinEquiv (m := 7) (n := 42)), bigSep_univ_sum,
    bigSep_univ_equiv (finProdFinEquiv (m := 3) (n := 14)) (fun j : Fin 42 => _), bigSep_univ_prod]
  unfold credsOf
  rw [show iprop(layerCreds c 0 ∗ layerCreds c 1 ∗ layerCreds c 2) = bigSep Finset.univ fun l : Fin 3 => layerCreds c l.val from (Ring.bigSep_fin3 fun l : Fin 3 => layerCreds c l.val).symm,
    show (tallyAt (barCell c) ((0, 0) : IxT) 7 : CellTallies nD τ sig IxT) = ∑ _a : Fin 7, tallyAt (barCell c) (0, 0) 1 from by
      simp only [Fin.sum_univ_seven, tallyAt_add], Pipeline.cred_finsetSum]
  refine congrArg₂ BI.sep (bigSep_congr fun a _ => cred_of_pay c (show a.val = a.val + 1 - 1 from rfl) (pay_signal c (io a) (io_ne a)))
    (bigSep_congr fun l _ => ?_)
  unfold layerCreds
  rw [bigSep_univ_equiv (finSumFinEquiv (m := 7) (n := 7)), bigSep_univ_sum, bigSep_sep']
  exact congrArg₂ BI.sep
    (bigSep_congr fun i _ => cred_of_pay c (show 7 + (i.val + 14 * l.val) = _ + (i.val + 1 - 1) by omega) (pay_gather c l.val l.isLt (io i) (io_ne i)))
    (bigSep_congr fun i _ => cred_of_pay c (show 7 + (7 + i.val + 14 * l.val) = _ + (i.val + 1 - 1) by omega) (pay_scatter c l.val l.isLt (io i) (io_ne i)))

theorem start_intro (c : Dev nD) :
    iprop(Pipeline.unscopedRestP Pipeline.Prefetch.none cfg0.spec c (fun b => m (c.tc.loc b)) ∗ levAts L lv
        ∗ Pipeline.launchCred (fun d => owedFrom d 0) c ∗ prngReg c (ρ c) ∗ G' m c)
      ⊢ |={Set.univ}=> iprop(start m c ∗ emp) := by
  iintro ⟨-, Hlev, Hcr, -, HG⟩
  ihave Hc := (credsOf_intro (F := F) c) $$ Hcr
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start scratch
  iintro ⟨⟨HG, Hc, Hlev⟩, -, Hs⟩
  iframe

theorem phi1_exit (c : Dev nD) :
    (dats m 0 c).Φ (Fin.last cfg0.N) ⊢ iprop(emp ∗ own0 c ∗ Pipeline.scopedRest cfg0.spec c) := by
  rw [show (dats m 0 c).Φ (Fin.last cfg0.N) = Φ₁ c from rfl, scopedRest0_eq, own0_eq]
  unfold Φ₁ scratch
  iintro ⟨Hs, Hz⟩
  isplitr; · iempintro
  isplitl [Hz]
  · iexact Hz
  · iexact Hs

theorem waits (c : Dev nD) : (levAts L lv : sProp 𝕄) ⊢ Pipeline.cellsWaits cfgs (dats m) ι₀ 0 c :=
  Pipeline.cellsWaits_intro cfgs (dats m) ι₀ 0 c fun w s t => by
    rcases t with ⟨_ | n, ht⟩
    · exact mayWait_low c _ (by fin_cases w <;> fin_cases s <;> decide) ι₀ (by decide) 0
    · show _ ⊢ MayWait _ _ _ (0 : CellTallies nD τ sig IxT)
      rw [MayWait_zero]; iintro -; iempintro

abbrev stg (c : Dev nD) (b : Ref sig .tc) (X : b.ty.Contents (Elt F)) : sProp 𝕄 := (c.tc.loc b) ↦{fullShare} X

-- Reading a whole array through the single block that covers it returns the array.
theorem read_one_blk (b : Ref sig .tc) (f : b.ty.Contents (Elt F))
    (inb : ∀ a, (fun a => 0 * b.ty.shape.size a) a + b.ty.shape.size a ≤ b.ty.shape.size a) :
    ((Memref.whole b).access (Rect.unit (fun a => 0 * b.ty.shape.size a) b.ty.shape.size inb) : View sig .tc _ _ _).read (Elt F) f = f :=
  Memref.read_access_unit_zero (Elt F) b (funext fun a => Nat.zero_mul _) inb f

theorem before_in0 (c : Dev nD) (d) : (dats m 0 c).before (0 : Fin 8) t0_0 d = xin m c := by
  unfold Dat.before
  rw [if_pos (fetch0_0 t0_0)]
  show ((cfg0.win 0).blk t0_0).view.read (Elt F) (m (c.tc.loc main_arg0)) = _
  exact read_one_blk main_arg0 _ _
theorem before_in1 (c : Dev nD) (d) : (dats m 0 c).before (1 : Fin 8) t0_0 d = win m 0 c := by
  unfold Dat.before
  rw [if_pos (fetch0_1 t0_0)]
  show ((cfg0.win 1).blk t0_0).view.read (Elt F) (m (c.tc.loc main_arg1)) = _
  exact read_one_blk main_arg1 _ _
theorem before_in2 (c : Dev nD) (d) : (dats m 0 c).before (2 : Fin 8) t0_0 d = wout m 0 c := by
  unfold Dat.before
  rw [if_pos (fetch0_2 t0_0)]
  show ((cfg0.win 2).blk t0_0).view.read (Elt F) (m (c.tc.loc main_arg2)) = _
  exact read_one_blk main_arg2 _ _
theorem before_in3 (c : Dev nD) (d) : (dats m 0 c).before (3 : Fin 8) t0_0 d = win m 1 c := by
  unfold Dat.before
  rw [if_pos (fetch0_3 t0_0)]
  show ((cfg0.win 3).blk t0_0).view.read (Elt F) (m (c.tc.loc main_arg3)) = _
  exact read_one_blk main_arg3 _ _
theorem before_in4 (c : Dev nD) (d) : (dats m 0 c).before (4 : Fin 8) t0_0 d = wout m 1 c := by
  unfold Dat.before
  rw [if_pos (fetch0_4 t0_0)]
  show ((cfg0.win 4).blk t0_0).view.read (Elt F) (m (c.tc.loc main_arg4)) = _
  exact read_one_blk main_arg4 _ _
theorem before_in5 (c : Dev nD) (d) : (dats m 0 c).before (5 : Fin 8) t0_0 d = win m 2 c := by
  unfold Dat.before
  rw [if_pos (fetch0_5 t0_0)]
  show ((cfg0.win 5).blk t0_0).view.read (Elt F) (m (c.tc.loc main_arg5)) = _
  exact read_one_blk main_arg5 _ _
theorem before_in6 (c : Dev nD) (d) : (dats m 0 c).before (6 : Fin 8) t0_0 d = wout m 2 c := by
  unfold Dat.before
  rw [if_pos (fetch0_6 t0_0)]
  show ((cfg0.win 6).blk t0_0).view.read (Elt F) (m (c.tc.loc main_arg6)) = _
  exact read_one_blk main_arg6 _ _

theorem before_out7 (c : Dev nD) (d) : (dats m 0 c).before (7 : Fin 8) t0_0 d = d := by
  unfold Dat.before
  rw [if_neg (by decide), if_pos (show (t0_0 : Fin cfg0.N).val = 0 from rfl)]

def bodyPost (c : Dev nD) : sProp 𝕄 :=
  iprop(Φ₁ c ∗ (dats m 0 c).owesAt ι₀ t0_0.succ
    ∗ stg c cc0_stg0_0 (xin m c) ∗ stg c cc0_stg1_0 (win m 0 c) ∗ stg c cc0_stg2_0 (wout m 0 c) ∗ stg c cc0_stg3_0 (win m 1 c)
    ∗ stg c cc0_stg4_0 (wout m 1 c) ∗ stg c cc0_stg5_0 (win m 2 c) ∗ stg c cc0_stg6_0 (wout m 2 c) ∗ stg c cc0_stg7_0 (xc m 3 c))

theorem owesAt_succ_intro (c : Dev nD) (W' : Waits sig IxT) :
    (owes c.tc 0 W' : sProp 𝕄) ⊢ (dats m 0 c).owesAt ι₀ t0_0.succ := by
  show _ ⊢ Pipeline.owesWithin c (0 : CellTallies nD τ sig IxT) _
  unfold Pipeline.owesWithin
  iintro HO
  iexists W'
  iframe
  ipureintro; exact fun _ _ => Or.inl trivial

theorem post_entails (c : Dev nD) :
    iprop(Φ₁ c ∗ (∃ W', owes c.tc 0 W') ∗ stgIn m c
        ∗ stg c cc0_stg7_0 (xc m 3 c)) ⊢ bodyPost m c := by
  unfold bodyPost stgIn
  iintro ⟨HΦ, ⟨%W', HO⟩, ⟨H0, H1, H2, H3, H4, H5, H6⟩, H7⟩
  ihave HO := (owesAt_succ_intro m c W') $$ HO
  iframe

theorem body_obligation (c : Dev nD) : BodyObligation (dats (F := F) m 0 c) (defs₀ (F := F)) 𝒱₀ ι₀ Set.univ := fun t => by
  rw [fin_N0 t, bigSep_W0, bigSep_W0]
  simp only [owns_whole]
  show iprop(Φ₀ m c ∗ Pipeline.owesWithin c (owedFrom c 0) _ ∗ _) ⊢ wp frame _ Set.univ (bodyAt0 t0_0) (fun _ => bodyPost m c)
  rw [show bodyAt0 (F := F) t0_0 = myBody from body_eq]
  unfold Φ₀ Pipeline.owesWithin
  simp only [before_in0, before_in1, before_in2, before_in3, before_in4, before_in5, before_in6, before_out7]
  iintro ⟨⟨⟨%K, Hg⟩, Hc, Hlev, Hscr⟩, ⟨%W, -, Ho⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run m K c W d7).trans (wp_mono _ _ _ fun _ => post_entails m c))
  unfold stgIn
  iframe

theorem run_arrays : θ_run defs (onTc (τ := τ) (main (F := F))) ⟨m, fun _ => 0, ρ⟩ (fun r => ∀ c : Dev nD, ∀ w : Fin cfg0.W,
    r.2.mem ((cfg0.win w).arr.view.loc c.tc) = (dats m 0 c).arrAt w cfg0.N) :=
  Pipeline.θ_run_region_owing_glob_pf (fun p => (cfgs p).toPCfg) (fun p => (cfgs p).toPCfg_adm) (dats m) ι₀ cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owedFrom d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      iframe)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

theorem finalA_out (c : Dev nD) : (dats m 0 c).arrAt (7 : Fin 8) cfg0.N = xc m 3 c := by
  show (dats m 0 c).arrAt 7 (t0_0.val + 1) = _
  rw [(dats (F := F) m 0 c).arrAt_succ (7 : Fin 8) t0_0, if_pos (flush0_7 t0_0)]
  exact Memref.write_access_unit_zero_univ (Elt F) main_v1 (funext fun a => Nat.zero_mul _) _ _ _

theorem run_main : θ_run defs (onTc (τ := τ) (main (F := F))) ⟨m, fun _ => 0, ρ⟩ (fun r => ∀ c : Dev nD,
      r.2.mem (c.tc.loc main_v1) = xc m 3 c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) :=
  have hin (c : Dev nD) (w : Fin cfg0.W) (h : (cfg0.win w).isOut = false) := (dats (F := F) m 0 c).arrAt_in w h cfg0.N
  (θ_run defs _ _).mono (fun _ h c => ⟨(h c 7).trans (finalA_out m c),
      (h c 0).trans (hin c 0 rfl), (h c 1).trans (hin c 1 rfl), (h c 2).trans (hin c 2 rfl),
      (h c 3).trans (hin c 3 rfl), (h c 4).trans (hin c 4 rfl), (h c 5).trans (hin c 5 rfl),
      (h c 6).trans (hin c 6 rfl)⟩) (run_arrays m ρ)

end Cert.KernelProof

end
-- ==== Proof.Spec.lean ====
import Idealize.ShloMosaic.PureOps.Ideal
import Idealize.ShloMosaic.Lib.ValueIdx
import Idealize.ShloMosaic.Lib.Layout
import Mathlib.Logic.Equiv.Fin.Basic
import Mathlib.Algebra.BigOperators.Fin

noncomputable section

namespace Cert.Spec

open Idealize.ShloMosaic Idealize.ShloMosaic.ValueIdx

abbrev Arr (n0 n1 : Nat) : Type := (⟨⟨2, ![n0, n1]⟩, .f32⟩ : BufTy).Contents (Elt Ideal)

-- One layer, max (X · Win) 0 · Wout, on m rows through h hidden entries.
def layer {m h : ℕ} (X : Arr m 512) (Win : Arr 512 h) (Wout : Arr h 512) : Arr m 512 :=
  fun i => ∑ k : Fin h, max (∑ a : Fin 512, X (ix2 (i 0) a) * Win (ix2 a k)) 0 * Wout (ix2 k (i 1))

def mlp3 (X : Arr 512 512) (W0 : Arr 512 8192) (O0 : Arr 8192 512) (W1 : Arr 512 8192) (O1 : Arr 8192 512)
    (W2 : Arr 512 8192) (O2 : Arr 8192 512) : Arr 512 512 :=
  layer (layer (layer X W0 O0) W1 O1) W2 O2

-- What device c holds of the whole arrays: 64 rows of X, 1024 columns of Win, 1024 rows of Wout.
abbrev rows (c : Fin 8) (X : Arr 512 512) : Arr 64 512 := Layout.block ⟨2, ![64, 512]⟩ ⟨2, ![512, 512]⟩ 0 8 c X
abbrev cols (c : Fin 8) (W : Arr 512 8192) : Arr 512 1024 := Layout.block ⟨2, ![512, 1024]⟩ ⟨2, ![512, 8192]⟩ 1 8 c W
abbrev hid (c : Fin 8) (O : Arr 8192 512) : Arr 1024 512 := Layout.block ⟨2, ![1024, 512]⟩ ⟨2, ![8192, 512]⟩ 0 8 c O

theorem sum_hidden {M : Type*} [AddCommMonoid M] (f : Fin 8192 → M) :
    ∑ k, f k = ∑ d : Fin 8, ∑ k' : Fin 1024, f ⟨d.val * 1024 + k'.val, by omega⟩ := by
  refine ((Equiv.sum_comp (finProdFinEquiv (m := 8) (n := 1024)) f).symm.trans (Fintype.sum_prod_type _)).trans
    (Finset.sum_congr rfl fun d _ => Finset.sum_congr rfl fun k' _ => congrArg f (Fin.ext ?_))
  show k'.val + 1024 * d.val = d.val * 1024 + k'.val
  omega

theorem idx_ext {n0 n1 : ℕ} {u v : (⟨2, ![n0, n1]⟩ : Shape).Idx} (h0 : (u 0).val = (v 0).val) (h1 : (u 1).val = (v 1).val) :
    u = v :=
  funext fun b => Fin.ext (by match b with | ⟨0, _⟩ => exact h0 | ⟨1, _⟩ => exact h1)

-- Cutting the hidden sum into its 8 runs regroups a finite sum: device c's rows of a layer are the sum of the 8 partial layers.
theorem layer_block (X : Arr 512 512) (Win : Arr 512 8192) (Wout : Arr 8192 512) (c : Fin 8) (i : (⟨2, ![64, 512]⟩ : Shape).Idx) :
    rows c (layer X Win Wout) i = ∑ d : Fin 8, layer (rows c X) (cols d Win) (hid d Wout) i := by
  simp only [layer, Layout.block_apply]
  refine (sum_hidden _).trans (Finset.sum_congr rfl fun d _ => Finset.sum_congr rfl fun k _ => ?_)
  exact congrArg₂ (max · 0 * ·)
    (Finset.sum_congr rfl fun a _ => congrArg₂ (· * ·) (congrArg X (idx_ext rfl rfl)) (congrArg Win (idx_ext rfl rfl)))
    (congrArg Wout (idx_ext rfl rfl))

end Cert.Spec

end
-- ==== Proof.PayIdx.lean ====
import proofs.«900983_g7700000000000984_dist_mlpseq_tp1d_bs_bs_b64_d512_h1024_v7x_i8_f32_1_alg».proof.Proof.Gen.KernelIdeal.Skeleton
import Idealize.ShloMosaic.Lib.StackMember
import Idealize.ShloMosaic.Lib.IdealHost

noncomputable section

namespace Cert.KernelIdeal.PayIdx

open Idealize.ShloMosaic Idealize.ShloMosaic.ValueIdx Idealize.ShloMosaic.StackMember Cert.KernelIdeal Cert.KernelIdeal.Gen

-- A product into the zero accumulator is the plain product: at (p, q) the sum over the contracted coordinate.
theorem mm_apply {m k n : ℕ} {φ : FTy} (x : FVec Ideal ⟨2, ![m, k]⟩ φ) (w : FVec Ideal ⟨2, ![k, n]⟩ .bf16) (p : Fin m) (q : Fin n) :
    matmul (DotDims.plain m k n) none x w (constant _ .f32 0x00000000#32) (ix2 p q) = ∑ a : Fin k, x (ix2 p a) * w (ix2 a q) :=
  (congrFun (matmul_zero_eq_dotGeneral _ none x w) _).trans (dotGeneral_plain_apply none x w p q)

-- The block payload: both products are plain, the floor is zero and the casts keep every value.
theorem pay11_apply (x : Vec Ideal S128x512 .bf16) (w : Vec Ideal S512x1024 .bf16) (wo : Vec Ideal S1024x512 .bf16) (i : S128x512.Idx) :
    k0_pay11 (F := Ideal) (k0_pay9 x w) k0_pay10 wo i
      = ∑ k : Fin 1024, max (∑ a : Fin 512, x (ix2 (i 0) a) * w (ix2 a k)) 0 * wo (ix2 k (i 1)) := by
  obtain ⟨p, q, rfl⟩ : ∃ p q, i = ix2 p q := ⟨_, _, eq_ix2 i⟩
  unfold k0_pay11 k0_pay9
  rw [shapeCast_self]
  exact (mm_apply (maximumf (matmul _ none x w _) (k0_pay10 (F := Ideal))) wo p q).trans (Finset.sum_congr rfl fun k _ =>
    congrArg₂ (max · · * _) (mm_apply (φ := .bf16) x w p k) Ideal.ofBits_zero_f32)

-- The end-of-layer payload adds to its first operand the sum of the second's eight leading slices.
theorem pay1_apply (v : Vec Ideal S64x512 .bf16) (acc : Vec Ideal S8x64x512 .bf16) (i : S64x512.Idx) :
    k0_pay1 (F := Ideal) v acc i = v i + ∑ o : Fin 8, acc (ix3 o (i 0) (i 1)) := by
  unfold k0_pay1
  rw [shapeCast_self]
  refine congrArg (v i + ·) ((Ideal.multiReduction_add_single _ _ reduces_S8x64x512_S64x512 (.inl rfl) rfl i).trans
    (Finset.sum_congr rfl fun o _ => congrArg acc (funext fun a => Fin.ext ?_)))
  match a with | ⟨0, _⟩ | ⟨1, _⟩ | ⟨2, _⟩ => rfl

theorem pay2_eq (v : Vec Ideal S64x512 .f32) : k0_pay2 (F := Ideal) v = v := by
  simp only [k0_pay2, shapeCast_self]
theorem pay4_eq (v : Vec Ideal S64x512 .f32) : k0_pay4 (F := Ideal) v = v := by
  simp only [k0_pay4, shapeCast_self]; rfl
theorem pay5_eq (v : Vec Ideal S512x1024 .f32) : k0_pay5 (F := Ideal) v = v := by
  simp only [k0_pay5, shapeCast_self]; rfl
theorem pay6_eq (v : Vec Ideal S1024x512 .f32) : k0_pay6 (F := Ideal) v = v := by
  simp only [k0_pay6, shapeCast_self]; rfl
theorem pay3_eq : (k0_pay3 (F := Ideal)) = fun _ => (0 : EReal) :=
  funext fun _ => Ideal.ofBits_zero_bf16

end Cert.KernelIdeal.PayIdx

end
-- ==== Proof.Value.lean ====
import proofs.«900983_g7700000000000984_dist_mlpseq_tp1d_bs_bs_b64_d512_h1024_v7x_i8_f32_1_alg».proof.Proof.Contents
import proofs.«900983_g7700000000000984_dist_mlpseq_tp1d_bs_bs_b64_d512_h1024_v7x_i8_f32_1_alg».proof.Proof.Spec
import proofs.«900983_g7700000000000984_dist_mlpseq_tp1d_bs_bs_b64_d512_h1024_v7x_i8_f32_1_alg».proof.Proof.PayIdx

noncomputable section

namespace Cert.Value

open Idealize.ShloMosaic Idealize.SL.Sem Idealize.ShloMosaic.ValueIdx Cert.KernelIdeal Cert.KernelIdeal.Gen Cert.KernelIdeal.PayIdx Cert.Spec
  Cert.KernelIdeal.Contents

variable (m : (ℓ : Loc nD τ sig) → Buf (Elt Ideal) ℓ)

theorem toSlot_eq : ∀ (l : Fin 3) (x : Vec Ideal S64x512 .f32), toSlot (F := Ideal) l x = x
  | ⟨0, _⟩, x | ⟨1, _⟩, x | ⟨2, _⟩, x => pay4_eq x

theorem wb_eq : ∀ (l : Fin 3) (c : Dev nD), wb m l c = win m l c
  | ⟨0, _⟩, _ | ⟨1, _⟩, _ | ⟨2, _⟩, _ => pay5_eq _

theorem wob_eq : ∀ (l : Fin 3) (c : Dev nD), wob m l c = wout m l c
  | ⟨0, _⟩, _ | ⟨1, _⟩, _ | ⟨2, _⟩, _ => pay6_eq _

-- All twelve block payloads are one function of their three operands: a layer on 128 rows through 1024 hidden entries.
theorem blk_eq (l : Fin 3) (b : Fin 4) (x : Vec Ideal S128x512 .bf16) (w : Vec Ideal S512x1024 .bf16)
    (wo : Vec Ideal S1024x512 .bf16) : blk (F := Ideal) l b x w wo = layer x w wo := by
  fin_cases l <;> fin_cases b <;> exact funext (pay11_apply x w wo)

theorem next_apply : ∀ (l : Fin 3) (v : Vec Ideal S64x512 .bf16) (acc : Vec Ideal S8x64x512 .bf16) (i : S64x512.Idx),
    next (F := Ideal) l v acc i = v i + ∑ o : Fin 8, acc (ix3 o (i 0) (i 1))
  | ⟨0, _⟩, v, acc, i | ⟨1, _⟩, v, acc, i | ⟨2, _⟩, v, acc, i => pay1_apply v acc i

theorem blkRow_blkOf (r : Fin 512) : blkRow (blkOf r) (inBlk r) = r :=
  Fin.ext (Nat.div_add_mod r.val 128)

theorem slotOf_rowOf (o : Fin 8) (r : Fin 64) : slotOf (rowOf o r) = o :=
  Fin.ext (by have := r.isLt; show (64 * o.val + r.val) / 64 = o.val; omega)

theorem inSlot_rowOf (o : Fin 8) (r : Fin 64) : inSlot (rowOf o r) = r :=
  Fin.ext (by have := r.isLt; show (64 * o.val + r.val) % 64 = r.val; omega)

-- Slot o of device d's product buffer is the layer of the rows of the device o places before d through d's own hidden run.
theorem pbAt_slot (l : Fin 3) (d : Dev nD) (o : Fin 8) (r : Fin 64) (j : Fin 512) :
    pbAt m l.val d (rowOf o r) j = layer (xc m l.val (back d o)) (win m l d) (wout m l d) (ix2 r j) := by
  rw [pbAt, dif_pos l.isLt, blk_eq]
  show layer _ (wb m l d) (wob m l d) _ = _
  rw [wb_eq, wob_eq]
  unfold layer
  refine Finset.sum_congr rfl fun k _ => ?_
  congr 2
  refine Finset.sum_congr rfl fun a _ => ?_
  congr 1
  show xgAt m l.val d (blkRow (blkOf (rowOf o r)) (inBlk (rowOf o r))) a = _
  rw [blkRow_blkOf, xgAt, dif_pos l.isLt, toSlot_eq, slotOf_rowOf, inSlot_rowOf]
  rfl

theorem back_zero (c : Dev nD) : back c 0 = c := by revert c; decide

-- Every device once: device c itself and, for o = 1 … 7, the device o places after it.
theorem ring_sum {M : Type*} [AddCommMonoid M] (g : Fin 8 → M) (c : Fin 8) :
    ∑ d, g d = g c + ∑ o : Fin 8, if o = 0 then 0 else g (peer c o) := by
  rw [← Equiv.sum_comp (Equiv.addLeft c) g, Fin.sum_univ_succ,
    Fin.sum_univ_succ (fun o : Fin 8 => if o = 0 then 0 else g (peer c o)), if_pos rfl, zero_add]
  exact congrArg (g · + _) (add_zero c)

-- One layer keeps the invariant: device c's current rows are rows 64 c … of a whole array.
theorem step (l : Fin 3) (X : Arr 512 512) (Win : Arr 512 8192) (Wout : Arr 8192 512)
    (hx : ∀ c : Dev nD, xc m l.val c = rows c X) (hw : ∀ c : Dev nD, win m l c = cols c Win)
    (hwo : ∀ c : Dev nD, wout m l c = hid c Wout) (c : Dev nD) :
    xc m (l.val + 1) c = rows c (layer X Win Wout) := by
  funext i
  obtain ⟨p, q, rfl⟩ : ∃ p q, i = ix2 p q := ⟨_, _, eq_ix2 i⟩
  have hslot (d : Dev nD) (o : Fin 8) : pbAt m l.val d (rowOf o p) q
      = layer (rows (back d o) X) (cols d Win) (hid d Wout) (ix2 p q) := by rw [pbAt_slot, hx, hw, hwo]
  rw [layer_block, ring_sum _ c, xc, dif_pos l.isLt, next_apply]
  show pbAt m l.val c (rowOf 0 p) q + ∑ o : Fin 8, accAt m l.val c o p q = _
  simp only [accAt, pay3_eq, hslot, back_peer, back_zero]

theorem result_block (M0 : Arr 512 512) (M1 : Arr 512 8192) (M2 : Arr 8192 512) (M3 : Arr 512 8192) (M4 : Arr 8192 512)
    (M5 : Arr 512 8192) (M6 : Arr 8192 512)
    (h : ∀ c : Dev nD,
      m (c.tc.loc main_arg0) = Layout.block ⟨2, ![64, 512]⟩ ⟨2, ![512, 512]⟩ 0 8 c M0
      ∧ m (c.tc.loc main_arg1) = Layout.block ⟨2, ![512, 1024]⟩ ⟨2, ![512, 8192]⟩ 1 8 c M1
      ∧ m (c.tc.loc main_arg2) = Layout.block ⟨2, ![1024, 512]⟩ ⟨2, ![8192, 512]⟩ 0 8 c M2
      ∧ m (c.tc.loc main_arg3) = Layout.block ⟨2, ![512, 1024]⟩ ⟨2, ![512, 8192]⟩ 1 8 c M3
      ∧ m (c.tc.loc main_arg4) = Layout.block ⟨2, ![1024, 512]⟩ ⟨2, ![8192, 512]⟩ 0 8 c M4
      ∧ m (c.tc.loc main_arg5) = Layout.block ⟨2, ![512, 1024]⟩ ⟨2, ![512, 8192]⟩ 1 8 c M5
      ∧ m (c.tc.loc main_arg6) = Layout.block ⟨2, ![1024, 512]⟩ ⟨2, ![8192, 512]⟩ 0 8 c M6)
    (c : Dev nD) :
    xc m 3 c = Layout.block ⟨2, ![64, 512]⟩ ⟨2, ![512, 512]⟩ 0 8 c (mlp3 M0 M1 M2 M3 M4 M5 M6) := by
  have h0 (c : Dev nD) : xc m 0 c = rows c M0 := by rw [xc, pay2_eq]; exact (h c).1
  have h1 := step m 0 M0 M1 M2 h0 (fun c => (h c).2.1) (fun c => (h c).2.2.1)
  have h2 := step m 1 _ M3 M4 h1 (fun c => (h c).2.2.2.1) (fun c => (h c).2.2.2.2.1)
  exact step m 2 _ M5 M6 h2 (fun c => (h c).2.2.2.2.2.1) (fun c => (h c).2.2.2.2.2.2) c

end Cert.Value

end
-- ==== Proof.RefSide.lean ====
import proofs.«900983_g7700000000000984_dist_mlpseq_tp1d_bs_bs_b64_d512_h1024_v7x_i8_f32_1_alg».proof.Defs
import proofs.«900983_g7700000000000984_dist_mlpseq_tp1d_bs_bs_b64_d512_h1024_v7x_i8_f32_1_alg».proof.Proof.Gen.ReferenceIdeal.Read
import proofs.«900983_g7700000000000984_dist_mlpseq_tp1d_bs_bs_b64_d512_h1024_v7x_i8_f32_1_alg».proof.Proof.Spec
import Idealize.ShloMosaic.Lib.StackMember

noncomputable section

namespace Cert.RefSide

open Idealize.ShloMosaic Idealize.SL.Sem Idealize.ShloMosaic.ValueIdx Idealize.ShloMosaic.StackMember Cert.Spec Cert.ReferenceIdeal
  Cert.ReferenceIdeal.Read

-- A plain product, the maximum with the zero array and a plain product, index by index, is one layer.
theorem stage_eq_layer (Y : Arr 512 512) (W : Arr 512 8192) (O : Arr 8192 512) :
    val_main_v3 (F := Ideal) Y W O = layer Y W O := by
  funext i
  obtain ⟨p, q, rfl⟩ : ∃ p q, i = ix2 p q := ⟨_, _, eq_ix2 i⟩
  exact (dotGeneral_plain_apply (φ₂ := .f32) none _ O p q).trans (Finset.sum_congr rfl fun k _ =>
    congrArg₂ (max · · * _) (dotGeneral_plain_apply (φ₁ := .f32) (φ₂ := .f32) none Y W p k)
      ((val_main_v1_apply _).trans Ideal.ofBits_zero_f32))

theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r =>
      r.2.mem ((0 : Dev nD).tc.loc main_v11) = mlp3 (m' ((0 : Dev nD).tc.loc main_arg0)) (m' ((0 : Dev nD).tc.loc main_arg1))
          (m' ((0 : Dev nD).tc.loc main_arg2)) (m' ((0 : Dev nD).tc.loc main_arg3)) (m' ((0 : Dev nD).tc.loc main_arg4))
          (m' ((0 : Dev nD).tc.loc main_arg5)) (m' ((0 : Dev nD).tc.loc main_arg6))
      ∧ r.2.mem ((0 : Dev nD).tc.loc main_arg0) = m' ((0 : Dev nD).tc.loc main_arg0)
      ∧ r.2.mem ((0 : Dev nD).tc.loc main_arg1) = m' ((0 : Dev nD).tc.loc main_arg1)
      ∧ r.2.mem ((0 : Dev nD).tc.loc main_arg2) = m' ((0 : Dev nD).tc.loc main_arg2)
      ∧ r.2.mem ((0 : Dev nD).tc.loc main_arg3) = m' ((0 : Dev nD).tc.loc main_arg3)
      ∧ r.2.mem ((0 : Dev nD).tc.loc main_arg4) = m' ((0 : Dev nD).tc.loc main_arg4)
      ∧ r.2.mem ((0 : Dev nD).tc.loc main_arg5) = m' ((0 : Dev nD).tc.loc main_arg5)
      ∧ r.2.mem ((0 : Dev nD).tc.loc main_arg6) = m' ((0 : Dev nD).tc.loc main_arg6)) :=
  (θ_run defs _ _).mono
    (fun _ h => ⟨(h 0).1.trans (by simp only [mlp3, ← stage_eq_layer]; rfl), (h 0).2⟩) (Value.run m' ρ')

theorem frame_ri [hReferenceIdeal : Facts] [hPre_finite_inputs_ReferenceIdeal : Pre_finite_inputs_ReferenceIdeal.Facts] :
    frame_ReferenceIdeal :=
  fun m ρ _ => (θ_run defs _ _).mono (fun _ h c => (h c).2) (Value.run m ρ)

end Cert.RefSide

end
-- ==== Proof.lean ====
import proofs.«900983_g7700000000000984_dist_mlpseq_tp1d_bs_bs_b64_d512_h1024_v7x_i8_f32_1_alg».proof.Proof.Gen.Pre_finite_inputs_Kernel
import proofs.«900983_g7700000000000984_dist_mlpseq_tp1d_bs_bs_b64_d512_h1024_v7x_i8_f32_1_alg».proof.Proof.Gen.Pre_finite_inputs_ReferenceIdeal
import proofs.«900983_g7700000000000984_dist_mlpseq_tp1d_bs_bs_b64_d512_h1024_v7x_i8_f32_1_alg».proof.Proof.Launch
import proofs.«900983_g7700000000000984_dist_mlpseq_tp1d_bs_bs_b64_d512_h1024_v7x_i8_f32_1_alg».proof.Proof.LaunchK
import proofs.«900983_g7700000000000984_dist_mlpseq_tp1d_bs_bs_b64_d512_h1024_v7x_i8_f32_1_alg».proof.Proof.Value
import proofs.«900983_g7700000000000984_dist_mlpseq_tp1d_bs_bs_b64_d512_h1024_v7x_i8_f32_1_alg».proof.Proof.RefSide

noncomputable section

namespace Cert.Proof

open Idealize.ShloMosaic Idealize.SL.Sem

/-- Each device ends holding its rows of the three layers of the whole arrays, which is what the reference ends holding;
    a frame is a run with the result dropped, and the idealization rewrote nothing. -/
theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    fun m g _ => (θ_run Cert.Kernel.defs _ _).mono (fun _ h c => (h c).2) (Cert.KernelProof.run_main (F := Bits) m g),
    fun m g _ => (θ_run Cert.KernelIdeal.defs _ _).mono (fun _ h c => (h c).2) (Cert.KernelIdealProof.run_main (F := Ideal) m g),
    Cert.RefSide.frame_ri, trivial,
    fun m g m' g' _ hblocks => ⟨_, (θ_run Cert.KernelIdeal.defs _ _).mono
      (fun _ h c => ⟨(h c).1.trans (Cert.Value.result_block m _ _ _ _ _ _ _ hblocks c), (h c).2⟩)
      (Cert.KernelIdealProof.run_main (F := Ideal) m g), Cert.RefSide.ref_run m' g'⟩⟩

end Cert.Proof

end
